-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x256 : Shape := ⟨2, ![12288, 256]⟩
abbrev S12288x6144 : Shape := ⟨2, ![12288, 6144]⟩
abbrev S256x256 : Shape := ⟨2, ![256, 256]⟩
abbrev S256x1 : Shape := ⟨2, ![256, 1]⟩
abbrev S6144x12288 : Shape := ⟨2, ![6144, 12288]⟩
abbrev S6144x256 : Shape := ⟨2, ![6144, 256]⟩
abbrev S_ : Shape := ⟨0, ![]⟩
abbrev S6144 : Shape := ⟨1, ![6144]⟩
abbrev S6144x1 : Shape := ⟨2, ![6144, 1]⟩
abbrev S12288x1 : Shape := ⟨2, ![12288, 1]⟩
abbrev S1x6144 : Shape := ⟨2, ![1, 6144]⟩
abbrev S12288 : Shape := ⟨1, ![12288]⟩

class Facts : Prop where
  transposes_S12288x6144_S6144x12288_1_0 : S12288x6144.Transposes [1, 0] S6144x12288
  reducesTo_S6144x12288_S6144_d1 : S6144x12288.ReducesTo [1] S6144
  h_S_ : 0 < S_.numel
  bcast_S6144_S6144x1_0 : S6144.BroadcastsInDim S6144x1 (![0] : Fin 1 → Fin S6144x1.rank)
  bcast_S6144x1_S6144x256_0_1 : S6144x1.BroadcastsInDim S6144x256 (![0, 1] : Fin 2 → Fin S6144x256.rank)
  transposes_S6144x1_S1x6144_1_0 : S6144x1.Transposes [1, 0] S1x6144
  bcast_S12288x1_S12288x6144_0_1 : S12288x1.BroadcastsInDim S12288x6144 (![0, 1] : Fin 2 → Fin S12288x6144.rank)
  bcast_S1x6144_S12288x6144_0_1 : S1x6144.BroadcastsInDim S12288x6144 (![0, 1] : Fin 2 → Fin S12288x6144.rank)
  bcast_S_S12288x6144 : S_.BroadcastsInDim S12288x6144 (![] : Fin 0 → Fin S12288x6144.rank)
  reducesTo_S12288x6144_S12288_d1 : S12288x6144.ReducesTo [1] S12288
  bcast_S12288_S12288x1_0 : S12288.BroadcastsInDim S12288x1 (![0] : Fin 1 → Fin S12288x1.rank)
  reducesTo_S12288x6144_S6144_d0 : S12288x6144.ReducesTo [0] S6144
  bcast_S_S12288x256 : S_.BroadcastsInDim S12288x256 (![] : Fin 0 → Fin S12288x256.rank)
  reducesTo_S12288x256_S_d0_1 : S12288x256.ReducesTo [0, 1] S_
  reducesTo_S12288x6144_S_d0_1 : S12288x6144.ReducesTo [0, 1] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S12288x1 : S_.BroadcastsInDim S12288x1 (![] : Fin 0 → Fin S12288x1.rank)
  reducesTo_S12288x1_S_d0_1 : S12288x1.ReducesTo [0, 1] S_
  bcast_S_S6144 : S_.BroadcastsInDim S6144 (![] : Fin 0 → Fin S6144.rank)
  reducesTo_S6144_S_d0 : S6144.ReducesTo [0] S_
  dot_S6144x12288_S12288x256_S6144x256_1_0_0_1_n_n_wf : DotDims.WF S6144x12288 S12288x256 S6144x256 [1] [0] [0] [1] [] []
  dot_S12288x256_S256x256_S12288x256_1_0_0_1_n_n_wf : DotDims.WF S12288x256 S256x256 S12288x256 [1] [0] [0] [1] [] []
  dot_S6144x256_S256x256_S6144x256_1_0_0_1_n_n_wf : DotDims.WF S6144x256 S256x256 S6144x256 [1] [0] [0] [1] [] []
  dot_S12288x256_S256x1_S12288x1_1_0_0_1_n_n_wf : DotDims.WF S12288x256 S256x1 S12288x1 [1] [0] [0] [1] [] []
  dot_S6144x256_S256x1_S6144x1_1_0_0_1_n_n_wf : DotDims.WF S6144x256 S256x1 S6144x1 [1] [0] [0] [1] [] []

variable [Facts]

def dot_S6144x12288_S12288x256_S6144x256_1_0_0_1_n_n : DotDims S6144x12288 S12288x256 S6144x256 where
  lhsContracting := [1]
  rhsContracting := [0]
  lhsNonContracting := [0]
  rhsNonContracting := [1]
  lhsBatch := []
  rhsBatch := []
  wf := dot_S6144x12288_S12288x256_S6144x256_1_0_0_1_n_n_wf
def dot_S12288x256_S256x256_S12288x256_1_0_0_1_n_n : DotDims S12288x256 S256x256 S12288x256 where
  lhsContracting := [1]
  rhsContracting := [0]
  lhsNonContracting := [0]
  rhsNonContracting := [1]
  lhsBatch := []
  rhsBatch := []
  wf := dot_S12288x256_S256x256_S12288x256_1_0_0_1_n_n_wf
def dot_S6144x256_S256x256_S6144x256_1_0_0_1_n_n : DotDims S6144x256 S256x256 S6144x256 where
  lhsContracting := [1]
  rhsContracting := [0]
  lhsNonContracting := [0]
  rhsNonContracting := [1]
  lhsBatch := []
  rhsBatch := []
  wf := dot_S6144x256_S256x256_S6144x256_1_0_0_1_n_n_wf
def dot_S12288x256_S256x1_S12288x1_1_0_0_1_n_n : DotDims S12288x256 S256x1 S12288x1 where
  lhsContracting := [1]
  rhsContracting := [0]
  lhsNonContracting := [0]
  rhsNonContracting := [1]
  lhsBatch := []
  rhsBatch := []
  wf := dot_S12288x256_S256x1_S12288x1_1_0_0_1_n_n_wf
def dot_S6144x256_S256x1_S6144x1_1_0_0_1_n_n : DotDims S6144x256 S256x1 S6144x1 where
  lhsContracting := [1]
  rhsContracting := [0]
  lhsNonContracting := [0]
  rhsNonContracting := [1]
  lhsBatch := []
  rhsBatch := []
  wf := dot_S6144x256_S256x1_S6144x1_1_0_0_1_n_n_wf
def fn_part3 {F : FTy → Type} [FloatOps F] (main_v27 : FVec F S12288x1 .f32) (main_v30 : FVec F S6144 .f32) (main_v54 : IVec S_ 1) : IVec S_ 1 :=
  let main_cst_15 : FVec F S_ .f32 := constant S_ .f32 0x00000000#32
  let main_v55 : FVec F S12288x1 .f32 := broadcastInDim S12288x1 ![] bcast_S_S12288x1 main_cst_15
  let main_v56 : IVec S12288x1 1 := cmpf .une main_v27 main_v55
  let main_c_16 : IVec S_ 1 := constantI S_ 1 1#1
  let main_v57 : IVec S_ 1 := (fun x v => Host.reduce IntOp.andi x v reducesTo_S12288x1_S_d0_1 h_S_) main_v56 main_c_16
  let main_v58 : IVec S_ 1 := andi main_v54 main_v57
  let main_cst_17 : FVec F S_ .f32 := constant S_ .f32 0x00000000#32
  let main_v59 : FVec F S6144 .f32 := broadcastInDim S6144 ![] bcast_S_S6144 main_cst_17
  let main_v60 : IVec S6144 1 := cmpf .une main_v30 main_v59
  let main_c_18 : IVec S_ 1 := constantI S_ 1 1#1
  let main_v61 : IVec S_ 1 := (fun x v => Host.reduce IntOp.andi x v reducesTo_S6144_S_d0 h_S_) main_v60 main_c_18
  let main_v62 : IVec S_ 1 := andi main_v58 main_v61
  main_v62

def fn_part2 {F : FTy → Type} [FloatOps F] (main_arg2 : FVec F S256x256 .f32) (main_arg3 : FVec F S256x1 .f32) (main_arg4 : FVec F S256x1 .f32) (main_v27 : FVec F S12288x1 .f32) (main_v30 : FVec F S6144 .f32) (main_v34 : IVec S_ 1) (main_v37 : IVec S12288x6144 1) : IVec S_ 1 :=
  let main_c_8 : IVec S_ 1 := constantI S_ 1 1#1
  let main_v38 : IVec S_ 1 := (fun x v => Host.reduce IntOp.andi x v reducesTo_S12288x6144_S_d0_1 h_S_) main_v37 main_c_8
  let main_v39 : IVec S_ 1 := andi main_v34 main_v38
  let main_v40 : FVec F S256x256 .f32 := Host.absf main_arg2
  let main_cst_9 : FVec F S_ .f32 := constant S_ .f32 0x7F800000#32
  let main_v41 : FVec F S256x256 .f32 := broadcastInDim S256x256 ![] bcast_S_S256x256 main_cst_9
  let main_v42 : IVec S256x256 1 := cmpf .olt main_v40 main_v41
  let main_c_10 : IVec S_ 1 := constantI S_ 1 1#1
  let main_v43 : IVec S_ 1 := (fun x v => Host.reduce IntOp.andi x v reducesTo_S256x256_S_d0_1 h_S_) main_v42 main_c_10
  let main_v44 : IVec S_ 1 := andi main_v39 main_v43
  let main_v45 : FVec F S256x1 .f32 := Host.absf main_arg3
  let main_cst_11 : FVec F S_ .f32 := constant S_ .f32 0x7F800000#32
  let main_v46 : FVec F S256x1 .f32 := broadcastInDim S256x1 ![] bcast_S_S256x1 main_cst_11
  let main_v47 : IVec S256x1 1 := cmpf .olt main_v45 main_v46
  let main_c_12 : IVec S_ 1 := constantI S_ 1 1#1
  let main_v48 : IVec S_ 1 := (fun x v => Host.reduce IntOp.andi x v reducesTo_S256x1_S_d0_1 h_S_) main_v47 main_c_12
  let main_v49 : IVec S_ 1 := andi main_v44 main_v48
  let main_v50 : FVec F S256x1 .f32 := Host.absf main_arg4
  let main_cst_13 : FVec F S_ .f32 := constant S_ .f32 0x7F800000#32
  let main_v51 : FVec F S256x1 .f32 := broadcastInDim S256x1 ![] bcast_S_S256x1 main_cst_13
  let main_v52 : IVec S256x1 1 := cmpf .olt main_v50 main_v51
  let main_c_14 : IVec S_ 1 := constantI S_ 1 1#1
  let main_v53 : IVec S_ 1 := (fun x v => Host.reduce IntOp.andi x v reducesTo_S256x1_S_d0_1 h_S_) main_v52 main_c_14
  let main_v54 : IVec S_ 1 := andi main_v49 main_v53
  fn_part3 (F := F) main_v27 main_v30 main_v54

def fn_part1 {F : FTy → Type} [FloatOps F] (main_arg0 : FVec F S12288x256 .f32) (main_arg1 : FVec F S12288x6144 .f32) (main_arg2 : FVec F S256x256 .f32) (main_arg3 : FVec F S256x1 .f32) (main_arg4 : FVec F S256x1 .f32) (main_v18 : FVec F S12288x6144 .f32) (main_v19 : FVec F S12288x6144 .f32) : IVec S_ 1 :=
  let main_v20 : IVec S12288x6144 1 := cmpf .oge main_v18 main_v19
  let main_cst_3 : FVec F S_ .f32 := constant S_ .f32 0x3DCCCCCD#32
  let main_v21 : FVec F S12288x6144 .f32 := broadcastInDim S12288x6144 ![] bcast_S_S12288x6144 main_cst_3
  let main_v22 : FVec F S12288x6144 .f32 := mulf main_v21 main_v18
  let main_v23 : FVec F S12288x6144 .f32 := select main_v20 main_v18 main_v22
  let main_v24 : FVec F S12288x6144 .f32 := Host.exp main_v23
  let main_v25 : FVec F S12288x6144 .f32 := mulf main_v24 main_arg1
  let main_cst_4 : FVec F S_ .f32 := constant S_ .f32 0x00000000#32
  let main_v26 : FVec F S12288 .f32 := (fun x v => Host.reduceAdd x v reducesTo_S12288x6144_S12288_d1 h_S_) main_v25 main_cst_4
  let main_v27 : FVec F S12288x1 .f32 := broadcastInDim S12288x1 ![0] bcast_S12288_S12288x1_0 main_v26
  let main_v28 : FVec F S12288x6144 .f32 := broadcastInDim S12288x6144 ![0, 1] bcast_S12288x1_S12288x6144_0_1 main_v27
  let main_v29 : FVec F S12288x6144 .f32 := Host.divf main_v25 main_v28
  let main_cst_5 : FVec F S_ .f32 := constant S_ .f32 0x00000000#32
  let main_v30 : FVec F S6144 .f32 := (fun x v => Host.reduceAdd x v reducesTo_S12288x6144_S6144_d0 h_S_) main_v29 main_cst_5
  let main_v31 : FVec F S12288x256 .f32 := Host.absf main_arg0
  let main_cst_6 : FVec F S_ .f32 := constant S_ .f32 0x7F800000#32
  let main_v32 : FVec F S12288x256 .f32 := broadcastInDim S12288x256 ![] bcast_S_S12288x256 main_cst_6
  let main_v33 : IVec S12288x256 1 := cmpf .olt main_v31 main_v32
  let main_c : IVec S_ 1 := constantI S_ 1 1#1
  let main_v34 : IVec S_ 1 := (fun x v => Host.reduce IntOp.andi x v reducesTo_S12288x256_S_d0_1 h_S_) main_v33 main_c
  let main_v35 : FVec F S12288x6144 .f32 := Host.absf main_arg1
  let main_cst_7 : FVec F S_ .f32 := constant S_ .f32 0x7F800000#32
  let main_v36 : FVec F S12288x6144 .f32 := broadcastInDim S12288x6144 ![] bcast_S_S12288x6144 main_cst_7
  let main_v37 : IVec S12288x6144 1 := cmpf .olt main_v35 main_v36
  fn_part2 (F := F) main_arg2 main_arg3 main_arg4 main_v27 main_v30 main_v34 main_v37

def fn {F : FTy → Type} [FloatOps F] (main_arg0 : FVec F S12288x256 .f32) (main_arg1 : FVec F S12288x6144 .f32) (main_arg2 : FVec F S256x256 .f32) (main_arg3 : FVec F S256x1 .f32) (main_arg4 : FVec F S256x1 .f32) : IVec S_ 1 :=
  let main_v0 : FVec F S6144x12288 .f32 := (transpose S6144x12288 [1, 0] · transposes_S12288x6144_S6144x12288_1_0) main_arg1
  let main_v1 : FVec F S6144x256 .f32 := (fun l r => Host.dotGeneral dot_S6144x12288_S12288x256_S6144x256_1_0_0_1_n_n none l r) main_v0 main_arg0
  let main_cst : FVec F S_ .f32 := constant S_ .f32 0x00000000#32
  let main_v2 : FVec F S6144 .f32 := (fun x v => Host.reduceAdd x v reducesTo_S6144x12288_S6144_d1 h_S_) main_v0 main_cst
  let main_v3 : FVec F S6144x1 .f32 := broadcastInDim S6144x1 ![0] bcast_S6144_S6144x1_0 main_v2
  let main_v4 : FVec F S6144x256 .f32 := broadcastInDim S6144x256 ![0, 1] bcast_S6144x1_S6144x256_0_1 main_v3
  let main_v5 : FVec F S6144x256 .f32 := Host.divf main_v1 main_v4
  let main_v6 : FVec F S12288x256 .f32 := (fun l r => Host.dotGeneral dot_S12288x256_S256x256_S12288x256_1_0_0_1_n_n none l r) main_arg0 main_arg2
  let main_v7 : FVec F S6144x256 .f32 := (fun l r => Host.dotGeneral dot_S6144x256_S256x256_S6144x256_1_0_0_1_n_n none l r) main_v5 main_arg2
  let main_v8 : FVec F S12288x1 .f32 := (fun l r => Host.dotGeneral dot_S12288x256_S256x1_S12288x1_1_0_0_1_n_n none l r) main_v6 main_arg3
  let main_v9 : FVec F S6144x1 .f32 := (fun l r => Host.dotGeneral dot_S6144x256_S256x1_S6144x1_1_0_0_1_n_n none l r) main_v7 main_arg4
  let main_v10 : FVec F S1x6144 .f32 := (transpose S1x6144 [1, 0] · transposes_S6144x1_S1x6144_1_0) main_v9
  let main_v11 : FVec F S12288x6144 .f32 := broadcastInDim S12288x6144 ![0, 1] bcast_S12288x1_S12288x6144_0_1 main_v8
  let main_v12 : FVec F S12288x6144 .f32 := broadcastInDim S12288x6144 ![0, 1] bcast_S1x6144_S12288x6144_0_1 main_v10
  let main_v13 : FVec F S12288x6144 .f32 := addf main_v11 main_v12
  let main_cst_0 : FVec F S_ .f32 := constant S_ .f32 0x41000000#32
  let main_v14 : FVec F S12288x6144 .f32 := broadcastInDim S12288x6144 ![] bcast_S_S12288x6144 main_cst_0
  let main_v15 : FVec F S12288x6144 .f32 := Host.divf main_v13 main_v14
  let main_v16 : FVec F S12288x6144 .f32 := Host.tanh main_v15
  let main_cst_1 : FVec F S_ .f32 := constant S_ .f32 0x41000000#32
  let main_v17 : FVec F S12288x6144 .f32 := broadcastInDim S12288x6144 ![] bcast_S_S12288x6144 main_cst_1
  let main_v18 : FVec F S12288x6144 .f32 := mulf main_v16 main_v17
  let main_cst_2 : FVec F S_ .f32 := constant S_ .f32 0x00000000#32
  let main_v19 : FVec F S12288x6144 .f32 := broadcastInDim S12288x6144 ![] bcast_S_S12288x6144 main_cst_2
  fn_part1 (F := F) main_arg0 main_arg1 main_arg2 main_arg3 main_arg4 main_v18 main_v19
-- ==== Kernel.lean ====
abbrev S12288x256 : Shape := ⟨2, ![12288, 256]⟩
abbrev S12288x6144 : Shape := ⟨2, ![12288, 6144]⟩
abbrev S256x256 : Shape := ⟨2, ![256, 256]⟩
abbrev S256x1 : Shape := ⟨2, ![256, 1]⟩
abbrev S6144x256 : Shape := ⟨2, ![6144, 256]⟩
abbrev S1024x1536 : Shape := ⟨2, ![1024, 1536]⟩
abbrev S1536x256 : Shape := ⟨2, ![1536, 256]⟩
abbrev S1x1536 : Shape := ⟨2, ![1, 1536]⟩
abbrev S1024x256 : Shape := ⟨2, ![1024, 256]⟩
abbrev S1536 : Shape := ⟨1, ![1536]⟩
abbrev S1536x1 : Shape := ⟨2, ![1536, 1]⟩
abbrev S12288x1 : Shape := ⟨2, ![12288, 1]⟩
abbrev S6144x1 : Shape := ⟨2, ![6144, 1]⟩
abbrev S1x6144 : Shape := ⟨2, ![1, 6144]⟩
abbrev S128x6144 : Shape := ⟨2, ![128, 6144]⟩
abbrev S128x1 : Shape := ⟨2, ![128, 1]⟩
abbrev S128 : Shape := ⟨1, ![128]⟩
abbrev S256x6144 : Shape := ⟨2, ![256, 6144]⟩
abbrev S256x1536 : Shape := ⟨2, ![256, 1536]⟩

abbrev nBuf : Space → Nat
  | .hbm => 15
  | .vmem => 27
  | .smem => 0
  | _ => 0

abbrev bufTy : (tb : Table) → Fin (tcTables nBuf tb) → BufTy
  | .hbm, ⟨0, _⟩ => ⟨S12288x256, .f32⟩
  | .hbm, ⟨1, _⟩ => ⟨S12288x6144, .f32⟩
  | .hbm, ⟨2, _⟩ => ⟨S256x256, .f32⟩
  | .hbm, ⟨3, _⟩ => ⟨S256x1, .f32⟩
  | .hbm, ⟨4, _⟩ => ⟨S256x1, .f32⟩
  | .hbm, ⟨5, _⟩ => ⟨S6144x256, .f32⟩
  | .hbm, ⟨6, _⟩ => ⟨S12288x256, .f32⟩
  | .hbm, ⟨7, _⟩ => ⟨S6144x256, .f32⟩
  | .hbm, ⟨8, _⟩ => ⟨S12288x1, .f32⟩
  | .hbm, ⟨9, _⟩ => ⟨S6144x1, .f32⟩
  | .hbm, ⟨10, _⟩ => ⟨S1x6144, .f32⟩
  | .hbm, ⟨11, _⟩ => ⟨S12288x256, .bf16⟩
  | .hbm, ⟨12, _⟩ => ⟨S12288x6144, .bf16⟩
  | .hbm, ⟨13, _⟩ => ⟨S256x6144, .bf16⟩
  | .hbm, ⟨14, _⟩ => ⟨S12288x256, .f32⟩
  | .local _ .vmem, ⟨0, _⟩ => ⟨S1024x1536, .f32⟩
  | .local _ .vmem, ⟨1, _⟩ => ⟨S1024x1536, .f32⟩
  | .local _ .vmem, ⟨2, _⟩ => ⟨S12288x256, .f32⟩
  | .local _ .vmem, ⟨3, _⟩ => ⟨S1536x256, .f32⟩
  | .local _ .vmem, ⟨4, _⟩ => ⟨S1536x256, .f32⟩
  | .local _ .vmem, ⟨5, _⟩ => ⟨S1536x256, .f32⟩
  | .local _ .vmem, ⟨6, _⟩ => ⟨S1x1536, .f32⟩
  | .local _ .vmem, ⟨7, _⟩ => ⟨S128x6144, .f32⟩
  | .local _ .vmem, ⟨8, _⟩ => ⟨S128x6144, .f32⟩
  | .local _ .vmem, ⟨9, _⟩ => ⟨S128x1, .f32⟩
  | .local _ .vmem, ⟨10, _⟩ => ⟨S128x1, .f32⟩
  | .local _ .vmem, ⟨11, _⟩ => ⟨S1x6144, .f32⟩
  | .local _ .vmem, ⟨12, _⟩ => ⟨S128x6144, .bf16⟩
  | .local _ .vmem, ⟨13, _⟩ => ⟨S128x6144, .bf16⟩
  | .local _ .vmem, ⟨14, _⟩ => ⟨S1024x1536, .bf16⟩
  | .local _ .vmem, ⟨15, _⟩ => ⟨S1024x1536, .bf16⟩
  | .local _ .vmem, ⟨16, _⟩ => ⟨S12288x256, .bf16⟩
  | .local _ .vmem, ⟨17, _⟩ => ⟨S256x1536, .bf16⟩
  | .local _ .vmem, ⟨18, _⟩ => ⟨S256x1536, .bf16⟩
  | .local _ .vmem, ⟨19, _⟩ => ⟨S256x1536, .f32⟩
  | .local _ .vmem, ⟨20, _⟩ => ⟨S1x1536, .f32⟩
  | .local _ .vmem, ⟨21, _⟩ => ⟨S1024x1536, .bf16⟩
  | .local _ .vmem, ⟨22, _⟩ => ⟨S1024x1536, .bf16⟩
  | .local _ .vmem, ⟨23, _⟩ => ⟨S256x6144, .bf16⟩
  | .local _ .vmem, ⟨24, _⟩ => ⟨S1024x256, .f32⟩
  | .local _ .vmem, ⟨25, _⟩ => ⟨S1024x256, .f32⟩
  | .local _ .vmem, ⟨26, _⟩ => ⟨S1024x256, .f32⟩
  | _, _ => ⟨S12288x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_scratch0 : Ref sig .tc := ⟨.vmem, 19, rfl⟩
abbrev cc2_scratch1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨2, ![4, 12], ![false, false]⟩

def k0_mult1 (i : grid0.Coords) : BitVec 32 :=
  let arg1 : BitVec 32 := BitVec.ofNat 32 (i 1).val
  let c1024_i32 : BitVec 32 := 1024#32
  let v4 : BitVec 32 := Scalar.muli arg1 c1024_i32
  v4
def k0_off1 (i : grid0.Coords) : Fin 2 → Nat :=
  let arg1 : BitVec 32 := BitVec.ofNat 32 (i 1).val
  let c1024_i32 : BitVec 32 := 1024#32
  let v4 : BitVec 32 := Scalar.muli arg1 c1024_i32
  let v5 : BitVec 32 := v4
  let v6 : Index := Scalar.indexCast v5
  let c0_2 : Index := 0#32
  ![v6.toNat, 0]
def k0_cond2 (i : grid0.Coords) : BitVec 1 :=
  let arg1 : BitVec 32 := BitVec.ofNat 32 (i 1).val
  let c11_i32 : BitVec 32 := 11#32
  let v23 : BitVec 1 := Scalar.cmpi .eq arg1 c11_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S12288x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1536x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![96], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x6144 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x6144 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x6144 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![4, 12], ![false, false]⟩

def k2_mult1 (i : grid2.Coords) : BitVec 32 :=
  let arg1 : BitVec 32 := BitVec.ofNat 32 (i 1).val
  let c1024_i32 : BitVec 32 := 1024#32
  let v5 : BitVec 32 := Scalar.muli arg1 c1024_i32
  v5
def k2_off1 (i : grid2.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k2_cond2 (i : grid2.Coords) : BitVec 1 :=
  let arg1 : BitVec 32 := BitVec.ofNat 32 (i 1).val
  let c11_i32 : BitVec 32 := 11#32
  let v24 : BitVec 1 := Scalar.cmpi .eq arg1 c11_i32
  let v25 : BitVec 32 := Scalar.extui v24
  let c0_i32_12 : BitVec 32 := 0#32
  let v26 : BitVec 1 := Scalar.cmpi .ne v25 c0_i32_12
  v26

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S1024x1536 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S12288x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S256x1536 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![12, 4], ![false, false]⟩

def k3_mult1 (i : grid3.Coords) : BitVec 32 :=
  let arg1 : BitVec 32 := BitVec.ofNat 32 (i 1).val
  let c1536_i32 : BitVec 32 := 1536#32
  let v5 : BitVec 32 := Scalar.muli arg1 c1536_i32
  v5
def k3_off1 (i : grid3.Coords) : Fin 2 → Nat :=
  let c0_2 : Index := 0#32
  let arg1 : BitVec 32 := BitVec.ofNat 32 (i 1).val
  let c1536_i32 : BitVec 32 := 1536#32
  let v5 : BitVec 32 := Scalar.muli arg1 c1536_i32
  let v6 : BitVec 32 := v5
  let v7 : Index := Scalar.indexCast v6
  ![0, v7.toNat]
def k3_cond2 (i : grid3.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1536 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S256x6144 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S1024x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

class Facts₀ : Prop where
  inb_S1536x256_S1536x256_0_0 : ∀ a, (![0, 0] : Fin 2 → Nat) a + S1536x256.size a ≤ S1536x256.size a
  h_S1536x256 : 0 < S1536x256.numel
  shapeCasts_S1536x256_S1536x256 : S1536x256.ShapeCasts S1536x256
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  inb_S1024x1536_S1024x1536_0_0 : ∀ a, (![0, 0] : Fin 2 → Nat) a + S1024x1536.size a ≤ S1024x1536.size a
  h_S1024x1536 : 0 < S1024x1536.numel
  h_S1024x256 : 0 < S1024x256.numel
  bitsLt_bf16_f32 : FTy.bits .bf16 < FTy.bits .f32
  reduces_S1024x1536_S1536 : S1024x1536.Reduces [0] S1536
  shapeCasts_S1536_S1x1536 : S1536.ShapeCasts S1x1536
  transposes_S1x1536_p1_0_S1536x1 : S1x1536.Transposes [1, 0] S1536x1
  broadcasts_S1536x1_S1536x256 : S1536x1.Broadcasts S1536x256
  transposes_S6144x1_S1x6144_1_0 : S6144x1.Transposes [1, 0] S1x6144
  inb_S128x6144_S128x6144_0_0 : ∀ a, (![0, 0] : Fin 2 → Nat) a + S128x6144.size a ≤ S128x6144.size a
  h_S128x6144 : 0 < S128x6144.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x6144_S1x6144_0_0 : ∀ a, (![0, 0] : Fin 2 → Nat) a + S1x6144.size a ≤ S1x6144.size a
  h_S1x6144 : 0 < S1x6144.numel
  shapeCasts_S1x6144_S1x6144 : S1x6144.ShapeCasts S1x6144
  broadcasts_S128x1_S128x6144 : S128x1.Broadcasts S128x6144
  broadcasts_S1x6144_S128x6144 : S1x6144.Broadcasts S128x6144
  reduces_S128x6144_S128 : S128x6144.Reduces [1] S128
  shapeCasts_S128_S128x1 : S128.ShapeCasts S128x1
  packedbf16_S128x6144_S128x6144_0_0 : (Rect.unit (s := S128x6144) ![0, 0] S128x6144.size inb_S128x6144_S128x6144_0_0).PackedRows (EltTy.packing .bf16)
  inb_S256x1536_S256x1536_0_0 : ∀ a, (![0, 0] : Fin 2 → Nat) a + S256x1536.size a ≤ S256x1536.size a
  h_S256x1536 : 0 < S256x1536.numel
  shapeCasts_S256x1536_S256x1536 : S256x1536.ShapeCasts S256x1536
  shapeCasts_S1024x1536_S1024x1536 : S1024x1536.ShapeCasts S1024x1536
  shapeCasts_S1024x256_S1024x256 : S1024x256.ShapeCasts S1024x256
  broadcasts_S1x1536_S256x1536 : S1x1536.Broadcasts S256x1536
  packedbf16_S256x1536_S256x1536_0_0 : (Rect.unit (s := S256x1536) ![0, 0] S256x1536.size inb_S256x1536_S256x1536_0_0).PackedRows (EltTy.packing .bf16)
  inb_S1024x256_S1024x256_0_0 : ∀ a, (![0, 0] : Fin 2 → Nat) a + S1024x256.size a ≤ S1024x256.size a
  dot_S1024x1536_S1024x256_S1536x256_0_0_1_1_n_n_wf : DotDims.WF S1024x1536 S1024x256 S1536x256 [0] [0] [1] [1] [] []
  dot_S12288x256_S256x256_S12288x256_1_0_0_1_n_n_wf : DotDims.WF S12288x256 S256x256 S12288x256 [1] [0] [0] [1] [] []
  dot_S6144x256_S256x256_S6144x256_1_0_0_1_n_n_wf : DotDims.WF S6144x256 S256x256 S6144x256 [1] [0] [0] [1] [] []
  dot_S12288x256_S256x1_S12288x1_1_0_0_1_n_n_wf : DotDims.WF S12288x256 S256x1 S12288x1 [1] [0] [0] [1] [] []
  dot_S6144x256_S256x1_S6144x1_1_0_0_1_n_n_wf : DotDims.WF S6144x256 S256x1 S6144x1 [1] [0] [0] [1] [] []
  dot_S1024x256_S1024x1536_S256x1536_0_0_1_1_n_n_wf : DotDims.WF S1024x256 S1024x1536 S256x1536 [0] [0] [1] [1] [] []
  dot_S1024x1536_S256x1536_S1024x256_1_1_0_0_n_n_wf : DotDims.WF S1024x1536 S256x1536 S1024x256 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S12288x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1536.size a ≤ S12288x6144.size a
  hwx0_0 : ∀ i : grid0.Coords, EltTy.bits .f32 = 32 ∨ (Rect.block (s := S12288x6144) S1024x1536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12288x256.size a ≤ S12288x256.size a
  hwx0_1 : ∀ i : grid0.Coords, EltTy.bits .f32 = 32 ∨ (Rect.block (s := S12288x256) S12288x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1536x256.size a ≤ S6144x256.size a
  hwx0_2 : ∀ i : grid0.Coords, EltTy.bits .f32 = 32 ∨ (Rect.block (s := S6144x256) S1536x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x6144.size a ≤ S12288x6144.size a
  hwx1_0 : ∀ i : grid1.Coords, EltTy.bits .f32 = 32 ∨ (Rect.block (s := S12288x6144) S128x6144.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S12288x1.size a
  hwx1_1 : ∀ i : grid1.Coords, EltTy.bits .f32 = 32 ∨ (Rect.block (s := S12288x1) S128x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x6144.size a ≤ S1x6144.size a
  hwx1_2 : ∀ i : grid1.Coords, EltTy.bits .f32 = 32 ∨ (Rect.block (s := S1x6144) S1x6144.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x6144.size a ≤ S12288x6144.size a
  hwx1_3 : ∀ i : grid1.Coords, EltTy.bits .bf16 = 32 ∨ (Rect.block (s := S12288x6144) S128x6144.size (cc1_transform_3 i) (hinb1_3 i)).WholeWords (EltTy.packing .bf16)
  hrank2 : 0 < grid2.rank
  k2_mult1_dvd : ∀ i : grid2.Coords, 1024 ∣ (k2_mult1 i).toNat
  k2_off1_inb : ∀ i : grid2.Coords, ∀ a, (k2_off1 i) a + S1024x256.size a ≤ S12288x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1536.size a ≤ S12288x6144.size a
  hwx2_0 : ∀ i : grid2.Coords, EltTy.bits .bf16 = 32 ∨ (Rect.block (s := S12288x6144) S1024x1536.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S12288x256.size a ≤ S12288x256.size a
  hwx2_1 : ∀ i : grid2.Coords, EltTy.bits .bf16 = 32 ∨ (Rect.block (s := S12288x256) S12288x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1536.size a ≤ S256x6144.size a
  hwx2_2 : ∀ i : grid2.Coords, EltTy.bits .bf16 = 32 ∨ (Rect.block (s := S256x6144) S256x1536.size (cc2_transform_2 i) (hinb2_2 i)).WholeWords (EltTy.packing .bf16)
  hrank3 : 0 < grid3.rank
  k3_mult1_dvd : ∀ i : grid3.Coords, 1536 ∣ (k3_mult1 i).toNat
  k3_off1_inb : ∀ i : grid3.Coords, ∀ a, (k3_off1 i) a + S256x1536.size a ≤ S256x6144.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1536.size a ≤ S12288x6144.size a
  hwx3_0 : ∀ i : grid3.Coords, EltTy.bits .bf16 = 32 ∨ (Rect.block (s := S12288x6144) S1024x1536.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x6144.size a ≤ S256x6144.size a
  hwx3_1 : ∀ i : grid3.Coords, EltTy.bits .bf16 = 32 ∨ (Rect.block (s := S256x6144) S256x6144.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x256.size a ≤ S12288x256.size a
  hwx3_2 : ∀ i : grid3.Coords, EltTy.bits .f32 = 32 ∨ (Rect.block (s := S12288x256) S1024x256.size (cc3_transform_2 i) (hinb3_2 i)).WholeWords (EltTy.packing .f32)

variable [Facts₀]

def dot_S1024x1536_S1024x256_S1536x256_0_0_1_1_n_n : DotDims S1024x1536 S1024x256 S1536x256 where
  lhsContracting := [0]
  rhsContracting := [0]
  lhsNonContracting := [1]
  rhsNonContracting := [1]
  lhsBatch := []
  rhsBatch := []
  wf := dot_S1024x1536_S1024x256_S1536x256_0_0_1_1_n_n_wf
def dot_S12288x256_S256x256_S12288x256_1_0_0_1_n_n : DotDims S12288x256 S256x256 S12288x256 where
  lhsContracting := [1]
  rhsContracting := [0]
  lhsNonContracting := [0]
  rhsNonContracting := [1]
  lhsBatch := []
  rhsBatch := []
  wf := dot_S12288x256_S256x256_S12288x256_1_0_0_1_n_n_wf
def dot_S6144x256_S256x256_S6144x256_1_0_0_1_n_n : DotDims S6144x256 S256x256 S6144x256 where
  lhsContracting := [1]
  rhsContracting := [0]
  lhsNonContracting := [0]
  rhsNonContracting := [1]
  lhsBatch := []
  rhsBatch := []
  wf := dot_S6144x256_S256x256_S6144x256_1_0_0_1_n_n_wf
def dot_S12288x256_S256x1_S12288x1_1_0_0_1_n_n : DotDims S12288x256 S256x1 S12288x1 where
  lhsContracting := [1]
  rhsContracting := [0]
  lhsNonContracting := [0]
  rhsNonContracting := [1]
  lhsBatch := []
  rhsBatch := []
  wf := dot_S12288x256_S256x1_S12288x1_1_0_0_1_n_n_wf
def dot_S6144x256_S256x1_S6144x1_1_0_0_1_n_n : DotDims S6144x256 S256x1 S6144x1 where
  lhsContracting := [1]
  rhsContracting := [0]
  lhsNonContracting := [0]
  rhsNonContracting := [1]
  lhsBatch := []
  rhsBatch := []
  wf := dot_S6144x256_S256x1_S6144x1_1_0_0_1_n_n_wf
def dot_S1024x256_S1024x1536_S256x1536_0_0_1_1_n_n : DotDims S1024x256 S1024x1536 S256x1536 where
  lhsContracting := [0]
  rhsContracting := [0]
  lhsNonContracting := [1]
  rhsNonContracting := [1]
  lhsBatch := []
  rhsBatch := []
  wf := dot_S1024x256_S1024x1536_S256x1536_0_0_1_1_n_n_wf
def dot_S1024x1536_S256x1536_S1024x256_1_1_0_0_n_n : DotDims S1024x1536 S256x1536 S1024x256 where
  lhsContracting := [1]
  rhsContracting := [1]
  lhsNonContracting := [0]
  rhsNonContracting := [0]
  lhsBatch := []
  rhsBatch := []
  wf := dot_S1024x1536_S256x1536_S1024x256_1_1_0_0_n_n_wf

abbrev win0_0 : Pipeline.Window sig grid0 :=
  Pipeline.Window.ofSpec (Memref.whole main_arg1) S1024x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S12288x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1536x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S128x6144.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S128x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x6144.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S128x6144.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S1024x1536.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S12288x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S256x1536.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v7) S1024x1536.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S256x6144.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v9) S1024x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S12288x256 : Shape := ⟨2, ![12288, 256]⟩
abbrev S12288x6144 : Shape := ⟨2, ![12288, 6144]⟩
abbrev S256x256 : Shape := ⟨2, ![256, 256]⟩
abbrev S256x1 : Shape := ⟨2, ![256, 1]⟩
abbrev S6144x12288 : Shape := ⟨2, ![6144, 12288]⟩
abbrev S6144x256 : Shape := ⟨2, ![6144, 256]⟩
abbrev S_ : Shape := ⟨0, ![]⟩
abbrev S6144 : Shape := ⟨1, ![6144]⟩
abbrev S6144x1 : Shape := ⟨2, ![6144, 1]⟩
abbrev S12288x1 : Shape := ⟨2, ![12288, 1]⟩
abbrev S1x6144 : Shape := ⟨2, ![1, 6144]⟩
abbrev S12288 : Shape := ⟨1, ![12288]⟩

abbrev nBuf : Space → Nat
  | .hbm => 67
  | .vmem => 0
  | .smem => 0
  | _ => 0

abbrev bufTy : (tb : Table) → Fin (tcTables nBuf tb) → BufTy
  | .hbm, ⟨0, _⟩ => ⟨S12288x256, .f32⟩
  | .hbm, ⟨1, _⟩ => ⟨S12288x6144, .f32⟩
  | .hbm, ⟨2, _⟩ => ⟨S256x256, .f32⟩
  | .hbm, ⟨3, _⟩ => ⟨S256x1, .f32⟩
  | .hbm, ⟨4, _⟩ => ⟨S256x1, .f32⟩
  | .hbm, ⟨5, _⟩ => ⟨S6144x12288, .f32⟩
  | .hbm, ⟨6, _⟩ => ⟨S6144x256, .f32⟩
  | .hbm, ⟨7, _⟩ => ⟨S_, .f32⟩
  | .hbm, ⟨8, _⟩ => ⟨S6144, .f32⟩
  | .hbm, ⟨9, _⟩ => ⟨S6144x1, .f32⟩
  | .hbm, ⟨10, _⟩ => ⟨S6144x256, .f32⟩
  | .hbm, ⟨11, _⟩ => ⟨S6144x256, .f32⟩
  | .hbm, ⟨12, _⟩ => ⟨S12288x256, .f32⟩
  | .hbm, ⟨13, _⟩ => ⟨S6144x256, .f32⟩
  | .hbm, ⟨14, _⟩ => ⟨S12288x1, .f32⟩
  | .hbm, ⟨15, _⟩ => ⟨S6144x1, .f32⟩
  | .hbm, ⟨16, _⟩ => ⟨S1x6144, .f32⟩
  | .hbm, ⟨17, _⟩ => ⟨S12288x6144, .f32⟩
  | .hbm, ⟨18, _⟩ => ⟨S12288x6144, .f32⟩
  | .hbm, ⟨19, _⟩ => ⟨S12288x6144, .f32⟩
  | .hbm, ⟨20, _⟩ => ⟨S_, .f32⟩
  | .hbm, ⟨21, _⟩ => ⟨S12288x6144, .f32⟩
  | .hbm, ⟨22, _⟩ => ⟨S12288x6144, .f32⟩
  | .hbm, ⟨23, _⟩ => ⟨S12288x6144, .f32⟩
  | .hbm, ⟨24, _⟩ => ⟨S_, .f32⟩
  | .hbm, ⟨25, _⟩ => ⟨S12288x6144, .f32⟩
  | .hbm, ⟨26, _⟩ => ⟨S12288x6144, .f32⟩
  | .hbm, ⟨27, _⟩ => ⟨S_, .f32⟩
  | .hbm, ⟨28, _⟩ => ⟨S12288x6144, .f32⟩
  | .hbm, ⟨29, _⟩ => ⟨S12288x6144, .i1⟩
  | .hbm, ⟨30, _⟩ => ⟨S_, .f32⟩
  | .hbm, ⟨31, _⟩ => ⟨S12288x6144, .f32⟩
  | .hbm, ⟨32, _⟩ => ⟨S12288x6144, .f32⟩
  | .hbm, ⟨33, _⟩ => ⟨S12288x6144, .f32⟩
  | .hbm, ⟨34, _⟩ => ⟨S12288x6144, .f32⟩
  | .hbm, ⟨35, _⟩ => ⟨S12288x6144, .f32⟩
  | .hbm, ⟨36, _⟩ => ⟨S_, .f32⟩
  | .hbm, ⟨37, _⟩ => ⟨S12288, .f32⟩
  | .hbm, ⟨38, _⟩ => ⟨S12288x1, .f32⟩
  | .hbm, ⟨39, _⟩ => ⟨S12288x6144, .f32⟩
  | .hbm, ⟨40, _⟩ => ⟨S12288x6144, .f32⟩
  | .hbm, ⟨41, _⟩ => ⟨S_, .f32⟩
  | .hbm, ⟨42, _⟩ => ⟨S6144, .f32⟩
  | .hbm, ⟨43, _⟩ => ⟨S_, .f32⟩
  | .hbm, ⟨44, _⟩ => ⟨S6144, .f32⟩
  | .hbm, ⟨45, _⟩ => ⟨S6144, .f32⟩
  | .hbm, ⟨46, _⟩ => ⟨S_, .f32⟩
  | .hbm, ⟨47, _⟩ => ⟨S12288, .f32⟩
  | .hbm, ⟨48, _⟩ => ⟨S12288x1, .f32⟩
  | .hbm, ⟨49, _⟩ => ⟨S6144x1, .f32⟩
  | .hbm, ⟨50, _⟩ => ⟨S6144x12288, .f32⟩
  | .hbm, ⟨51, _⟩ => ⟨S12288x1, .f32⟩
  | .hbm, ⟨52, _⟩ => ⟨S12288x256, .f32⟩
  | .hbm, ⟨53, _⟩ => ⟨S12288x256, .f32⟩
  | .hbm, ⟨54, _⟩ => ⟨S6144x256, .f32⟩
  | .hbm, ⟨55, _⟩ => ⟨S6144x256, .f32⟩
  | .hbm, ⟨56, _⟩ => ⟨S6144x256, .f32⟩
  | .hbm, ⟨57, _⟩ => ⟨S12288x256, .f32⟩
  | .hbm, ⟨58, _⟩ => ⟨S12288x256, .f32⟩
  | .hbm, ⟨59, _⟩ => ⟨S12288x256, .f32⟩
  | .hbm, ⟨60, _⟩ => ⟨S_, .f32⟩
  | .hbm, ⟨61, _⟩ => ⟨S12288x256, .f32⟩
  | .hbm, ⟨62, _⟩ => ⟨S12288x256, .i1⟩
  | .hbm, ⟨63, _⟩ => ⟨S_, .f32⟩
  | .hbm, ⟨64, _⟩ => ⟨S12288x256, .f32⟩
  | .hbm, ⟨65, _⟩ => ⟨S12288x256, .f32⟩
  | .hbm, ⟨66, _⟩ => ⟨S12288x256, .f32⟩
  | _, _ => ⟨S12288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]

class Facts₀ : Prop where
  transposes_S12288x6144_S6144x12288_1_0 : S12288x6144.Transposes [1, 0] S6144x12288
  reducesTo_S6144x12288_S6144_d1 : S6144x12288.ReducesTo [1] S6144
  h_S_ : 0 < S_.numel
  bcast_S6144_S6144x1_0 : S6144.BroadcastsInDim S6144x1 (![0] : Fin 1 → Fin S6144x1.rank)
  bcast_S6144x1_S6144x256_0_1 : S6144x1.BroadcastsInDim S6144x256 (![0, 1] : Fin 2 → Fin S6144x256.rank)
  transposes_S6144x1_S1x6144_1_0 : S6144x1.Transposes [1, 0] S1x6144
  bcast_S12288x1_S12288x6144_0_1 : S12288x1.BroadcastsInDim S12288x6144 (![0, 1] : Fin 2 → Fin S12288x6144.rank)
  bcast_S1x6144_S12288x6144_0_1 : S1x6144.BroadcastsInDim S12288x6144 (![0, 1] : Fin 2 → Fin S12288x6144.rank)
  bcast_S_S12288x6144 : S_.BroadcastsInDim S12288x6144 (![] : Fin 0 → Fin S12288x6144.rank)
  reducesTo_S12288x6144_S12288_d1 : S12288x6144.ReducesTo [1] S12288
  bcast_S12288_S12288x1_0 : S12288.BroadcastsInDim S12288x1 (![0] : Fin 1 → Fin S12288x1.rank)
  reducesTo_S12288x6144_S6144_d0 : S12288x6144.ReducesTo [0] S6144
  bcast_S_S6144 : S_.BroadcastsInDim S6144 (![] : Fin 0 → Fin S6144.rank)
  bcast_S12288x1_S12288x256_0_1 : S12288x1.BroadcastsInDim S12288x256 (![0, 1] : Fin 2 → Fin S12288x256.rank)
  bcast_S_S12288x256 : S_.BroadcastsInDim S12288x256 (![] : Fin 0 → Fin S12288x256.rank)
  dot_S6144x12288_S12288x256_S6144x256_1_0_0_1_n_n_wf : DotDims.WF S6144x12288 S12288x256 S6144x256 [1] [0] [0] [1] [] []
  dot_S12288x256_S256x256_S12288x256_1_0_0_1_n_n_wf : DotDims.WF S12288x256 S256x256 S12288x256 [1] [0] [0] [1] [] []
  dot_S6144x256_S256x256_S6144x256_1_0_0_1_n_n_wf : DotDims.WF S6144x256 S256x256 S6144x256 [1] [0] [0] [1] [] []
  dot_S12288x256_S256x1_S12288x1_1_0_0_1_n_n_wf : DotDims.WF S12288x256 S256x1 S12288x1 [1] [0] [0] [1] [] []
  dot_S6144x256_S256x1_S6144x1_1_0_0_1_n_n_wf : DotDims.WF S6144x256 S256x1 S6144x1 [1] [0] [0] [1] [] []
  dot_S12288x6144_S6144x256_S12288x256_1_0_0_1_n_n_wf : DotDims.WF S12288x6144 S6144x256 S12288x256 [1] [0] [0] [1] [] []

variable [Facts₀]

def dot_S6144x12288_S12288x256_S6144x256_1_0_0_1_n_n : DotDims S6144x12288 S12288x256 S6144x256 where
  lhsContracting := [1]
  rhsContracting := [0]
  lhsNonContracting := [0]
  rhsNonContracting := [1]
  lhsBatch := []
  rhsBatch := []
  wf := dot_S6144x12288_S12288x256_S6144x256_1_0_0_1_n_n_wf
def dot_S12288x256_S256x256_S12288x256_1_0_0_1_n_n : DotDims S12288x256 S256x256 S12288x256 where
  lhsContracting := [1]
  rhsContracting := [0]
  lhsNonContracting := [0]
  rhsNonContracting := [1]
  lhsBatch := []
  rhsBatch := []
  wf := dot_S12288x256_S256x256_S12288x256_1_0_0_1_n_n_wf
def dot_S6144x256_S256x256_S6144x256_1_0_0_1_n_n : DotDims S6144x256 S256x256 S6144x256 where
  lhsContracting := [1]
  rhsContracting := [0]
  lhsNonContracting := [0]
  rhsNonContracting := [1]
  lhsBatch := []
  rhsBatch := []
  wf := dot_S6144x256_S256x256_S6144x256_1_0_0_1_n_n_wf
def dot_S12288x256_S256x1_S12288x1_1_0_0_1_n_n : DotDims S12288x256 S256x1 S12288x1 where
  lhsContracting := [1]
  rhsContracting := [0]
  lhsNonContracting := [0]
  rhsNonContracting := [1]
  lhsBatch := []
  rhsBatch := []
  wf := dot_S12288x256_S256x1_S12288x1_1_0_0_1_n_n_wf
def dot_S6144x256_S256x1_S6144x1_1_0_0_1_n_n : DotDims S6144x256 S256x1 S6144x1 where
  lhsContracting := [1]
  rhsContracting := [0]
  lhsNonContracting := [0]
  rhsNonContracting := [1]
  lhsBatch := []
  rhsBatch := []
  wf := dot_S6144x256_S256x1_S6144x1_1_0_0_1_n_n_wf
def dot_S12288x6144_S6144x256_S12288x256_1_0_0_1_n_n : DotDims S12288x6144 S6144x256 S12288x256 where
  lhsContracting := [1]
  rhsContracting := [0]
  lhsNonContracting := [0]
  rhsNonContracting := [1]
  lhsBatch := []
  rhsBatch := []
  wf := dot_S12288x6144_S6144x256_S12288x256_1_0_0_1_n_n_wf

class Facts : Prop extends Facts₀ where

variable [Facts]
-- ==== Proof.KR0Frame.lean ====
import proofs.«406483_j14499809591686_3_alg».proof.Proof.Gen.Kernel.Launch
import proofs.«406483_j14499809591686_3_alg».proof.Proof.Gen.Kernel.Skeleton
import proofs.«406483_j14499809591686_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 12 = 0 :=
  (by decide +kernel : ∀ t : Fin grid0.N, cond0_0 (grid0.coords t) ↔ t.val % 12 = 0)

abbrev cond0_1 (i : grid0.Coords) : Prop := k0_cond2 i = 1#1
theorem hcond0_1 : ∀ t : Fin cfg0.N, cond0_1 (grid0.coords t) ↔ t.val % 12 = 11 :=
  (by decide +kernel : ∀ t : Fin grid0.N, cond0_1 (grid0.coords t) ↔ t.val % 12 = 11)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

abbrev VO0_2 : View sig .tc .vmem S1536x256 .f32 := (Memref.whole cc0_stg2_0 : Memref sig .tc .vmem S1536x256 .f32).view
abbrev ms0_0 (t : Fin cfg0.N) : Memref sig .tc .vmem S1024x1536 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12288x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x256 .f32 := win0_2.stage (cfg0.slots t 2)
abbrev hs0_2 (t : Fin cfg0.N) : (ms0_2 t).IsWhole := hstage0_2 ((cfg0.slots t 2).cast nbuf0_2)
abbrev scM0_0 : Memref sig .tc .vmem S1536x256 .f32 := Memref.whole cc0_scratch0
abbrev scM0_1 : Memref sig .tc .vmem S1x1536 .f32 := Memref.whole cc0_scratch1
abbrev VS0_0 : View sig .tc .vmem S1536x256 .f32 := scM0_0.view
abbrev VS0_1 : View sig .tc .vmem S1x1536 .f32 := scM0_1.view

theorem PhiA0_ex (c : Dev nD) : ∃ R : sProp 𝕄,
    (Pipeline.ΦA spec0 c : sProp 𝕄)
      = iprop(iprop((∃ d, owns (c : Thread nD τ) scM0_0 fullShare d) ∗ (∃ d, owns (c : Thread nD τ) scM0_1 fullShare d) ∗ R) ∗ (∃ r, prngReg c r)) := by
  unfold Pipeline.ΦA; rw [scopedRest0_eq]; simp only [scM0_0, scM0_1, owns_whole]; exact ⟨_, rfl⟩

def restS (c : Dev nD) : sProp 𝕄 := (PhiA0_ex (F := F) c).choose

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS (F := F) c) ∗ (∃ r, prngReg c r)) :=
  (PhiA0_ex (F := F) c).choose_spec

section
variable (c : Dev nD) (i : grid0.Coords) (arg2 : Memref sig .tc .vmem S1024x1536 .f32) (harg2 : arg2.IsWhole) (arg3 : Memref sig .tc .vmem S12288x256 .f32) (harg3 : arg3.IsWhole) (arg4 : Memref sig .tc .vmem S1536x256 .f32) (harg4 : arg4.IsWhole) (arg5 : Memref sig .tc .vmem S1536x256 .f32) (harg5 : arg5.IsWhole) (arg6 : Memref sig .tc .vmem S1x1536 .f32) (harg6 : arg6.IsWhole)

section
variable (hc0 : cond0_0 i) (hc1 : ¬cond0_1 i) (x0 : Vec F S1024x1536 .f32) (x1 : Vec F S12288x256 .f32)

set_option maxHeartbeats 1000000 in
noncomputable def kernelRun0_A :
    Σ' (L2 : List (View.Piece (Elt F) S1536x256 .f32)) (LS0 : List (View.Piece (Elt F) S1536x256 .f32)), { LS1 : List (View.Piece (Elt F) S1x1536 .f32) //
      ∀ (xi2 : Vec F S1536x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__kernel_a_body i arg2 harg2 arg3 harg3 arg4 harg4 arg5 harg5 arg6 harg6) K } := by
  refine ⟨[], ?_, ?_, fun xi2 E K => ?run⟩
  case run =>
    simp only [cc0__kernel_a_body_eq_skeleton]; unfold cc0__kernel_a_body_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

def out0_A_2 : Vec F S1536x256 .f32 :=
  VO0_2.read (Elt F) (VO0_2.writes (Elt F) VO0_2.junk (kernelRun0_A c i arg2 harg2 arg3 harg3 arg4 harg4 arg5 harg5 arg6 harg6 hc0 hc1 x0 x1).1)

theorem scover0_A_0 (y : S1536x256.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S1536x256.size (by sl_kernel_rfl) y

def sout0_A_0 : Vec F S1536x256 .f32 :=
  VS0_0.read (Elt F) (VS0_0.writes (Elt F) VS0_0.junk (kernelRun0_A c i arg2 harg2 arg3 harg3 arg4 harg4 arg5 harg5 arg6 harg6 hc0 hc1 x0 x1).2.1)

theorem scover0_A_1 (y : S1x1536.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S1x1536.size (by sl_kernel_rfl) y

def sout0_A_1 : Vec F S1x1536 .f32 :=
  VS0_1.read (Elt F) (VS0_1.writes (Elt F) VS0_1.junk (kernelRun0_A c i arg2 harg2 arg3 harg3 arg4 harg4 arg5 harg5 arg6 harg6 hc0 hc1 x0 x1).2.2.1)

end

section
variable (hc0 : ¬cond0_0 i) (hc1 : ¬cond0_1 i) (x0 : Vec F S1024x1536 .f32) (x1 : Vec F S12288x256 .f32) (xs0 : Vec F S1536x256 .f32) (xs1 : Vec F S1x1536 .f32)

set_option maxHeartbeats 1000000 in
noncomputable def kernelRun0_B :
    Σ' (L2 : List (View.Piece (Elt F) S1536x256 .f32)) (LS0 : List (View.Piece (Elt F) S1536x256 .f32)), { LS1 : List (View.Piece (Elt F) S1x1536 .f32) //
      ∀ (xi2 : Vec F S1536x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__kernel_a_body i arg2 harg2 arg3 harg3 arg4 harg4 arg5 harg5 arg6 harg6) K } := by
  refine ⟨[], ?_, ?_, fun xi2 E K => ?run⟩
  case run =>
    simp only [cc0__kernel_a_body_eq_skeleton]; unfold cc0__kernel_a_body_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

def out0_B_2 : Vec F S1536x256 .f32 :=
  VO0_2.read (Elt F) (VO0_2.writes (Elt F) VO0_2.junk (kernelRun0_B c i arg2 harg2 arg3 harg3 arg4 harg4 arg5 harg5 arg6 harg6 hc0 hc1 x0 x1 xs0 xs1).1)

theorem scover0_B_0 (y : S1536x256.Idx) :
    ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S1536x256.size (by sl_kernel_rfl) y

def sout0_B_0 : Vec F S1536x256 .f32 :=
  VS0_0.read (Elt F) (VS0_0.writes (Elt F) VS0_0.junk (kernelRun0_B c i arg2 harg2 arg3 harg3 arg4 harg4 arg5 harg5 arg6 harg6 hc0 hc1 x0 x1 xs0 xs1).2.1)

theorem scover0_B_1 (y : S1x1536.Idx) :
    ∃ pc ∈ (kernelRun0_B c i arg2 harg2 arg3 harg3 arg4 harg4 arg5 harg5 arg6 harg6 hc0 hc1 x0 x1 xs0 xs1).2.2.1, y ∈ pc.1.set :=
  View.cover_of_tiledL (kernelRun0_B c i arg2 harg2 arg3 harg3 arg4 harg4 arg5 harg5 arg6 harg6 hc0 hc1 x0 x1 xs0 xs1).2.2.1 S1x1536.size (by sl_kernel_rfl) y

def sout0_B_1 : Vec F S1x1536 .f32 :=
  VS0_1.read (Elt F) (VS0_1.writes (Elt F) VS0_1.junk (kernelRun0_B c i arg2 harg2 arg3 harg3 arg4 harg4 arg5 harg5 arg6 harg6 hc0 hc1 x0 x1 xs0 xs1).2.2.1)

end

section
variable (hc0 : ¬cond0_0 i) (hc1 : cond0_1 i) (x0 : Vec F S1024x1536 .f32) (x1 : Vec F S12288x256 .f32) (xs0 : Vec F S1536x256 .f32) (xs1 : Vec F S1x1536 .f32)

set_option maxHeartbeats 1000000 in
noncomputable def kernelRun0_C :
    Σ' (L2 : List (View.Piece (Elt F) S1536x256 .f32)) (LS0 : List (View.Piece (Elt F) S1536x256 .f32)), { LS1 : List (View.Piece (Elt F) S1x1536 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__kernel_a_body i arg2 harg2 arg3 harg3 arg4 harg4 arg5 harg5 arg6 harg6) K } := by
  refine ⟨?_, ?_, ?_, fun E K => ?run⟩
  case run =>
    simp only [cc0__kernel_a_body_eq_skeleton]; unfold cc0__kernel_a_body_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

theorem cover0_C_2 (y : S1536x256.Idx) :
    ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S1536x256.size (by sl_kernel_rfl) y

def out0_C_2 : Vec F S1536x256 .f32 :=
  VO0_2.read (Elt F) (VO0_2.writes (Elt F) VO0_2.junk (kernelRun0_C c i arg2 harg2 arg3 harg3 arg4 harg4 arg5 harg5 arg6 harg6 hc0 hc1 x0 x1 xs0 xs1).1)

theorem scover0_C_0 (y : S1536x256.Idx) :
    ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S1536x256.size (by sl_kernel_rfl) y

def sout0_C_0 : Vec F S1536x256 .f32 :=
  VS0_0.read (Elt F) (VS0_0.writes (Elt F) VS0_0.junk (kernelRun0_C c i arg2 harg2 arg3 harg3 arg4 harg4 arg5 harg5 arg6 harg6 hc0 hc1 x0 x1 xs0 xs1).2.1)

theorem scover0_C_1 (y : S1x1536.Idx) :
    ∃ pc ∈ (kernelRun0_C c i arg2 harg2 arg3 harg3 arg4 harg4 arg5 harg5 arg6 harg6 hc0 hc1 x0 x1 xs0 xs1).2.2.1, y ∈ pc.1.set :=
  View.cover_of_tiledL (kernelRun0_C c i arg2 harg2 arg3 harg3 arg4 harg4 arg5 harg5 arg6 harg6 hc0 hc1 x0 x1 xs0 xs1).2.2.1 S1x1536.size (by sl_kernel_rfl) y

def sout0_C_1 : Vec F S1x1536 .f32 :=
  VS0_1.read (Elt F) (VS0_1.writes (Elt F) VS0_1.junk (kernelRun0_C c i arg2 harg2 arg3 harg3 arg4 harg4 arg5 harg5 arg6 harg6 hc0 hc1 x0 x1 xs0 xs1).2.2.1)

end

end

def atA (c : Dev nD) (t : Fin cfg0.N) (h0 : t.val % 12 = 0) (h1 : ¬t.val % 12 = 11) : Vec F S1536x256 .f32 × Vec F S1536x256 .f32 × Vec F S1x1536 .f32 :=
  (out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk V c 0 t) (iblk V c 1 t),
   sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk V c 0 t) (iblk V c 1 t),
   sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk V c 0 t) (iblk V c 1 t))

def atB (c : Dev nD) (t : Fin cfg0.N) (h0 : ¬t.val % 12 = 0) (h1 : ¬t.val % 12 = 11) (xs0 : Vec F S1536x256 .f32) (xs1 : Vec F S1x1536 .f32) : Vec F S1536x256 .f32 × Vec F S1536x256 .f32 × Vec F S1x1536 .f32 :=
  (out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk V c 0 t) (iblk V c 1 t) xs0 xs1,
   sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk V c 0 t) (iblk V c 1 t) xs0 xs1,
   sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk V c 0 t) (iblk V c 1 t) xs0 xs1)

def atC (c : Dev nD) (t : Fin cfg0.N) (h0 : ¬t.val % 12 = 0) (h1 : t.val % 12 = 11) (xs0 : Vec F S1536x256 .f32) (xs1 : Vec F S1x1536 .f32) : Vec F S1536x256 .f32 × Vec F S1536x256 .f32 × Vec F S1x1536 .f32 :=
  (out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk V c 0 t) (iblk V c 1 t) xs0 xs1,
   sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk V c 0 t) (iblk V c 1 t) xs0 xs1,
   sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk V c 0 t) (iblk V c 1 t) xs0 xs1)

def outsAt0 (c : Dev nD) : (n : ℕ) → n < cfg0.N → Vec F S1536x256 .f32 × Vec F S1536x256 .f32 × Vec F S1x1536 .f32
  | 0, hn => atA V c ⟨0, hn⟩ (Nat.zero_mod _) (by show ¬(0 % 12 = 11); omega)
  | n + 1, hn =>
    if h0 : (n + 1) % 12 = 0 then
      if h1 : (n + 1) % 12 = 11 then
        False.elim (by omega)
      else
        atA V c ⟨n + 1, hn⟩ h0 h1
    else
      if h1 : (n + 1) % 12 = 11 then
        atC V c ⟨n + 1, hn⟩ h0 h1 (outsAt0 c n (Nat.lt_of_succ_lt hn)).2.1 (outsAt0 c n (Nat.lt_of_succ_lt hn)).2.2
      else
        atB V c ⟨n + 1, hn⟩ h0 h1 (outsAt0 c n (Nat.lt_of_succ_lt hn)).2.1 (outsAt0 c n (Nat.lt_of_succ_lt hn)).2.2

theorem outsAt0_A (c : Dev nD) (t : Fin cfg0.N) (h0 : t.val % 12 = 0) (h1 : ¬t.val % 12 = 11) :
    outsAt0 V c t.val t.isLt = atA V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 12 = 0) (h1 : ¬t.val % 12 = 11) :
    outsAt0 V c t.val t.isLt = atB V c t h0 h1 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 12 = 0) (h1 : t.val % 12 = 11) :
    outsAt0 V c t.val t.isLt = atC V c t h0 h1 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ restS (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ restS (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ restS (F := F) c) ∗ (∃ r, prngReg c r)) := by
  cases n with
  | zero => exact absurd rfl hz
  | succ n => rfl

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt0 V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = (outsAt0 V c t.val t.isLt).1 := by dsimp only [dat]

theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d

def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

/-- Before any point the invariant gives each scratch at some contents. -/
theorem PhiS_weak (c : Dev nD) (n : ℕ) (h : n ≤ cfg0.N) : PhiS V c n h ⊢ (Pipeline.ΦA spec0 c : sProp 𝕄) := by
  cases n with
  | zero => exact .rfl
  | succ n =>
    rw [PhiA0_eq]; show iprop(iprop(owns (c : Thread nD τ) scM0_0 fullShare _ ∗ owns (c : Thread nD τ) scM0_1 fullShare _ ∗ restS (F := F) c) ∗ (∃ r, prngReg c r)) ⊢ _
    iintro ⟨⟨HS0, HS1, HR⟩, Hg⟩
    iframe HR Hg
    isplitl [HS0]; · iexists _; iexact HS0
    iexists _; iexact HS1

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).owesAt () t.succ = (dat V c).owesAt () t.castSucc from rfl,
    show (dat V c).Φ t.succ = PhiS V c (t.val + 1) t.isLt from rfl, PhiS_succ, PhiS_castSucc V c t,
    show (dat V c).leavesExact 0 t = owns (c : Thread nD τ) (ms0_0 t) fullShare ((dat V c).after 0 t) from by unfold Dat.leavesExact; rw [liveAt0_0 t], after0_0,
    show (dat V c).leavesExact 1 t = owns (c : Thread nD τ) (ms0_1 t) fullShare ((dat V c).after 1 t) from by unfold Dat.leavesExact; rw [liveAt0_1 t], after0_1]
  have hN : t.val < 48 := lt_of_lt_of_eq t.isLt (show cfg0.N = 48 from N_0)
  by_cases h0 : t.val % 12 = 0
  · have h1 : ¬t.val % 12 = 11 := by omega
    have hc0 := (hcond0_0 t).mpr h0
    have hc1 : ¬cond0_1 (grid0.coords t) := fun h => h1 ((hcond0_1 t).mp h)
    have hw := PhiS_weak V c t.val (Nat.le_of_lt t.isLt)
    rw [PhiA0_eq] at hw
    rw [Dat.leavesExact_idle (dat V c) 2 t (idleAt0_2_A t hc0 hc1) (noFlush0_2_A t hc0 hc1), outsAt0_A V c t h0 h1]
    unfold atA sout0_A_0 sout0_A_1; (try dsimp only)
    iintro ⟨HΦ, Ho, ⟨%d0, H0⟩, ⟨%d1, H1⟩, ⟨%d2, H2⟩⟩
    ihave HΦ' := hw $$ HΦ
    icases HΦ' with ⟨⟨HS0, HS1, HR⟩, Hg⟩
    iapply ((kernelRun0_A c (grid0.coords t) _ _ _ _ _ _ _ _ _ _ hc0 hc1 (iblk V c 0 t) (iblk V c 1 t)).2.2.2 _ Set.univ _)
    iframe H0 H1 H2 HS0 HS1
    iintro ⟨H0, H1, H2, ⟨%es0, HS0⟩, ⟨%es1, HS1⟩⟩
    iframe Ho H0 H1 HR Hg
    isplitr [H2]; swap; · iexists _; iexact H2
    isplitl [HS0]
    · unfold owns; iexists _; iframe HS0; ipureintro; exact View.read_writes_of_cover _ _ _ _ _ (scover0_A_0 c _ _ _ _ _ _ _ _ _ _ _ _ _ _ _)
    unfold owns; iexists _; iframe HS1; ipureintro; exact View.read_writes_of_cover _ _ _ _ _ (scover0_A_1 c _ _ _ _ _ _ _ _ _ _ _ _ _ _ _)
  · have hz : t.val ≠ 0 := by omega
    have hc0 : ¬cond0_0 (grid0.coords t) := fun h => h0 ((hcond0_0 t).mp h)
    rw [PhiS_pos V c _ _ hz]
    by_cases h1 : t.val % 12 = 11
    · have hc1 := (hcond0_1 t).mpr h1
      rw [show (dat V c).leavesExact 2 t = owns (c : Thread nD τ) (ms0_2 t) fullShare ((dat V c).after 2 t) from by unfold Dat.leavesExact; rw [liveAt0_2_C t hc0 hc1], after0_2, outsAt0_C V c t h0 h1]
      unfold atC out0_C_2 sout0_C_0 sout0_C_1; (try dsimp only)
      iintro ⟨⟨⟨HS0, HS1, HR⟩, Hg⟩, Ho, ⟨%d0, H0⟩, ⟨%d1, H1⟩, ⟨%d2, H2⟩⟩
      iapply ((kernelRun0_C c (grid0.coords t) _ _ _ _ _ _ _ _ _ _ hc0 hc1 (iblk V c 0 t) (iblk V c 1 t) _ _).2.2.2 Set.univ _)
      iframe H0 H1 HS0 HS1
      isplitl [H2]; · iexists _; iexact H2
      iintro ⟨H0, H1, ⟨%e2, H2⟩, ⟨%es0, HS0⟩, ⟨%es1, HS1⟩⟩
      iframe Ho H0 H1 HR Hg
      isplitr [H2]
      swap; · unfold owns; iexists _; iframe H2; ipureintro; exact View.read_writes_of_cover _ _ _ _ _ (cover0_C_2 c _ _ _ _ _ _ _ _ _ _ _ _ _ _ _ _ _)
      isplitl [HS0]
      · unfold owns; iexists _; iframe HS0; ipureintro; exact View.read_writes_of_cover _ _ _ _ _ (scover0_C_0 c _ _ _ _ _ _ _ _ _ _ _ _ _ _ _ _ _)
      unfold owns; iexists _; iframe HS1; ipureintro; exact View.read_writes_of_cover _ _ _ _ _ (scover0_C_1 c _ _ _ _ _ _ _ _ _ _ _ _ _ _ _ _ _)
    · have hc1 : ¬cond0_1 (grid0.coords t) := fun h => h1 ((hcond0_1 t).mp h)
      rw [Dat.leavesExact_idle (dat V c) 2 t (idleAt0_2_B t hc0 hc1) (noFlush0_2_B t hc0 hc1), outsAt0_B V c t h0 h1]
      unfold atB sout0_B_0 sout0_B_1; (try dsimp only)
      iintro ⟨⟨⟨HS0, HS1, HR⟩, Hg⟩, Ho, ⟨%d0, H0⟩, ⟨%d1, H1⟩, ⟨%d2, H2⟩⟩
      iapply ((kernelRun0_B c (grid0.coords t) _ _ _ _ _ _ _ _ _ _ hc0 hc1 (iblk V c 0 t) (iblk V c 1 t) _ _).2.2.2 _ Set.univ _)
      iframe H0 H1 H2 HS0 HS1
      iintro ⟨H0, H1, H2, ⟨%es0, HS0⟩, ⟨%es1, HS1⟩⟩
      iframe Ho H0 H1 HR Hg
      isplitr [H2]; swap; · iexists _; iexact H2
      isplitl [HS0]
      · unfold owns; iexists _; iframe HS0; ipureintro; exact View.read_writes_of_cover _ _ _ _ _ (scover0_B_0 c _ _ _ _ _ _ _ _ _ _ _ _ _ _ _ _ _)
      unfold owns; iexists _; iframe HS1; ipureintro; exact View.read_writes_of_cover _ _ _ _ _ (scover0_B_1 c _ _ _ _ _ _ _ _ _ _ _ _ _ _ _ _ _)

theorem body_obligation (c : Dev nD) : BodyObligation (dat (F := F) V c) (defs₀ (F := F)) Variants.none () Set.univ := fun t => by
  rw [bigSep_W0, bigSep_W0]
  exact sound_body V c t

theorem Phi_first (c : Dev nD) : (dat V c).Φ 0 = Pipeline.ΦA spec0 c := rfl

theorem Phi_last (c : Dev nD) : (dat V c).Φ (Fin.last cfg0.N) ⊢ (Pipeline.ΦA spec0 c : sProp 𝕄) :=
  PhiS_weak V c (Fin.last cfg0.N).val (Nat.le_of_lt_succ (Fin.last cfg0.N).isLt)

end Cert.Kernel.R0

end
-- ==== Proof.KR1Frame.lean ====
import proofs.«406483_j14499809591686_3_alg».proof.Proof.Gen.Kernel.Launch
import proofs.«406483_j14499809591686_3_alg».proof.Proof.Gen.Kernel.Skeleton
import proofs.«406483_j14499809591686_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev r_0 : Rect S128x6144 := Rect.unit (s := S128x6144) ![0, 0] S128x6144.size inb_S128x6144_S128x6144_0_0
abbrev r_1 : Rect S128x1 := Rect.unit (s := S128x1) ![0, 0] S128x1.size inb_S128x1_S128x1_0_0
abbrev r_2 : Rect S1x6144 := Rect.unit (s := S1x6144) ![0, 0] S1x6144.size inb_S1x6144_S1x6144_0_0

def out_3 (x0 : Vec F S128x6144 .f32) (x1 : Vec F S128x1 .f32) (x2 : Vec F S1x6144 .f32) : Vec F S128x6144 .bf16 :=
  View.canon [⟨r_0, k1_pay1 (View.ld x0 r_0) (View.ld x1 r_1) (View.ld x2 r_2)⟩]

theorem cover_3 (p0 : Vec F S128x6144 .bf16) (y : S128x6144.Idx) :
    ∃ pc ∈ ([⟨r_0, p0⟩] : List (View.Piece (Elt F) S128x6144 .bf16)), y ∈ pc.1.set :=
  View.cover_of_tiled [⟨r_0, p0⟩] S128x6144.size (by rfl) y

set_option maxHeartbeats 1000000 in
theorem sound_kernel (c : Dev nD) (E : Set ℕ) (i : grid1.Coords)
    (arg1 : Memref sig .tc .vmem S128x6144 .f32) (harg1 : arg1.IsWhole) (arg2 : Memref sig .tc .vmem S128x1 .f32) (harg2 : arg2.IsWhole)
    (arg3 : Memref sig .tc .vmem S1x6144 .f32) (harg3 : arg3.IsWhole) (arg4 : Memref sig .tc .vmem S128x6144 .bf16) (harg4 : arg4.IsWhole)
    (x0 : Vec F S128x6144 .f32) (x1 : Vec F S128x1 .f32) (x2 : Vec F S1x6144 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out_3 x0 x1 x2)) -∗ K ⟨⟩))
      ⊢ wp frame (wpE (defs₀ (F := F)) Variants.none c none) E (cc1__kernel_b_body i arg1 harg1 arg2 harg2 arg3 harg3 arg4 harg4) K := by
  simp only [cc1__kernel_b_body_eq_skeleton]; unfold cc1__kernel_b_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_3 _)

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out_3 (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) :
    (dat V c).after 3 t = out_3 (iblk V c 0 t) (iblk V c 1 t) (iblk V c 2 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W1, bigSep_W1]
  exact sound_body V c t

theorem Phi_first (c : Dev nD) : (dat V c).Φ 0 = Pipeline.ΦA spec1 c := rfl

theorem Phi_last (c : Dev nD) : (dat V c).Φ (Fin.last cfg1.N) ⊢ (Pipeline.ΦA spec1 c : sProp 𝕄) := .rfl

end Cert.Kernel.R1

end
-- ==== Proof.KR2Frame.lean ====
import proofs.«406483_j14499809591686_3_alg».proof.Proof.Gen.Kernel.Launch
import proofs.«406483_j14499809591686_3_alg».proof.Proof.Gen.Kernel.Skeleton
import proofs.«406483_j14499809591686_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev cond_0 (i : grid2.Coords) : Prop := (Scalar.cmpi .ne (Scalar.extui (Scalar.cmpi .eq (BitVec.ofNat 32 (i 1).val) 0#32)) 0#32) = 1#1
theorem hcond_0 : ∀ t : Fin cfg2.N, cond_0 (grid2.coords t) ↔ t.val % 12 = 0 :=
  (by decide +kernel : ∀ t : Fin grid2.N, cond_0 (grid2.coords t) ↔ t.val % 12 = 0)

abbrev cond_1 (i : grid2.Coords) : Prop := k2_cond2 i = 1#1
theorem hcond_1 : ∀ t : Fin cfg2.N, cond_1 (grid2.coords t) ↔ t.val % 12 = 11 :=
  (by decide +kernel : ∀ t : Fin grid2.N, cond_1 (grid2.coords t) ↔ t.val % 12 = 11)

theorem liveAt_0 : ∀ t : Fin cfg2.N, cfg2.idle 0 (grid2.coords t) = false := by decide +kernel
theorem liveAt_1 : ∀ t : Fin cfg2.N, cfg2.idle 1 (grid2.coords t) = false := by decide +kernel
theorem idleAt_2_A : ∀ t : Fin cfg2.N, cond_0 (grid2.coords t) → ¬cond_1 (grid2.coords t) → cfg2.idle 2 (grid2.coords t) = true := by decide +kernel
theorem noFlush_2_A : ∀ t : Fin cfg2.N, cond_0 (grid2.coords t) → ¬cond_1 (grid2.coords t) → (cfg2.win 2).flush t = false := by decide +kernel
theorem idleAt_2_B : ∀ t : Fin cfg2.N, ¬cond_0 (grid2.coords t) → ¬cond_1 (grid2.coords t) → cfg2.idle 2 (grid2.coords t) = true := by decide +kernel
theorem noFlush_2_B : ∀ t : Fin cfg2.N, ¬cond_0 (grid2.coords t) → ¬cond_1 (grid2.coords t) → (cfg2.win 2).flush t = false := by decide +kernel
theorem liveAt_2_C : ∀ t : Fin cfg2.N, ¬cond_0 (grid2.coords t) → cond_1 (grid2.coords t) → cfg2.idle 2 (grid2.coords t) = false := by decide +kernel

abbrev VO_2 : View sig .tc .vmem S256x1536 .bf16 := (Memref.whole cc2_stg2_0 : Memref sig .tc .vmem S256x1536 .bf16).view
abbrev ms_0 (t : Fin cfg2.N) : Memref sig .tc .vmem S1024x1536 .bf16 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S12288x256 .bf16 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S256x1536 .bf16 := win2_2.stage (cfg2.slots t 2)
abbrev hs_2 (t : Fin cfg2.N) : (ms_2 t).IsWhole := hstage2_2 ((cfg2.slots t 2).cast nbuf2_2)
abbrev scM_0 : Memref sig .tc .vmem S256x1536 .f32 := Memref.whole cc2_scratch0
abbrev scM_1 : Memref sig .tc .vmem S1x1536 .f32 := Memref.whole cc2_scratch1
abbrev VS_0 : View sig .tc .vmem S256x1536 .f32 := scM_0.view
abbrev VS_1 : View sig .tc .vmem S1x1536 .f32 := scM_1.view

theorem scopedRest_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))
          ∗ Pipeline.scopedRestBut (Ix := Unit) (Name := ℕ) (U := UR sig nD τ) (Lvl := ℕ) (Val := Elt F) spec2 c [cc2_scratch0, cc2_scratch1]) :=
  Pipeline.scopedRest_split_of_list spec2 c [cc2_scratch0, cc2_scratch1] (by decide) (by decide)

abbrev Rest (c : Dev nD) : sProp 𝕄 :=
  Pipeline.scopedRestBut (Ix := Unit) (Name := ℕ) (U := UR sig nD τ) (Lvl := ℕ) (Val := Elt F) spec2 c [cc2_scratch0, cc2_scratch1]

theorem PhiA_eq (c : Dev nD) :
    (Pipeline.ΦA spec2 c : sProp 𝕄)
      = iprop(iprop(iprop((∃ d, owns (c : Thread nD τ) scM_0 fullShare d) ∗ (∃ d, owns (c : Thread nD τ) scM_1 fullShare d)) ∗ Rest (F := F) c) ∗ (∃ r, prngReg c r)) := by
  unfold Pipeline.ΦA; rw [scopedRest_split]; simp only [scM_0, scM_1, owns_whole]; try rfl

section
variable (c : Dev nD) (i : grid2.Coords) (arg2 : Memref sig .tc .vmem S1024x1536 .bf16) (harg2 : arg2.IsWhole) (arg3 : Memref sig .tc .vmem S12288x256 .bf16) (harg3 : arg3.IsWhole) (arg4 : Memref sig .tc .vmem S256x1536 .bf16) (harg4 : arg4.IsWhole) (arg5 : Memref sig .tc .vmem S256x1536 .f32) (harg5 : arg5.IsWhole) (arg6 : Memref sig .tc .vmem S1x1536 .f32) (harg6 : arg6.IsWhole)

section
variable (hc0 : cond_0 i) (hc1 : ¬cond_1 i) (x0 : Vec F S1024x1536 .bf16) (x1 : Vec F S12288x256 .bf16)

set_option maxHeartbeats 1000000 in
noncomputable def kernelRun_A :
    Σ' (L2 : List (View.Piece (Elt F) S256x1536 .bf16)) (LS0 : List (View.Piece (Elt F) S256x1536 .f32)), { LS1 : List (View.Piece (Elt F) S1x1536 .f32) //
      ∀ (xi2 : Vec F S256x1536 .bf16) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc2__kernel_c_body i arg2 harg2 arg3 harg3 arg4 harg4 arg5 harg5 arg6 harg6) K } := by
  refine ⟨[], ?_, ?_, fun xi2 E K => ?run⟩
  case run =>
    simp only [cc2__kernel_c_body_eq_skeleton]; unfold cc2__kernel_c_body_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    iexists _; iexact HS1

def out_A_2 : Vec F S256x1536 .bf16 :=
  VO_2.read (Elt F) (VO_2.writes (Elt F) VO_2.junk (kernelRun_A c i arg2 harg2 arg3 harg3 arg4 harg4 arg5 harg5 arg6 harg6 hc0 hc1 x0 x1).1)

theorem scover_A_0 (y : S256x1536.Idx) :
    ∃ pc ∈ (kernelRun_A c i arg2 harg2 arg3 harg3 arg4 harg4 arg5 harg5 arg6 harg6 hc0 hc1 x0 x1).2.1, y ∈ pc.1.set :=
  View.cover_of_tiledL (kernelRun_A c i arg2 harg2 arg3 harg3 arg4 harg4 arg5 harg5 arg6 harg6 hc0 hc1 x0 x1).2.1 S256x1536.size (by sl_kernel_rfl) y

def sout_A_0 : Vec F S256x1536 .f32 :=
  VS_0.read (Elt F) (VS_0.writes (Elt F) VS_0.junk (kernelRun_A c i arg2 harg2 arg3 harg3 arg4 harg4 arg5 harg5 arg6 harg6 hc0 hc1 x0 x1).2.1)

theorem scover_A_1 (y : S1x1536.Idx) :
    ∃ pc ∈ (kernelRun_A c i arg2 harg2 arg3 harg3 arg4 harg4 arg5 harg5 arg6 harg6 hc0 hc1 x0 x1).2.2.1, y ∈ pc.1.set :=
  View.cover_of_tiledL (kernelRun_A c i arg2 harg2 arg3 harg3 arg4 harg4 arg5 harg5 arg6 harg6 hc0 hc1 x0 x1).2.2.1 S1x1536.size (by sl_kernel_rfl) y

def sout_A_1 : Vec F S1x1536 .f32 :=
  VS_1.read (Elt F) (VS_1.writes (Elt F) VS_1.junk (kernelRun_A c i arg2 harg2 arg3 harg3 arg4 harg4 arg5 harg5 arg6 harg6 hc0 hc1 x0 x1).2.2.1)

end

section
variable (hc0 : ¬cond_0 i) (hc1 : ¬cond_1 i) (x0 : Vec F S1024x1536 .bf16) (x1 : Vec F S12288x256 .bf16) (xs0 : Vec F S256x1536 .f32) (xs1 : Vec F S1x1536 .f32)

set_option maxHeartbeats 1000000 in
noncomputable def kernelRun_B :
    Σ' (L2 : List (View.Piece (Elt F) S256x1536 .bf16)) (LS0 : List (View.Piece (Elt F) S256x1536 .f32)), { LS1 : List (View.Piece (Elt F) S1x1536 .f32) //
      ∀ (xi2 : Vec F S256x1536 .bf16) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc2__kernel_c_body i arg2 harg2 arg3 harg3 arg4 harg4 arg5 harg5 arg6 harg6) K } := by
  refine ⟨[], ?_, ?_, fun xi2 E K => ?run⟩
  case run =>
    simp only [cc2__kernel_c_body_eq_skeleton]; unfold cc2__kernel_c_body_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    iexists _; iexact HS1

def out_B_2 : Vec F S256x1536 .bf16 :=
  VO_2.read (Elt F) (VO_2.writes (Elt F) VO_2.junk (kernelRun_B c i arg2 harg2 arg3 harg3 arg4 harg4 arg5 harg5 arg6 harg6 hc0 hc1 x0 x1 xs0 xs1).1)

theorem scover_B_0 (y : S256x1536.Idx) :
    ∃ pc ∈ (kernelRun_B c i arg2 harg2 arg3 harg3 arg4 harg4 arg5 harg5 arg6 harg6 hc0 hc1 x0 x1 xs0 xs1).2.1, y ∈ pc.1.set :=
  View.cover_of_tiledL (kernelRun_B c i arg2 harg2 arg3 harg3 arg4 harg4 arg5 harg5 arg6 harg6 hc0 hc1 x0 x1 xs0 xs1).2.1 S256x1536.size (by sl_kernel_rfl) y

def sout_B_0 : Vec F S256x1536 .f32 :=
  VS_0.read (Elt F) (VS_0.writes (Elt F) VS_0.junk (kernelRun_B c i arg2 harg2 arg3 harg3 arg4 harg4 arg5 harg5 arg6 harg6 hc0 hc1 x0 x1 xs0 xs1).2.1)

theorem scover_B_1 (y : S1x1536.Idx) :
    ∃ pc ∈ (kernelRun_B c i arg2 harg2 arg3 harg3 arg4 harg4 arg5 harg5 arg6 harg6 hc0 hc1 x0 x1 xs0 xs1).2.2.1, y ∈ pc.1.set :=
  View.cover_of_tiledL (kernelRun_B c i arg2 harg2 arg3 harg3 arg4 harg4 arg5 harg5 arg6 harg6 hc0 hc1 x0 x1 xs0 xs1).2.2.1 S1x1536.size (by sl_kernel_rfl) y

def sout_B_1 : Vec F S1x1536 .f32 :=
  VS_1.read (Elt F) (VS_1.writes (Elt F) VS_1.junk (kernelRun_B c i arg2 harg2 arg3 harg3 arg4 harg4 arg5 harg5 arg6 harg6 hc0 hc1 x0 x1 xs0 xs1).2.2.1)

end

section
variable (hc0 : ¬cond_0 i) (hc1 : cond_1 i) (x0 : Vec F S1024x1536 .bf16) (x1 : Vec F S12288x256 .bf16) (xs0 : Vec F S256x1536 .f32) (xs1 : Vec F S1x1536 .f32)

set_option maxHeartbeats 1000000 in
noncomputable def kernelRun_C :
    Σ' (L2 : List (View.Piece (Elt F) S256x1536 .bf16)) (LS0 : List (View.Piece (Elt F) S256x1536 .f32)), { LS1 : List (View.Piece (Elt F) S1x1536 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc2__kernel_c_body i arg2 harg2 arg3 harg3 arg4 harg4 arg5 harg5 arg6 harg6) K } := by
  refine ⟨?_, ?_, ?_, fun E K => ?run⟩
  case run =>
    simp only [cc2__kernel_c_body_eq_skeleton]; unfold cc2__kernel_c_body_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]
    · iexists _; iexact HS0
    iexists _; iexact HS1

theorem cover_C_2 (y : S256x1536.Idx) :
    ∃ pc ∈ (kernelRun_C c i arg2 harg2 arg3 harg3 arg4 harg4 arg5 harg5 arg6 harg6 hc0 hc1 x0 x1 xs0 xs1).1, y ∈ pc.1.set :=
  View.cover_of_tiledL (kernelRun_C c i arg2 harg2 arg3 harg3 arg4 harg4 arg5 harg5 arg6 harg6 hc0 hc1 x0 x1 xs0 xs1).1 S256x1536.size (by sl_kernel_rfl) y

def out_C_2 : Vec F S256x1536 .bf16 :=
  VO_2.read (Elt F) (VO_2.writes (Elt F) VO_2.junk (kernelRun_C c i arg2 harg2 arg3 harg3 arg4 harg4 arg5 harg5 arg6 harg6 hc0 hc1 x0 x1 xs0 xs1).1)

theorem scover_C_0 (y : S256x1536.Idx) :
    ∃ pc ∈ (kernelRun_C c i arg2 harg2 arg3 harg3 arg4 harg4 arg5 harg5 arg6 harg6 hc0 hc1 x0 x1 xs0 xs1).2.1, y ∈ pc.1.set :=
  View.cover_of_tiledL (kernelRun_C c i arg2 harg2 arg3 harg3 arg4 harg4 arg5 harg5 arg6 harg6 hc0 hc1 x0 x1 xs0 xs1).2.1 S256x1536.size (by sl_kernel_rfl) y

def sout_C_0 : Vec F S256x1536 .f32 :=
  VS_0.read (Elt F) (VS_0.writes (Elt F) VS_0.junk (kernelRun_C c i arg2 harg2 arg3 harg3 arg4 harg4 arg5 harg5 arg6 harg6 hc0 hc1 x0 x1 xs0 xs1).2.1)

theorem scover_C_1 (y : S1x1536.Idx) :
    ∃ pc ∈ (kernelRun_C c i arg2 harg2 arg3 harg3 arg4 harg4 arg5 harg5 arg6 harg6 hc0 hc1 x0 x1 xs0 xs1).2.2.1, y ∈ pc.1.set :=
  View.cover_of_tiledL (kernelRun_C c i arg2 harg2 arg3 harg3 arg4 harg4 arg5 harg5 arg6 harg6 hc0 hc1 x0 x1 xs0 xs1).2.2.1 S1x1536.size (by sl_kernel_rfl) y

def sout_C_1 : Vec F S1x1536 .f32 :=
  VS_1.read (Elt F) (VS_1.writes (Elt F) VS_1.junk (kernelRun_C c i arg2 harg2 arg3 harg3 arg4 harg4 arg5 harg5 arg6 harg6 hc0 hc1 x0 x1 xs0 xs1).2.2.1)

end

end

def outsAt (c : Dev nD) : (n : ℕ) → n < cfg2.N → Vec F S256x1536 .bf16 × Vec F S256x1536 .f32 × Vec F S1x1536 .f32
  | 0, hn => (out_A_2 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩), sout_A_0 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩), sout_A_1 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩))
  | n + 1, hn =>
    if h0 : (n + 1) % 12 = 0 then
      if h1 : (n + 1) % 12 = 11 then
        False.elim (by omega)
      else
        (out_A_2 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) scM_1 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩), sout_A_0 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) scM_1 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩), sout_A_1 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) scM_1 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩))
    else
      if h1 : (n + 1) % 12 = 11 then
        (out_C_2 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) scM_1 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (outsAt c n (Nat.lt_of_succ_lt hn)).2.1 (outsAt c n (Nat.lt_of_succ_lt hn)).2.2, sout_C_0 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) scM_1 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (outsAt c n (Nat.lt_of_succ_lt hn)).2.1 (outsAt c n (Nat.lt_of_succ_lt hn)).2.2, sout_C_1 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) scM_1 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (outsAt c n (Nat.lt_of_succ_lt hn)).2.1 (outsAt c n (Nat.lt_of_succ_lt hn)).2.2)
      else
        (out_B_2 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) scM_1 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (outsAt c n (Nat.lt_of_succ_lt hn)).2.1 (outsAt c n (Nat.lt_of_succ_lt hn)).2.2, sout_B_0 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) scM_1 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (outsAt c n (Nat.lt_of_succ_lt hn)).2.1 (outsAt c n (Nat.lt_of_succ_lt hn)).2.2, sout_B_1 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) scM_1 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (outsAt c n (Nat.lt_of_succ_lt hn)).2.1 (outsAt c n (Nat.lt_of_succ_lt hn)).2.2)

theorem outsAt_A (c : Dev nD) (t : Fin cfg2.N) (h0 : t.val % 12 = 0) (h1 : ¬t.val % 12 = 11) :
    outsAt V c t.val t.isLt = (out_A_2 c (grid2.coords t) (ms_0 t) (hs_0 t) (ms_1 t) (hs_1 t) (ms_2 t) (hs_2 t) scM_0 (Memref.isWhole_whole _) scM_1 (Memref.isWhole_whole _) ((hcond_0 t).mpr h0) (fun h => h1 ((hcond_1 t).mp h)) (iblk V c 0 t) (iblk V c 1 t), sout_A_0 c (grid2.coords t) (ms_0 t) (hs_0 t) (ms_1 t) (hs_1 t) (ms_2 t) (hs_2 t) scM_0 (Memref.isWhole_whole _) scM_1 (Memref.isWhole_whole _) ((hcond_0 t).mpr h0) (fun h => h1 ((hcond_1 t).mp h)) (iblk V c 0 t) (iblk V c 1 t), sout_A_1 c (grid2.coords t) (ms_0 t) (hs_0 t) (ms_1 t) (hs_1 t) (ms_2 t) (hs_2 t) scM_0 (Memref.isWhole_whole _) scM_1 (Memref.isWhole_whole _) ((hcond_0 t).mpr h0) (fun h => h1 ((hcond_1 t).mp h)) (iblk V c 0 t) (iblk V c 1 t)) := by
  obtain ⟨n, hn⟩ := t
  cases n with
  | zero => exact rfl
  | succ n => exact (dif_pos h0).trans ((dif_neg h1).trans rfl)

theorem outsAt_B (c : Dev nD) (t : Fin cfg2.N) (h0 : ¬t.val % 12 = 0) (h1 : ¬t.val % 12 = 11) :
    outsAt V c t.val t.isLt = (out_B_2 c (grid2.coords t) (ms_0 t) (hs_0 t) (ms_1 t) (hs_1 t) (ms_2 t) (hs_2 t) scM_0 (Memref.isWhole_whole _) scM_1 (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2.1 (outsAt V c (t.val - 1) (Nat.lt_of_le_of_lt (Nat.sub_le _ _) t.isLt)).2.2, sout_B_0 c (grid2.coords t) (ms_0 t) (hs_0 t) (ms_1 t) (hs_1 t) (ms_2 t) (hs_2 t) scM_0 (Memref.isWhole_whole _) scM_1 (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2.1 (outsAt V c (t.val - 1) (Nat.lt_of_le_of_lt (Nat.sub_le _ _) t.isLt)).2.2, sout_B_1 c (grid2.coords t) (ms_0 t) (hs_0 t) (ms_1 t) (hs_1 t) (ms_2 t) (hs_2 t) scM_0 (Memref.isWhole_whole _) scM_1 (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg2.N) (h0 : ¬t.val % 12 = 0) (h1 : t.val % 12 = 11) :
    outsAt V c t.val t.isLt = (out_C_2 c (grid2.coords t) (ms_0 t) (hs_0 t) (ms_1 t) (hs_1 t) (ms_2 t) (hs_2 t) scM_0 (Memref.isWhole_whole _) scM_1 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2.1 (outsAt V c (t.val - 1) (Nat.lt_of_le_of_lt (Nat.sub_le _ _) t.isLt)).2.2, sout_C_0 c (grid2.coords t) (ms_0 t) (hs_0 t) (ms_1 t) (hs_1 t) (ms_2 t) (hs_2 t) scM_0 (Memref.isWhole_whole _) scM_1 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2.1 (outsAt V c (t.val - 1) (Nat.lt_of_le_of_lt (Nat.sub_le _ _) t.isLt)).2.2, sout_C_1 c (grid2.coords t) (ms_0 t) (hs_0 t) (ms_1 t) (hs_1 t) (ms_2 t) (hs_2 t) scM_0 (Memref.isWhole_whole _) scM_1 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg2.N → sProp 𝕄
  | 0, _ => Pipeline.ΦA spec2 c
  | n + 1, hn => iprop(iprop(iprop(owns (c : Thread nD τ) scM_0 fullShare ((outsAt V c n hn).2.1) ∗ owns (c : Thread nD τ) scM_1 fullShare ((outsAt V c n hn).2.2)) ∗ Rest (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(iprop(owns (c : Thread nD τ) scM_0 fullShare ((outsAt V c n hn).2.1) ∗ owns (c : Thread nD τ) scM_1 fullShare ((outsAt V c n hn).2.2)) ∗ Rest (F := F) c) ∗ (∃ r, prngReg c r)) := rfl

theorem PhiS_pos (c : Dev nD) (n : ℕ) (h : n ≤ cfg2.N) (hz : n ≠ 0) :
    PhiS V c n h = iprop(iprop(iprop(owns (c : Thread nD τ) scM_0 fullShare ((outsAt V c (n - 1) (by omega)).2.1) ∗ owns (c : Thread nD τ) scM_1 fullShare ((outsAt V c (n - 1) (by omega)).2.2)) ∗ Rest (F := F) c) ∗ (∃ r, prngReg c r)) := by
  cases n with
  | zero => exact absurd rfl hz
  | succ n => rfl

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = (outsAt V c t.val t.isLt).1 := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d

def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

/-- Before any point the invariant gives each scratch at some contents. -/
theorem PhiS_weak (c : Dev nD) (n : ℕ) (h : n ≤ cfg2.N) : PhiS V c n h ⊢ (Pipeline.ΦA spec2 c : sProp 𝕄) := by
  cases n with
  | zero => exact .rfl
  | succ n =>
    rw [PhiA_eq]; show iprop(iprop(iprop(owns (c : Thread nD τ) scM_0 fullShare _ ∗ owns (c : Thread nD τ) scM_1 fullShare _) ∗ Rest (F := F) c) ∗ (∃ r, prngReg c r)) ⊢ _
    iintro ⟨⟨⟨HS0, HS1⟩, HR⟩, Hg⟩
    iframe HR Hg
    isplitl [HS0]; · iexists _; iexact HS0
    iexists _; iexact HS1

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).owesAt () t.succ = (dat V c).owesAt () t.castSucc from rfl,
    show (dat V c).Φ t.succ = PhiS V c (t.val + 1) t.isLt from rfl, PhiS_succ, PhiS_castSucc V c t,
    show (dat V c).leavesExact 0 t = owns (c : Thread nD τ) (ms_0 t) fullShare ((dat V c).after 0 t) from by unfold Dat.leavesExact; rw [liveAt_0 t], after_0,
    show (dat V c).leavesExact 1 t = owns (c : Thread nD τ) (ms_1 t) fullShare ((dat V c).after 1 t) from by unfold Dat.leavesExact; rw [liveAt_1 t], after_1]
  have hN : t.val < 48 := lt_of_lt_of_eq t.isLt (show cfg2.N = 48 from N_2)
  by_cases h0 : t.val % 12 = 0
  · have h1 : ¬t.val % 12 = 11 := by omega
    have hc0 := (hcond_0 t).mpr h0
    have hc1 : ¬cond_1 (grid2.coords t) := fun h => h1 ((hcond_1 t).mp h)
    have hw := PhiS_weak V c t.val (Nat.le_of_lt t.isLt)
    rw [PhiA_eq] at hw
    rw [Dat.leavesExact_idle (dat V c) 2 t (idleAt_2_A t hc0 hc1) (noFlush_2_A t hc0 hc1), outsAt_A V c t h0 h1]
    unfold sout_A_0 sout_A_1; (try dsimp only)
    iintro ⟨HΦ, Ho, ⟨%d0, H0⟩, ⟨%d1, H1⟩, ⟨%d2, H2⟩⟩
    ihave HΦ' := hw $$ HΦ
    icases HΦ' with ⟨⟨⟨HS0, HS1⟩, HR⟩, Hg⟩
    iapply ((kernelRun_A c (grid2.coords t) _ _ _ _ _ _ _ _ _ _ hc0 hc1 (iblk V c 0 t) (iblk V c 1 t)).2.2.2 _ Set.univ _)
    iframe H0 H1 H2 HS0 HS1
    iintro ⟨H0, H1, H2, ⟨%es0, HS0⟩, ⟨%es1, HS1⟩⟩
    iframe Ho H0 H1 HR Hg
    isplitr [H2]; swap; · iexists _; iexact H2
    isplitl [HS0]
    · unfold owns; iexists _; iframe HS0; ipureintro; exact View.read_writes_of_cover _ _ _ _ _ (scover_A_0 c _ _ _ _ _ _ _ _ _ _ _ _ _ _ _)
    unfold owns; iexists _; iframe HS1; ipureintro; exact View.read_writes_of_cover _ _ _ _ _ (scover_A_1 c _ _ _ _ _ _ _ _ _ _ _ _ _ _ _)
  · have hz : t.val ≠ 0 := by omega
    have hc0 : ¬cond_0 (grid2.coords t) := fun h => h0 ((hcond_0 t).mp h)
    rw [PhiS_pos V c _ _ hz]
    by_cases h1 : t.val % 12 = 11
    · have hc1 := (hcond_1 t).mpr h1
      rw [show (dat V c).leavesExact 2 t = owns (c : Thread nD τ) (ms_2 t) fullShare ((dat V c).after 2 t) from by unfold Dat.leavesExact; rw [liveAt_2_C t hc0 hc1], after_2, outsAt_C V c t h0 h1]
      unfold out_C_2 sout_C_0 sout_C_1; (try dsimp only)
      iintro ⟨⟨⟨⟨HS0, HS1⟩, HR⟩, Hg⟩, Ho, ⟨%d0, H0⟩, ⟨%d1, H1⟩, ⟨%d2, H2⟩⟩
      iapply ((kernelRun_C c (grid2.coords t) _ _ _ _ _ _ _ _ _ _ hc0 hc1 (iblk V c 0 t) (iblk V c 1 t) _ _).2.2.2 Set.univ _)
      iframe H0 H1 HS0 HS1
      isplitl [H2]; · iexists _; iexact H2
      iintro ⟨H0, H1, ⟨%e2, H2⟩, ⟨%es0, HS0⟩, ⟨%es1, HS1⟩⟩
      iframe Ho H0 H1 HR Hg
      isplitr [H2]
      swap; · unfold owns; iexists _; iframe H2; ipureintro; exact View.read_writes_of_cover _ _ _ _ _ (cover_C_2 c _ _ _ _ _ _ _ _ _ _ _ _ _ _ _ _ _)
      isplitl [HS0]
      · unfold owns; iexists _; iframe HS0; ipureintro; exact View.read_writes_of_cover _ _ _ _ _ (scover_C_0 c _ _ _ _ _ _ _ _ _ _ _ _ _ _ _ _ _)
      unfold owns; iexists _; iframe HS1; ipureintro; exact View.read_writes_of_cover _ _ _ _ _ (scover_C_1 c _ _ _ _ _ _ _ _ _ _ _ _ _ _ _ _ _)
    · have hc1 : ¬cond_1 (grid2.coords t) := fun h => h1 ((hcond_1 t).mp h)
      rw [Dat.leavesExact_idle (dat V c) 2 t (idleAt_2_B t hc0 hc1) (noFlush_2_B t hc0 hc1), outsAt_B V c t h0 h1]
      unfold sout_B_0 sout_B_1; (try dsimp only)
      iintro ⟨⟨⟨⟨HS0, HS1⟩, HR⟩, Hg⟩, Ho, ⟨%d0, H0⟩, ⟨%d1, H1⟩, ⟨%d2, H2⟩⟩
      iapply ((kernelRun_B c (grid2.coords t) _ _ _ _ _ _ _ _ _ _ hc0 hc1 (iblk V c 0 t) (iblk V c 1 t) _ _).2.2.2 _ Set.univ _)
      iframe H0 H1 H2 HS0 HS1
      iintro ⟨H0, H1, H2, ⟨%es0, HS0⟩, ⟨%es1, HS1⟩⟩
      iframe Ho H0 H1 HR Hg
      isplitr [H2]; swap; · iexists _; iexact H2
      isplitl [HS0]
      · unfold owns; iexists _; iframe HS0; ipureintro; exact View.read_writes_of_cover _ _ _ _ _ (scover_B_0 c _ _ _ _ _ _ _ _ _ _ _ _ _ _ _ _ _)
      unfold owns; iexists _; iframe HS1; ipureintro; exact View.read_writes_of_cover _ _ _ _ _ (scover_B_1 c _ _ _ _ _ _ _ _ _ _ _ _ _ _ _ _ _)

theorem body_obligation (c : Dev nD) : BodyObligation (dat (F := F) V c) (defs₀ (F := F)) Variants.none () Set.univ := fun t => by
  rw [bigSep_W2, bigSep_W2]
  exact sound_body V c t

theorem Phi_first (c : Dev nD) : (dat V c).Φ 0 = Pipeline.ΦA spec2 c := rfl

theorem Phi_last (c : Dev nD) : (dat V c).Φ (Fin.last cfg2.N) ⊢ (Pipeline.ΦA spec2 c : sProp 𝕄) :=
  PhiS_weak V c (Fin.last cfg2.N).val (Nat.le_of_lt_succ (Fin.last cfg2.N).isLt)

end Cert.Kernel.R2

end
-- ==== Proof.KR3Frame.lean ====
import proofs.«406483_j14499809591686_3_alg».proof.Proof.Gen.Kernel.Launch
import proofs.«406483_j14499809591686_3_alg».proof.Proof.Gen.Kernel.Skeleton
import proofs.«406483_j14499809591686_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev cond_0 (i : grid3.Coords) : Prop := (Scalar.cmpi .ne (Scalar.extui (Scalar.cmpi .eq (BitVec.ofNat 32 (i 1).val) 0#32)) 0#32) = 1#1
theorem hcond_0 : ∀ t : Fin cfg3.N, cond_0 (grid3.coords t) ↔ t.val % 4 = 0 :=
  (by decide +kernel : ∀ t : Fin grid3.N, cond_0 (grid3.coords t) ↔ t.val % 4 = 0)

abbrev cond_1 (i : grid3.Coords) : Prop := k3_cond2 i = 1#1
theorem hcond_1 : ∀ t : Fin cfg3.N, cond_1 (grid3.coords t) ↔ t.val % 4 = 3 :=
  (by decide +kernel : ∀ t : Fin grid3.N, cond_1 (grid3.coords t) ↔ t.val % 4 = 3)

theorem liveAt_0 : ∀ t : Fin cfg3.N, cfg3.idle 0 (grid3.coords t) = false := by decide +kernel
theorem liveAt_1 : ∀ t : Fin cfg3.N, cfg3.idle 1 (grid3.coords t) = false := by decide +kernel
theorem idleAt_2_A : ∀ t : Fin cfg3.N, cond_0 (grid3.coords t) → ¬cond_1 (grid3.coords t) → cfg3.idle 2 (grid3.coords t) = true := by decide +kernel
theorem noFlush_2_A : ∀ t : Fin cfg3.N, cond_0 (grid3.coords t) → ¬cond_1 (grid3.coords t) → (cfg3.win 2).flush t = false := by decide +kernel
theorem idleAt_2_B : ∀ t : Fin cfg3.N, ¬cond_0 (grid3.coords t) → ¬cond_1 (grid3.coords t) → cfg3.idle 2 (grid3.coords t) = true := by decide +kernel
theorem noFlush_2_B : ∀ t : Fin cfg3.N, ¬cond_0 (grid3.coords t) → ¬cond_1 (grid3.coords t) → (cfg3.win 2).flush t = false := by decide +kernel
theorem liveAt_2_C : ∀ t : Fin cfg3.N, ¬cond_0 (grid3.coords t) → cond_1 (grid3.coords t) → cfg3.idle 2 (grid3.coords t) = false := by decide +kernel

abbrev VO_2 : View sig .tc .vmem S1024x256 .f32 := (Memref.whole cc3_stg2_0 : Memref sig .tc .vmem S1024x256 .f32).view
abbrev ms_0 (t : Fin cfg3.N) : Memref sig .tc .vmem S1024x1536 .bf16 := win3_0.stage (cfg3.slots t 0)
abbrev hs_0 (t : Fin cfg3.N) : (ms_0 t).IsWhole := hstage3_0 ((cfg3.slots t 0).cast nbuf3_0)
abbrev ms_1 (t : Fin cfg3.N) : Memref sig .tc .vmem S256x6144 .bf16 := win3_1.stage (cfg3.slots t 1)
abbrev hs_1 (t : Fin cfg3.N) : (ms_1 t).IsWhole := hstage3_1 ((cfg3.slots t 1).cast nbuf3_1)
abbrev ms_2 (t : Fin cfg3.N) : Memref sig .tc .vmem S1024x256 .f32 := win3_2.stage (cfg3.slots t 2)
abbrev hs_2 (t : Fin cfg3.N) : (ms_2 t).IsWhole := hstage3_2 ((cfg3.slots t 2).cast nbuf3_2)
abbrev scM_0 : Memref sig .tc .vmem S1024x256 .f32 := Memref.whole cc3_scratch0
abbrev VS_0 : View sig .tc .vmem S1024x256 .f32 := scM_0.view

section
variable (c : Dev nD) (i : grid3.Coords) (arg2 : Memref sig .tc .vmem S1024x1536 .bf16) (harg2 : arg2.IsWhole) (arg3 : Memref sig .tc .vmem S256x6144 .bf16) (harg3 : arg3.IsWhole) (arg4 : Memref sig .tc .vmem S1024x256 .f32) (harg4 : arg4.IsWhole) (arg5 : Memref sig .tc .vmem S1024x256 .f32) (harg5 : arg5.IsWhole)

section
variable (hc0 : cond_0 i) (hc1 : ¬cond_1 i) (x0 : Vec F S1024x1536 .bf16) (x1 : Vec F S256x6144 .bf16)

set_option maxHeartbeats 1000000 in
noncomputable def kernelRun_A :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__kernel_d_body i arg2 harg2 arg3 harg3 arg4 harg4 arg5 harg5) K } := by
  refine ⟨[], ?_, fun xi2 E K => ?run⟩
  case run =>
    simp only [cc3__kernel_d_body_eq_skeleton]; unfold cc3__kernel_d_body_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

def out_A_2 : Vec F S1024x256 .f32 :=
  VO_2.read (Elt F) (VO_2.writes (Elt F) VO_2.junk (kernelRun_A c i arg2 harg2 arg3 harg3 arg4 harg4 arg5 harg5 hc0 hc1 x0 x1).1)

theorem scover_A_0 (y : S1024x256.Idx) :
    ∃ pc ∈ (kernelRun_A c i arg2 harg2 arg3 harg3 arg4 harg4 arg5 harg5 hc0 hc1 x0 x1).2.1, y ∈ pc.1.set :=
  View.cover_of_tiledL (kernelRun_A c i arg2 harg2 arg3 harg3 arg4 harg4 arg5 harg5 hc0 hc1 x0 x1).2.1 S1024x256.size (by sl_kernel_rfl) y

def sout_A_0 : Vec F S1024x256 .f32 :=
  VS_0.read (Elt F) (VS_0.writes (Elt F) VS_0.junk (kernelRun_A c i arg2 harg2 arg3 harg3 arg4 harg4 arg5 harg5 hc0 hc1 x0 x1).2.1)

end

section
variable (hc0 : ¬cond_0 i) (hc1 : ¬cond_1 i) (x0 : Vec F S1024x1536 .bf16) (x1 : Vec F S256x6144 .bf16) (xs0 : Vec F S1024x256 .f32)

set_option maxHeartbeats 1000000 in
noncomputable def kernelRun_B :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__kernel_d_body i arg2 harg2 arg3 harg3 arg4 harg4 arg5 harg5) K } := by
  refine ⟨[], ?_, fun xi2 E K => ?run⟩
  case run =>
    simp only [cc3__kernel_d_body_eq_skeleton]; unfold cc3__kernel_d_body_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

def out_B_2 : Vec F S1024x256 .f32 :=
  VO_2.read (Elt F) (VO_2.writes (Elt F) VO_2.junk (kernelRun_B c i arg2 harg2 arg3 harg3 arg4 harg4 arg5 harg5 hc0 hc1 x0 x1 xs0).1)

theorem scover_B_0 (y : S1024x256.Idx) :
    ∃ pc ∈ (kernelRun_B c i arg2 harg2 arg3 harg3 arg4 harg4 arg5 harg5 hc0 hc1 x0 x1 xs0).2.1, y ∈ pc.1.set :=
  View.cover_of_tiledL (kernelRun_B c i arg2 harg2 arg3 harg3 arg4 harg4 arg5 harg5 hc0 hc1 x0 x1 xs0).2.1 S1024x256.size (by sl_kernel_rfl) y

def sout_B_0 : Vec F S1024x256 .f32 :=
  VS_0.read (Elt F) (VS_0.writes (Elt F) VS_0.junk (kernelRun_B c i arg2 harg2 arg3 harg3 arg4 harg4 arg5 harg5 hc0 hc1 x0 x1 xs0).2.1)

end

section
variable (hc0 : ¬cond_0 i) (hc1 : cond_1 i) (x0 : Vec F S1024x1536 .bf16) (x1 : Vec F S256x6144 .bf16) (xs0 : Vec F S1024x256 .f32)

set_option maxHeartbeats 1000000 in
noncomputable def kernelRun_C :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc3__kernel_d_body i arg2 harg2 arg3 harg3 arg4 harg4 arg5 harg5) K } := by
  refine ⟨?_, ?_, fun E K => ?run⟩
  case run =>
    simp only [cc3__kernel_d_body_eq_skeleton]; unfold cc3__kernel_d_body_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

theorem cover_C_2 (y : S1024x256.Idx) :
    ∃ pc ∈ (kernelRun_C c i arg2 harg2 arg3 harg3 arg4 harg4 arg5 harg5 hc0 hc1 x0 x1 xs0).1, y ∈ pc.1.set :=
  View.cover_of_tiledL (kernelRun_C c i arg2 harg2 arg3 harg3 arg4 harg4 arg5 harg5 hc0 hc1 x0 x1 xs0).1 S1024x256.size (by sl_kernel_rfl) y

def out_C_2 : Vec F S1024x256 .f32 :=
  VO_2.read (Elt F) (VO_2.writes (Elt F) VO_2.junk (kernelRun_C c i arg2 harg2 arg3 harg3 arg4 harg4 arg5 harg5 hc0 hc1 x0 x1 xs0).1)

theorem scover_C_0 (y : S1024x256.Idx) :
    ∃ pc ∈ (kernelRun_C c i arg2 harg2 arg3 harg3 arg4 harg4 arg5 harg5 hc0 hc1 x0 x1 xs0).2.1, y ∈ pc.1.set :=
  View.cover_of_tiledL (kernelRun_C c i arg2 harg2 arg3 harg3 arg4 harg4 arg5 harg5 hc0 hc1 x0 x1 xs0).2.1 S1024x256.size (by sl_kernel_rfl) y

def sout_C_0 : Vec F S1024x256 .f32 :=
  VS_0.read (Elt F) (VS_0.writes (Elt F) VS_0.junk (kernelRun_C c i arg2 harg2 arg3 harg3 arg4 harg4 arg5 harg5 hc0 hc1 x0 x1 xs0).2.1)

end

end

def outsAt (c : Dev nD) : (n : ℕ) → n < cfg3.N → Vec F S1024x256 .f32 × Vec F S1024x256 .f32
  | 0, hn => (out_A_2 c (grid3.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM_0 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩), sout_A_0 c (grid3.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM_0 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩))
  | n + 1, hn =>
    if h0 : (n + 1) % 4 = 0 then
      if h1 : (n + 1) % 4 = 3 then
        False.elim (by omega)
      else
        (out_A_2 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩), sout_A_0 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩))
    else
      if h1 : (n + 1) % 4 = 3 then
        (out_C_2 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (outsAt c n (Nat.lt_of_succ_lt hn)).2, sout_C_0 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (outsAt c n (Nat.lt_of_succ_lt hn)).2)
      else
        (out_B_2 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (outsAt c n (Nat.lt_of_succ_lt hn)).2, sout_B_0 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (outsAt c n (Nat.lt_of_succ_lt hn)).2)

theorem outsAt_A (c : Dev nD) (t : Fin cfg3.N) (h0 : t.val % 4 = 0) (h1 : ¬t.val % 4 = 3) :
    outsAt V c t.val t.isLt = (out_A_2 c (grid3.coords t) (ms_0 t) (hs_0 t) (ms_1 t) (hs_1 t) (ms_2 t) (hs_2 t) scM_0 (Memref.isWhole_whole _) ((hcond_0 t).mpr h0) (fun h => h1 ((hcond_1 t).mp h)) (iblk V c 0 t) (iblk V c 1 t), sout_A_0 c (grid3.coords t) (ms_0 t) (hs_0 t) (ms_1 t) (hs_1 t) (ms_2 t) (hs_2 t) scM_0 (Memref.isWhole_whole _) ((hcond_0 t).mpr h0) (fun h => h1 ((hcond_1 t).mp h)) (iblk V c 0 t) (iblk V c 1 t)) := by
  obtain ⟨n, hn⟩ := t
  cases n with
  | zero => exact rfl
  | succ n => exact (dif_pos h0).trans ((dif_neg h1).trans rfl)

theorem outsAt_B (c : Dev nD) (t : Fin cfg3.N) (h0 : ¬t.val % 4 = 0) (h1 : ¬t.val % 4 = 3) :
    outsAt V c t.val t.isLt = (out_B_2 c (grid3.coords t) (ms_0 t) (hs_0 t) (ms_1 t) (hs_1 t) (ms_2 t) (hs_2 t) scM_0 (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2, sout_B_0 c (grid3.coords t) (ms_0 t) (hs_0 t) (ms_1 t) (hs_1 t) (ms_2 t) (hs_2 t) scM_0 (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg3.N) (h0 : ¬t.val % 4 = 0) (h1 : t.val % 4 = 3) :
    outsAt V c t.val t.isLt = (out_C_2 c (grid3.coords t) (ms_0 t) (hs_0 t) (ms_1 t) (hs_1 t) (ms_2 t) (hs_2 t) scM_0 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2, sout_C_0 c (grid3.coords t) (ms_0 t) (hs_0 t) (ms_1 t) (hs_1 t) (ms_2 t) (hs_2 t) scM_0 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

theorem scopedRest_split (c : Dev nD) :
    (Pipeline.scopedRest (Ix := Unit) (Name := ℕ) (U := UR sig nD τ) (Lvl := ℕ) (Val := Elt F) spec3 c : sProp 𝕄)
      = iprop((∃ f : Buf (Elt F) ((c : Thread nD τ).loc cc3_scratch0), ((c : Thread nD τ).loc cc3_scratch0) ↦{fullShare} f)
          ∗ Pipeline.scopedRestBut (Ix := Unit) (Name := ℕ) (U := UR sig nD τ) (Lvl := ℕ) (Val := Elt F) spec3 c [cc3_scratch0]) :=
  Pipeline.scopedRest_split_of_list spec3 c [cc3_scratch0] (by decide) (by decide)

abbrev Rest (c : Dev nD) : sProp 𝕄 :=
  Pipeline.scopedRestBut (Ix := Unit) (Name := ℕ) (U := UR sig nD τ) (Lvl := ℕ) (Val := Elt F) spec3 c [cc3_scratch0]

theorem PhiA_eq (c : Dev nD) :
    (Pipeline.ΦA spec3 c : sProp 𝕄) = iprop(iprop((∃ d, owns (c : Thread nD τ) scM_0 fullShare d) ∗ Rest (F := F) c) ∗ (∃ r, prngReg c r)) := by
  unfold Pipeline.ΦA; rw [scopedRest_split]; simp only [scM_0, owns_whole]; try rfl

def PhiS (c : Dev nD) : (n : ℕ) → n ≤ cfg3.N → sProp 𝕄
  | 0, _ => Pipeline.ΦA spec3 c
  | n + 1, hn => iprop(iprop(owns (c : Thread nD τ) scM_0 fullShare ((outsAt V c n hn).2) ∗ Rest (F := F) c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scM_0 fullShare ((outsAt V c n hn).2) ∗ Rest (F := F) c) ∗ (∃ r, prngReg c r)) := rfl

theorem PhiS_pos (c : Dev nD) (n : ℕ) (h : n ≤ cfg3.N) (hz : n ≠ 0) :
    PhiS V c n h = iprop(iprop(owns (c : Thread nD τ) scM_0 fullShare ((outsAt V c (n - 1) (by omega)).2) ∗ Rest (F := F) c) ∗ (∃ r, prngReg c r)) := by
  cases n with
  | zero => exact absurd rfl hz
  | succ n => rfl

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = (outsAt V c t.val t.isLt).1 := by dsimp only [dat]

theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d

def bodyPre (c : Dev nD) (t : Fin cfg3.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t)

/-- Before any point the invariant gives each scratch at some contents. -/
theorem PhiS_weak (c : Dev nD) (n : ℕ) (h : n ≤ cfg3.N) : PhiS V c n h ⊢ (Pipeline.ΦA spec3 c : sProp 𝕄) := by
  cases n with
  | zero => exact .rfl
  | succ n =>
    rw [PhiA_eq]; show iprop(iprop(owns (c : Thread nD τ) scM_0 fullShare _ ∗ Rest (F := F) c) ∗ (∃ r, prngReg c r)) ⊢ _
    iintro ⟨⟨HS0, HR⟩, Hg⟩
    iframe HR Hg
    iexists _; iexact HS0

set_option maxHeartbeats 4800000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1]
  rw [show (dat V c).owesAt () t.succ = (dat V c).owesAt () t.castSucc from rfl,
    show (dat V c).Φ t.succ = PhiS V c (t.val + 1) t.isLt from rfl, PhiS_succ, PhiS_castSucc V c t,
    show (dat V c).leavesExact 0 t = owns (c : Thread nD τ) (ms_0 t) fullShare ((dat V c).after 0 t) from by unfold Dat.leavesExact; rw [liveAt_0 t], after_0,
    show (dat V c).leavesExact 1 t = owns (c : Thread nD τ) (ms_1 t) fullShare ((dat V c).after 1 t) from by unfold Dat.leavesExact; rw [liveAt_1 t], after_1]
  have hN : t.val < 48 := lt_of_lt_of_eq t.isLt (show cfg3.N = 48 from N_3)
  by_cases h0 : t.val % 4 = 0
  · have h1 : ¬t.val % 4 = 3 := by omega
    have hc0 := (hcond_0 t).mpr h0
    have hc1 : ¬cond_1 (grid3.coords t) := fun h => h1 ((hcond_1 t).mp h)
    have hw := PhiS_weak V c t.val (Nat.le_of_lt t.isLt)
    rw [PhiA_eq] at hw
    rw [Dat.leavesExact_idle (dat V c) 2 t (idleAt_2_A t hc0 hc1) (noFlush_2_A t hc0 hc1), outsAt_A V c t h0 h1]
    unfold sout_A_0; (try dsimp only)
    iintro ⟨HΦ, Ho, ⟨%d0, H0⟩, ⟨%d1, H1⟩, ⟨%d2, H2⟩⟩
    ihave HΦ' := hw $$ HΦ
    icases HΦ' with ⟨⟨HS0, HR⟩, Hg⟩
    iapply ((kernelRun_A c (grid3.coords t) _ _ _ _ _ _ _ _ hc0 hc1 (iblk V c 0 t) (iblk V c 1 t)).2.2 _ Set.univ _)
    iframe H0 H1 H2 HS0
    iintro ⟨H0, H1, H2, ⟨%es0, HS0⟩⟩
    iframe Ho H0 H1 HR Hg
    isplitr [H2]; swap; · iexists _; iexact H2
    unfold owns; iexists _; iframe HS0; ipureintro; exact View.read_writes_of_cover _ _ _ _ _ (scover_A_0 c _ _ _ _ _ _ _ _ _ _ _ _ _)
  · have hz : t.val ≠ 0 := by omega
    have hc0 : ¬cond_0 (grid3.coords t) := fun h => h0 ((hcond_0 t).mp h)
    rw [PhiS_pos V c _ _ hz]
    by_cases h1 : t.val % 4 = 3
    · have hc1 := (hcond_1 t).mpr h1
      rw [show (dat V c).leavesExact 2 t = owns (c : Thread nD τ) (ms_2 t) fullShare ((dat V c).after 2 t) from by unfold Dat.leavesExact; rw [liveAt_2_C t hc0 hc1], after_2, outsAt_C V c t h0 h1]
      unfold out_C_2 sout_C_0; (try dsimp only)
      iintro ⟨⟨⟨HS0, HR⟩, Hg⟩, Ho, ⟨%d0, H0⟩, ⟨%d1, H1⟩, ⟨%d2, H2⟩⟩
      iapply ((kernelRun_C c (grid3.coords t) _ _ _ _ _ _ _ _ hc0 hc1 (iblk V c 0 t) (iblk V c 1 t) _).2.2 Set.univ _)
      iframe H0 H1 HS0
      isplitl [H2]; · iexists _; iexact H2
      iintro ⟨H0, H1, ⟨%e2, H2⟩, ⟨%es0, HS0⟩⟩
      iframe Ho H0 H1 HR Hg
      isplitr [H2]
      swap; · unfold owns; iexists _; iframe H2; ipureintro; exact View.read_writes_of_cover _ _ _ _ _ (cover_C_2 c _ _ _ _ _ _ _ _ _ _ _ _ _ _)
      unfold owns; iexists _; iframe HS0; ipureintro; exact View.read_writes_of_cover _ _ _ _ _ (scover_C_0 c _ _ _ _ _ _ _ _ _ _ _ _ _ _)
    · have hc1 : ¬cond_1 (grid3.coords t) := fun h => h1 ((hcond_1 t).mp h)
      rw [Dat.leavesExact_idle (dat V c) 2 t (idleAt_2_B t hc0 hc1) (noFlush_2_B t hc0 hc1), outsAt_B V c t h0 h1]
      unfold sout_B_0; (try dsimp only)
      iintro ⟨⟨⟨HS0, HR⟩, Hg⟩, Ho, ⟨%d0, H0⟩, ⟨%d1, H1⟩, ⟨%d2, H2⟩⟩
      iapply ((kernelRun_B c (grid3.coords t) _ _ _ _ _ _ _ _ hc0 hc1 (iblk V c 0 t) (iblk V c 1 t) _).2.2 _ Set.univ _)
      iframe H0 H1 H2 HS0
      iintro ⟨H0, H1, H2, ⟨%es0, HS0⟩⟩
      iframe Ho H0 H1 HR Hg
      isplitr [H2]; swap; · iexists _; iexact H2
      unfold owns; iexists _; iframe HS0; ipureintro; exact View.read_writes_of_cover _ _ _ _ _ (scover_B_0 c _ _ _ _ _ _ _ _ _ _ _ _ _ _)

theorem body_obligation (c : Dev nD) : BodyObligation (dat (F := F) V c) (defs₀ (F := F)) Variants.none () Set.univ := fun t => by
  rw [bigSep_W3, bigSep_W3]
  exact sound_body V c t

theorem Phi_first (c : Dev nD) : (dat V c).Φ 0 = Pipeline.ΦA spec3 c := rfl

theorem Phi_last (c : Dev nD) : (dat V c).Φ (Fin.last cfg3.N) ⊢ (Pipeline.ΦA spec3 c : sProp 𝕄) :=
  PhiS_weak V c (Fin.last cfg3.N).val (Nat.le_of_lt_succ (Fin.last cfg3.N).isLt)

end Cert.Kernel.R3

end
-- ==== Proof.R0Frame.lean ====
import proofs.«406483_j14499809591686_3_alg».proof.Proof.Gen.KernelIdeal.Launch
import proofs.«406483_j14499809591686_3_alg».proof.Proof.Gen.KernelIdeal.Skeleton
import proofs.«406483_j14499809591686_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 12 = 0 :=
  (by decide +kernel : ∀ t : Fin grid0.N, cond0_0 (grid0.coords t) ↔ t.val % 12 = 0)

abbrev cond0_1 (i : grid0.Coords) : Prop := k0_cond2 i = 1#1
theorem hcond0_1 : ∀ t : Fin cfg0.N, cond0_1 (grid0.coords t) ↔ t.val % 12 = 11 :=
  (by decide +kernel : ∀ t : Fin grid0.N, cond0_1 (grid0.coords t) ↔ t.val % 12 = 11)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

abbrev VO0_2 : View sig .tc .vmem S1536x256 .f32 := (Memref.whole cc0_stg2_0 : Memref sig .tc .vmem S1536x256 .f32).view
abbrev ms0_0 (t : Fin cfg0.N) : Memref sig .tc .vmem S1024x1536 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12288x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x256 .f32 := win0_2.stage (cfg0.slots t 2)
abbrev hs0_2 (t : Fin cfg0.N) : (ms0_2 t).IsWhole := hstage0_2 ((cfg0.slots t 2).cast nbuf0_2)
abbrev scM0_0 : Memref sig .tc .vmem S1536x256 .f32 := Memref.whole cc0_scratch0
abbrev scM0_1 : Memref sig .tc .vmem S1x1536 .f32 := Memref.whole cc0_scratch1
abbrev VS0_0 : View sig .tc .vmem S1536x256 .f32 := scM0_0.view
abbrev VS0_1 : View sig .tc .vmem S1x1536 .f32 := scM0_1.view

theorem PhiA0_ex (c : Dev nD) : ∃ R : sProp 𝕄,
    (Pipeline.ΦA spec0 c : sProp 𝕄)
      = iprop(iprop((∃ d, owns (c : Thread nD τ) scM0_0 fullShare d) ∗ (∃ d, owns (c : Thread nD τ) scM0_1 fullShare d) ∗ R) ∗ (∃ r, prngReg c r)) := by
  unfold Pipeline.ΦA; rw [scopedRest0_eq]; simp only [scM0_0, scM0_1, owns_whole]; exact ⟨_, rfl⟩

def restS (c : Dev nD) : sProp 𝕄 := (PhiA0_ex (F := F) c).choose

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS (F := F) c) ∗ (∃ r, prngReg c r)) :=
  (PhiA0_ex (F := F) c).choose_spec

section
variable (c : Dev nD) (i : grid0.Coords) (arg2 : Memref sig .tc .vmem S1024x1536 .f32) (harg2 : arg2.IsWhole) (arg3 : Memref sig .tc .vmem S12288x256 .f32) (harg3 : arg3.IsWhole) (arg4 : Memref sig .tc .vmem S1536x256 .f32) (harg4 : arg4.IsWhole) (arg5 : Memref sig .tc .vmem S1536x256 .f32) (harg5 : arg5.IsWhole) (arg6 : Memref sig .tc .vmem S1x1536 .f32) (harg6 : arg6.IsWhole)

section
variable (hc0 : cond0_0 i) (hc1 : ¬cond0_1 i) (x0 : Vec F S1024x1536 .f32) (x1 : Vec F S12288x256 .f32)

set_option maxHeartbeats 1000000 in
noncomputable def kernelRun0_A :
    Σ' (L2 : List (View.Piece (Elt F) S1536x256 .f32)) (LS0 : List (View.Piece (Elt F) S1536x256 .f32)), { LS1 : List (View.Piece (Elt F) S1x1536 .f32) //
      ∀ (xi2 : Vec F S1536x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__kernel_a_body i arg2 harg2 arg3 harg3 arg4 harg4 arg5 harg5 arg6 harg6) K } := by
  refine ⟨[], ?_, ?_, fun xi2 E K => ?run⟩
  case run =>
    simp only [cc0__kernel_a_body_eq_skeleton]; unfold cc0__kernel_a_body_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

def out0_A_2 : Vec F S1536x256 .f32 :=
  VO0_2.read (Elt F) (VO0_2.writes (Elt F) VO0_2.junk (kernelRun0_A c i arg2 harg2 arg3 harg3 arg4 harg4 arg5 harg5 arg6 harg6 hc0 hc1 x0 x1).1)

theorem scover0_A_0 (y : S1536x256.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S1536x256.size (by sl_kernel_rfl) y

def sout0_A_0 : Vec F S1536x256 .f32 :=
  VS0_0.read (Elt F) (VS0_0.writes (Elt F) VS0_0.junk (kernelRun0_A c i arg2 harg2 arg3 harg3 arg4 harg4 arg5 harg5 arg6 harg6 hc0 hc1 x0 x1).2.1)

theorem scover0_A_1 (y : S1x1536.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S1x1536.size (by sl_kernel_rfl) y

def sout0_A_1 : Vec F S1x1536 .f32 :=
  VS0_1.read (Elt F) (VS0_1.writes (Elt F) VS0_1.junk (kernelRun0_A c i arg2 harg2 arg3 harg3 arg4 harg4 arg5 harg5 arg6 harg6 hc0 hc1 x0 x1).2.2.1)

end

section
variable (hc0 : ¬cond0_0 i) (hc1 : ¬cond0_1 i) (x0 : Vec F S1024x1536 .f32) (x1 : Vec F S12288x256 .f32) (xs0 : Vec F S1536x256 .f32) (xs1 : Vec F S1x1536 .f32)

set_option maxHeartbeats 1000000 in
noncomputable def kernelRun0_B :
    Σ' (L2 : List (View.Piece (Elt F) S1536x256 .f32)) (LS0 : List (View.Piece (Elt F) S1536x256 .f32)), { LS1 : List (View.Piece (Elt F) S1x1536 .f32) //
      ∀ (xi2 : Vec F S1536x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__kernel_a_body i arg2 harg2 arg3 harg3 arg4 harg4 arg5 harg5 arg6 harg6) K } := by
  refine ⟨[], ?_, ?_, fun xi2 E K => ?run⟩
  case run =>
    simp only [cc0__kernel_a_body_eq_skeleton]; unfold cc0__kernel_a_body_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

def out0_B_2 : Vec F S1536x256 .f32 :=
  VO0_2.read (Elt F) (VO0_2.writes (Elt F) VO0_2.junk (kernelRun0_B c i arg2 harg2 arg3 harg3 arg4 harg4 arg5 harg5 arg6 harg6 hc0 hc1 x0 x1 xs0 xs1).1)

theorem scover0_B_0 (y : S1536x256.Idx) :
    ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S1536x256.size (by sl_kernel_rfl) y

def sout0_B_0 : Vec F S1536x256 .f32 :=
  VS0_0.read (Elt F) (VS0_0.writes (Elt F) VS0_0.junk (kernelRun0_B c i arg2 harg2 arg3 harg3 arg4 harg4 arg5 harg5 arg6 harg6 hc0 hc1 x0 x1 xs0 xs1).2.1)

theorem scover0_B_1 (y : S1x1536.Idx) :
    ∃ pc ∈ (kernelRun0_B c i arg2 harg2 arg3 harg3 arg4 harg4 arg5 harg5 arg6 harg6 hc0 hc1 x0 x1 xs0 xs1).2.2.1, y ∈ pc.1.set :=
  View.cover_of_tiledL (kernelRun0_B c i arg2 harg2 arg3 harg3 arg4 harg4 arg5 harg5 arg6 harg6 hc0 hc1 x0 x1 xs0 xs1).2.2.1 S1x1536.size (by sl_kernel_rfl) y

def sout0_B_1 : Vec F S1x1536 .f32 :=
  VS0_1.read (Elt F) (VS0_1.writes (Elt F) VS0_1.junk (kernelRun0_B c i arg2 harg2 arg3 harg3 arg4 harg4 arg5 harg5 arg6 harg6 hc0 hc1 x0 x1 xs0 xs1).2.2.1)

end

section
variable (hc0 : ¬cond0_0 i) (hc1 : cond0_1 i) (x0 : Vec F S1024x1536 .f32) (x1 : Vec F S12288x256 .f32) (xs0 : Vec F S1536x256 .f32) (xs1 : Vec F S1x1536 .f32)

set_option maxHeartbeats 1000000 in
noncomputable def kernelRun0_C :
    Σ' (L2 : List (View.Piece (Elt F) S1536x256 .f32)) (LS0 : List (View.Piece (Elt F) S1536x256 .f32)), { LS1 : List (View.Piece (Elt F) S1x1536 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__kernel_a_body i arg2 harg2 arg3 harg3 arg4 harg4 arg5 harg5 arg6 harg6) K } := by
  refine ⟨?_, ?_, ?_, fun E K => ?run⟩
  case run =>
    simp only [cc0__kernel_a_body_eq_skeleton]; unfold cc0__kernel_a_body_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

theorem cover0_C_2 (y : S1536x256.Idx) :
    ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S1536x256.size (by sl_kernel_rfl) y

def out0_C_2 : Vec F S1536x256 .f32 :=
  VO0_2.read (Elt F) (VO0_2.writes (Elt F) VO0_2.junk (kernelRun0_C c i arg2 harg2 arg3 harg3 arg4 harg4 arg5 harg5 arg6 harg6 hc0 hc1 x0 x1 xs0 xs1).1)

theorem scover0_C_0 (y : S1536x256.Idx) :
    ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S1536x256.size (by sl_kernel_rfl) y

def sout0_C_0 : Vec F S1536x256 .f32 :=
  VS0_0.read (Elt F) (VS0_0.writes (Elt F) VS0_0.junk (kernelRun0_C c i arg2 harg2 arg3 harg3 arg4 harg4 arg5 harg5 arg6 harg6 hc0 hc1 x0 x1 xs0 xs1).2.1)

theorem scover0_C_1 (y : S1x1536.Idx) :
    ∃ pc ∈ (kernelRun0_C c i arg2 harg2 arg3 harg3 arg4 harg4 arg5 harg5 arg6 harg6 hc0 hc1 x0 x1 xs0 xs1).2.2.1, y ∈ pc.1.set :=
  View.cover_of_tiledL (kernelRun0_C c i arg2 harg2 arg3 harg3 arg4 harg4 arg5 harg5 arg6 harg6 hc0 hc1 x0 x1 xs0 xs1).2.2.1 S1x1536.size (by sl_kernel_rfl) y

def sout0_C_1 : Vec F S1x1536 .f32 :=
  VS0_1.read (Elt F) (VS0_1.writes (Elt F) VS0_1.junk (kernelRun0_C c i arg2 harg2 arg3 harg3 arg4 harg4 arg5 harg5 arg6 harg6 hc0 hc1 x0 x1 xs0 xs1).2.2.1)

end

end

def atA (c : Dev nD) (t : Fin cfg0.N) (h0 : t.val % 12 = 0) (h1 : ¬t.val % 12 = 11) : Vec F S1536x256 .f32 × Vec F S1536x256 .f32 × Vec F S1x1536 .f32 :=
  (out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk V c 0 t) (iblk V c 1 t),
   sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk V c 0 t) (iblk V c 1 t),
   sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk V c 0 t) (iblk V c 1 t))

def atB (c : Dev nD) (t : Fin cfg0.N) (h0 : ¬t.val % 12 = 0) (h1 : ¬t.val % 12 = 11) (xs0 : Vec F S1536x256 .f32) (xs1 : Vec F S1x1536 .f32) : Vec F S1536x256 .f32 × Vec F S1536x256 .f32 × Vec F S1x1536 .f32 :=
  (out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk V c 0 t) (iblk V c 1 t) xs0 xs1,
   sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk V c 0 t) (iblk V c 1 t) xs0 xs1,
   sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk V c 0 t) (iblk V c 1 t) xs0 xs1)

def atC (c : Dev nD) (t : Fin cfg0.N) (h0 : ¬t.val % 12 = 0) (h1 : t.val % 12 = 11) (xs0 : Vec F S1536x256 .f32) (xs1 : Vec F S1x1536 .f32) : Vec F S1536x256 .f32 × Vec F S1536x256 .f32 × Vec F S1x1536 .f32 :=
  (out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk V c 0 t) (iblk V c 1 t) xs0 xs1,
   sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk V c 0 t) (iblk V c 1 t) xs0 xs1,
   sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk V c 0 t) (iblk V c 1 t) xs0 xs1)

def outsAt0 (c : Dev nD) : (n : ℕ) → n < cfg0.N → Vec F S1536x256 .f32 × Vec F S1536x256 .f32 × Vec F S1x1536 .f32
  | 0, hn => atA V c ⟨0, hn⟩ (Nat.zero_mod _) (by show ¬(0 % 12 = 11); omega)
  | n + 1, hn =>
    if h0 : (n + 1) % 12 = 0 then
      if h1 : (n + 1) % 12 = 11 then
        False.elim (by omega)
      else
        atA V c ⟨n + 1, hn⟩ h0 h1
    else
      if h1 : (n + 1) % 12 = 11 then
        atC V c ⟨n + 1, hn⟩ h0 h1 (outsAt0 c n (Nat.lt_of_succ_lt hn)).2.1 (outsAt0 c n (Nat.lt_of_succ_lt hn)).2.2
      else
        atB V c ⟨n + 1, hn⟩ h0 h1 (outsAt0 c n (Nat.lt_of_succ_lt hn)).2.1 (outsAt0 c n (Nat.lt_of_succ_lt hn)).2.2

theorem outsAt0_A (c : Dev nD) (t : Fin cfg0.N) (h0 : t.val % 12 = 0) (h1 : ¬t.val % 12 = 11) :
    outsAt0 V c t.val t.isLt = atA V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 12 = 0) (h1 : ¬t.val % 12 = 11) :
    outsAt0 V c t.val t.isLt = atB V c t h0 h1 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 12 = 0) (h1 : t.val % 12 = 11) :
    outsAt0 V c t.val t.isLt = atC V c t h0 h1 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ restS (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ restS (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ restS (F := F) c) ∗ (∃ r, prngReg c r)) := by
  cases n with
  | zero => exact absurd rfl hz
  | succ n => rfl

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt0 V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = (outsAt0 V c t.val t.isLt).1 := by dsimp only [dat]

theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d

def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

/-- Before any point the invariant gives each scratch at some contents. -/
theorem PhiS_weak (c : Dev nD) (n : ℕ) (h : n ≤ cfg0.N) : PhiS V c n h ⊢ (Pipeline.ΦA spec0 c : sProp 𝕄) := by
  cases n with
  | zero => exact .rfl
  | succ n =>
    rw [PhiA0_eq]; show iprop(iprop(owns (c : Thread nD τ) scM0_0 fullShare _ ∗ owns (c : Thread nD τ) scM0_1 fullShare _ ∗ restS (F := F) c) ∗ (∃ r, prngReg c r)) ⊢ _
    iintro ⟨⟨HS0, HS1, HR⟩, Hg⟩
    iframe HR Hg
    isplitl [HS0]; · iexists _; iexact HS0
    iexists _; iexact HS1

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).owesAt () t.succ = (dat V c).owesAt () t.castSucc from rfl,
    show (dat V c).Φ t.succ = PhiS V c (t.val + 1) t.isLt from rfl, PhiS_succ, PhiS_castSucc V c t,
    show (dat V c).leavesExact 0 t = owns (c : Thread nD τ) (ms0_0 t) fullShare ((dat V c).after 0 t) from by unfold Dat.leavesExact; rw [liveAt0_0 t], after0_0,
    show (dat V c).leavesExact 1 t = owns (c : Thread nD τ) (ms0_1 t) fullShare ((dat V c).after 1 t) from by unfold Dat.leavesExact; rw [liveAt0_1 t], after0_1]
  have hN : t.val < 48 := lt_of_lt_of_eq t.isLt (show cfg0.N = 48 from N_0)
  by_cases h0 : t.val % 12 = 0
  · have h1 : ¬t.val % 12 = 11 := by omega
    have hc0 := (hcond0_0 t).mpr h0
    have hc1 : ¬cond0_1 (grid0.coords t) := fun h => h1 ((hcond0_1 t).mp h)
    have hw := PhiS_weak V c t.val (Nat.le_of_lt t.isLt)
    rw [PhiA0_eq] at hw
    rw [Dat.leavesExact_idle (dat V c) 2 t (idleAt0_2_A t hc0 hc1) (noFlush0_2_A t hc0 hc1), outsAt0_A V c t h0 h1]
    unfold atA sout0_A_0 sout0_A_1; (try dsimp only)
    iintro ⟨HΦ, Ho, ⟨%d0, H0⟩, ⟨%d1, H1⟩, ⟨%d2, H2⟩⟩
    ihave HΦ' := hw $$ HΦ
    icases HΦ' with ⟨⟨HS0, HS1, HR⟩, Hg⟩
    iapply ((kernelRun0_A c (grid0.coords t) _ _ _ _ _ _ _ _ _ _ hc0 hc1 (iblk V c 0 t) (iblk V c 1 t)).2.2.2 _ Set.univ _)
    iframe H0 H1 H2 HS0 HS1
    iintro ⟨H0, H1, H2, ⟨%es0, HS0⟩, ⟨%es1, HS1⟩⟩
    iframe Ho H0 H1 HR Hg
    isplitr [H2]; swap; · iexists _; iexact H2
    isplitl [HS0]
    · unfold owns; iexists _; iframe HS0; ipureintro; exact View.read_writes_of_cover _ _ _ _ _ (scover0_A_0 c _ _ _ _ _ _ _ _ _ _ _ _ _ _ _)
    unfold owns; iexists _; iframe HS1; ipureintro; exact View.read_writes_of_cover _ _ _ _ _ (scover0_A_1 c _ _ _ _ _ _ _ _ _ _ _ _ _ _ _)
  · have hz : t.val ≠ 0 := by omega
    have hc0 : ¬cond0_0 (grid0.coords t) := fun h => h0 ((hcond0_0 t).mp h)
    rw [PhiS_pos V c _ _ hz]
    by_cases h1 : t.val % 12 = 11
    · have hc1 := (hcond0_1 t).mpr h1
      rw [show (dat V c).leavesExact 2 t = owns (c : Thread nD τ) (ms0_2 t) fullShare ((dat V c).after 2 t) from by unfold Dat.leavesExact; rw [liveAt0_2_C t hc0 hc1], after0_2, outsAt0_C V c t h0 h1]
      unfold atC out0_C_2 sout0_C_0 sout0_C_1; (try dsimp only)
      iintro ⟨⟨⟨HS0, HS1, HR⟩, Hg⟩, Ho, ⟨%d0, H0⟩, ⟨%d1, H1⟩, ⟨%d2, H2⟩⟩
      iapply ((kernelRun0_C c (grid0.coords t) _ _ _ _ _ _ _ _ _ _ hc0 hc1 (iblk V c 0 t) (iblk V c 1 t) _ _).2.2.2 Set.univ _)
      iframe H0 H1 HS0 HS1
      isplitl [H2]; · iexists _; iexact H2
      iintro ⟨H0, H1, ⟨%e2, H2⟩, ⟨%es0, HS0⟩, ⟨%es1, HS1⟩⟩
      iframe Ho H0 H1 HR Hg
      isplitr [H2]
      swap; · unfold owns; iexists _; iframe H2; ipureintro; exact View.read_writes_of_cover _ _ _ _ _ (cover0_C_2 c _ _ _ _ _ _ _ _ _ _ _ _ _ _ _ _ _)
      isplitl [HS0]
      · unfold owns; iexists _; iframe HS0; ipureintro; exact View.read_writes_of_cover _ _ _ _ _ (scover0_C_0 c _ _ _ _ _ _ _ _ _ _ _ _ _ _ _ _ _)
      unfold owns; iexists _; iframe HS1; ipureintro; exact View.read_writes_of_cover _ _ _ _ _ (scover0_C_1 c _ _ _ _ _ _ _ _ _ _ _ _ _ _ _ _ _)
    · have hc1 : ¬cond0_1 (grid0.coords t) := fun h => h1 ((hcond0_1 t).mp h)
      rw [Dat.leavesExact_idle (dat V c) 2 t (idleAt0_2_B t hc0 hc1) (noFlush0_2_B t hc0 hc1), outsAt0_B V c t h0 h1]
      unfold atB sout0_B_0 sout0_B_1; (try dsimp only)
      iintro ⟨⟨⟨HS0, HS1, HR⟩, Hg⟩, Ho, ⟨%d0, H0⟩, ⟨%d1, H1⟩, ⟨%d2, H2⟩⟩
      iapply ((kernelRun0_B c (grid0.coords t) _ _ _ _ _ _ _ _ _ _ hc0 hc1 (iblk V c 0 t) (iblk V c 1 t) _ _).2.2.2 _ Set.univ _)
      iframe H0 H1 H2 HS0 HS1
      iintro ⟨H0, H1, H2, ⟨%es0, HS0⟩, ⟨%es1, HS1⟩⟩
      iframe Ho H0 H1 HR Hg
      isplitr [H2]; swap; · iexists _; iexact H2
      isplitl [HS0]
      · unfold owns; iexists _; iframe HS0; ipureintro; exact View.read_writes_of_cover _ _ _ _ _ (scover0_B_0 c _ _ _ _ _ _ _ _ _ _ _ _ _ _ _ _ _)
      unfold owns; iexists _; iframe HS1; ipureintro; exact View.read_writes_of_cover _ _ _ _ _ (scover0_B_1 c _ _ _ _ _ _ _ _ _ _ _ _ _ _ _ _ _)

theorem body_obligation (c : Dev nD) : BodyObligation (dat (F := F) V c) (defs₀ (F := F)) Variants.none () Set.univ := fun t => by
  rw [bigSep_W0, bigSep_W0]
  exact sound_body V c t

theorem Phi_first (c : Dev nD) : (dat V c).Φ 0 = Pipeline.ΦA spec0 c := rfl

theorem Phi_last (c : Dev nD) : (dat V c).Φ (Fin.last cfg0.N) ⊢ (Pipeline.ΦA spec0 c : sProp 𝕄) :=
  PhiS_weak V c (Fin.last cfg0.N).val (Nat.le_of_lt_succ (Fin.last cfg0.N).isLt)

end Cert.KernelIdeal.R0

end
-- ==== Proof.R1Frame.lean ====
import proofs.«406483_j14499809591686_3_alg».proof.Proof.Gen.KernelIdeal.Launch
import proofs.«406483_j14499809591686_3_alg».proof.Proof.Gen.KernelIdeal.Skeleton
import proofs.«406483_j14499809591686_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev r_0 : Rect S128x6144 := Rect.unit (s := S128x6144) ![0, 0] S128x6144.size inb_S128x6144_S128x6144_0_0
abbrev r_1 : Rect S128x1 := Rect.unit (s := S128x1) ![0, 0] S128x1.size inb_S128x1_S128x1_0_0
abbrev r_2 : Rect S1x6144 := Rect.unit (s := S1x6144) ![0, 0] S1x6144.size inb_S1x6144_S1x6144_0_0

def out_3 (x0 : Vec F S128x6144 .f32) (x1 : Vec F S128x1 .f32) (x2 : Vec F S1x6144 .f32) : Vec F S128x6144 .bf16 :=
  View.canon [⟨r_0, k1_pay1 (View.ld x0 r_0) (View.ld x1 r_1) (View.ld x2 r_2)⟩]

theorem cover_3 (p0 : Vec F S128x6144 .bf16) (y : S128x6144.Idx) :
    ∃ pc ∈ ([⟨r_0, p0⟩] : List (View.Piece (Elt F) S128x6144 .bf16)), y ∈ pc.1.set :=
  View.cover_of_tiled [⟨r_0, p0⟩] S128x6144.size (by rfl) y

set_option maxHeartbeats 1000000 in
theorem sound_kernel (c : Dev nD) (E : Set ℕ) (i : grid1.Coords)
    (arg1 : Memref sig .tc .vmem S128x6144 .f32) (harg1 : arg1.IsWhole) (arg2 : Memref sig .tc .vmem S128x1 .f32) (harg2 : arg2.IsWhole)
    (arg3 : Memref sig .tc .vmem S1x6144 .f32) (harg3 : arg3.IsWhole) (arg4 : Memref sig .tc .vmem S128x6144 .bf16) (harg4 : arg4.IsWhole)
    (x0 : Vec F S128x6144 .f32) (x1 : Vec F S128x1 .f32) (x2 : Vec F S1x6144 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out_3 x0 x1 x2)) -∗ K ⟨⟩))
      ⊢ wp frame (wpE (defs₀ (F := F)) Variants.none c none) E (cc1__kernel_b_body i arg1 harg1 arg2 harg2 arg3 harg3 arg4 harg4) K := by
  simp only [cc1__kernel_b_body_eq_skeleton]; unfold cc1__kernel_b_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_3 _)

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out_3 (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) :
    (dat V c).after 3 t = out_3 (iblk V c 0 t) (iblk V c 1 t) (iblk V c 2 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W1, bigSep_W1]
  exact sound_body V c t

theorem Phi_first (c : Dev nD) : (dat V c).Φ 0 = Pipeline.ΦA spec1 c := rfl

theorem Phi_last (c : Dev nD) : (dat V c).Φ (Fin.last cfg1.N) ⊢ (Pipeline.ΦA spec1 c : sProp 𝕄) := .rfl

end Cert.KernelIdeal.R1

end
-- ==== Proof.R2Frame.lean ====
import proofs.«406483_j14499809591686_3_alg».proof.Proof.Gen.KernelIdeal.Launch
import proofs.«406483_j14499809591686_3_alg».proof.Proof.Gen.KernelIdeal.Skeleton
import proofs.«406483_j14499809591686_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev cond_0 (i : grid2.Coords) : Prop := (Scalar.cmpi .ne (Scalar.extui (Scalar.cmpi .eq (BitVec.ofNat 32 (i 1).val) 0#32)) 0#32) = 1#1
theorem hcond_0 : ∀ t : Fin cfg2.N, cond_0 (grid2.coords t) ↔ t.val % 12 = 0 :=
  (by decide +kernel : ∀ t : Fin grid2.N, cond_0 (grid2.coords t) ↔ t.val % 12 = 0)

abbrev cond_1 (i : grid2.Coords) : Prop := k2_cond2 i = 1#1
theorem hcond_1 : ∀ t : Fin cfg2.N, cond_1 (grid2.coords t) ↔ t.val % 12 = 11 :=
  (by decide +kernel : ∀ t : Fin grid2.N, cond_1 (grid2.coords t) ↔ t.val % 12 = 11)

theorem liveAt_0 : ∀ t : Fin cfg2.N, cfg2.idle 0 (grid2.coords t) = false := by decide +kernel
theorem liveAt_1 : ∀ t : Fin cfg2.N, cfg2.idle 1 (grid2.coords t) = false := by decide +kernel
theorem idleAt_2_A : ∀ t : Fin cfg2.N, cond_0 (grid2.coords t) → ¬cond_1 (grid2.coords t) → cfg2.idle 2 (grid2.coords t) = true := by decide +kernel
theorem noFlush_2_A : ∀ t : Fin cfg2.N, cond_0 (grid2.coords t) → ¬cond_1 (grid2.coords t) → (cfg2.win 2).flush t = false := by decide +kernel
theorem idleAt_2_B : ∀ t : Fin cfg2.N, ¬cond_0 (grid2.coords t) → ¬cond_1 (grid2.coords t) → cfg2.idle 2 (grid2.coords t) = true := by decide +kernel
theorem noFlush_2_B : ∀ t : Fin cfg2.N, ¬cond_0 (grid2.coords t) → ¬cond_1 (grid2.coords t) → (cfg2.win 2).flush t = false := by decide +kernel
theorem liveAt_2_C : ∀ t : Fin cfg2.N, ¬cond_0 (grid2.coords t) → cond_1 (grid2.coords t) → cfg2.idle 2 (grid2.coords t) = false := by decide +kernel

abbrev VO_2 : View sig .tc .vmem S256x1536 .bf16 := (Memref.whole cc2_stg2_0 : Memref sig .tc .vmem S256x1536 .bf16).view
abbrev ms_0 (t : Fin cfg2.N) : Memref sig .tc .vmem S1024x1536 .bf16 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S12288x256 .bf16 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S256x1536 .bf16 := win2_2.stage (cfg2.slots t 2)
abbrev hs_2 (t : Fin cfg2.N) : (ms_2 t).IsWhole := hstage2_2 ((cfg2.slots t 2).cast nbuf2_2)
abbrev scM_0 : Memref sig .tc .vmem S256x1536 .f32 := Memref.whole cc2_scratch0
abbrev scM_1 : Memref sig .tc .vmem S1x1536 .f32 := Memref.whole cc2_scratch1
abbrev VS_0 : View sig .tc .vmem S256x1536 .f32 := scM_0.view
abbrev VS_1 : View sig .tc .vmem S1x1536 .f32 := scM_1.view

theorem scopedRest_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))
          ∗ Pipeline.scopedRestBut (Ix := Unit) (Name := ℕ) (U := UR sig nD τ) (Lvl := ℕ) (Val := Elt F) spec2 c [cc2_scratch0, cc2_scratch1]) :=
  Pipeline.scopedRest_split_of_list spec2 c [cc2_scratch0, cc2_scratch1] (by decide) (by decide)

abbrev Rest (c : Dev nD) : sProp 𝕄 :=
  Pipeline.scopedRestBut (Ix := Unit) (Name := ℕ) (U := UR sig nD τ) (Lvl := ℕ) (Val := Elt F) spec2 c [cc2_scratch0, cc2_scratch1]

theorem PhiA_eq (c : Dev nD) :
    (Pipeline.ΦA spec2 c : sProp 𝕄)
      = iprop(iprop(iprop((∃ d, owns (c : Thread nD τ) scM_0 fullShare d) ∗ (∃ d, owns (c : Thread nD τ) scM_1 fullShare d)) ∗ Rest (F := F) c) ∗ (∃ r, prngReg c r)) := by
  unfold Pipeline.ΦA; rw [scopedRest_split]; simp only [scM_0, scM_1, owns_whole]; try rfl

section
variable (c : Dev nD) (i : grid2.Coords) (arg2 : Memref sig .tc .vmem S1024x1536 .bf16) (harg2 : arg2.IsWhole) (arg3 : Memref sig .tc .vmem S12288x256 .bf16) (harg3 : arg3.IsWhole) (arg4 : Memref sig .tc .vmem S256x1536 .bf16) (harg4 : arg4.IsWhole) (arg5 : Memref sig .tc .vmem S256x1536 .f32) (harg5 : arg5.IsWhole) (arg6 : Memref sig .tc .vmem S1x1536 .f32) (harg6 : arg6.IsWhole)

section
variable (hc0 : cond_0 i) (hc1 : ¬cond_1 i) (x0 : Vec F S1024x1536 .bf16) (x1 : Vec F S12288x256 .bf16)

set_option maxHeartbeats 1000000 in
noncomputable def kernelRun_A :
    Σ' (L2 : List (View.Piece (Elt F) S256x1536 .bf16)) (LS0 : List (View.Piece (Elt F) S256x1536 .f32)), { LS1 : List (View.Piece (Elt F) S1x1536 .f32) //
      ∀ (xi2 : Vec F S256x1536 .bf16) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc2__kernel_c_body i arg2 harg2 arg3 harg3 arg4 harg4 arg5 harg5 arg6 harg6) K } := by
  refine ⟨[], ?_, ?_, fun xi2 E K => ?run⟩
  case run =>
    simp only [cc2__kernel_c_body_eq_skeleton]; unfold cc2__kernel_c_body_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    iexists _; iexact HS1

def out_A_2 : Vec F S256x1536 .bf16 :=
  VO_2.read (Elt F) (VO_2.writes (Elt F) VO_2.junk (kernelRun_A c i arg2 harg2 arg3 harg3 arg4 harg4 arg5 harg5 arg6 harg6 hc0 hc1 x0 x1).1)

theorem scover_A_0 (y : S256x1536.Idx) :
    ∃ pc ∈ (kernelRun_A c i arg2 harg2 arg3 harg3 arg4 harg4 arg5 harg5 arg6 harg6 hc0 hc1 x0 x1).2.1, y ∈ pc.1.set :=
  View.cover_of_tiledL (kernelRun_A c i arg2 harg2 arg3 harg3 arg4 harg4 arg5 harg5 arg6 harg6 hc0 hc1 x0 x1).2.1 S256x1536.size (by sl_kernel_rfl) y

def sout_A_0 : Vec F S256x1536 .f32 :=
  VS_0.read (Elt F) (VS_0.writes (Elt F) VS_0.junk (kernelRun_A c i arg2 harg2 arg3 harg3 arg4 harg4 arg5 harg5 arg6 harg6 hc0 hc1 x0 x1).2.1)

theorem scover_A_1 (y : S1x1536.Idx) :
    ∃ pc ∈ (kernelRun_A c i arg2 harg2 arg3 harg3 arg4 harg4 arg5 harg5 arg6 harg6 hc0 hc1 x0 x1).2.2.1, y ∈ pc.1.set :=
  View.cover_of_tiledL (kernelRun_A c i arg2 harg2 arg3 harg3 arg4 harg4 arg5 harg5 arg6 harg6 hc0 hc1 x0 x1).2.2.1 S1x1536.size (by sl_kernel_rfl) y

def sout_A_1 : Vec F S1x1536 .f32 :=
  VS_1.read (Elt F) (VS_1.writes (Elt F) VS_1.junk (kernelRun_A c i arg2 harg2 arg3 harg3 arg4 harg4 arg5 harg5 arg6 harg6 hc0 hc1 x0 x1).2.2.1)

end

section
variable (hc0 : ¬cond_0 i) (hc1 : ¬cond_1 i) (x0 : Vec F S1024x1536 .bf16) (x1 : Vec F S12288x256 .bf16) (xs0 : Vec F S256x1536 .f32) (xs1 : Vec F S1x1536 .f32)

set_option maxHeartbeats 1000000 in
noncomputable def kernelRun_B :
    Σ' (L2 : List (View.Piece (Elt F) S256x1536 .bf16)) (LS0 : List (View.Piece (Elt F) S256x1536 .f32)), { LS1 : List (View.Piece (Elt F) S1x1536 .f32) //
      ∀ (xi2 : Vec F S256x1536 .bf16) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc2__kernel_c_body i arg2 harg2 arg3 harg3 arg4 harg4 arg5 harg5 arg6 harg6) K } := by
  refine ⟨[], ?_, ?_, fun xi2 E K => ?run⟩
  case run =>
    simp only [cc2__kernel_c_body_eq_skeleton]; unfold cc2__kernel_c_body_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    iexists _; iexact HS1

def out_B_2 : Vec F S256x1536 .bf16 :=
  VO_2.read (Elt F) (VO_2.writes (Elt F) VO_2.junk (kernelRun_B c i arg2 harg2 arg3 harg3 arg4 harg4 arg5 harg5 arg6 harg6 hc0 hc1 x0 x1 xs0 xs1).1)

theorem scover_B_0 (y : S256x1536.Idx) :
    ∃ pc ∈ (kernelRun_B c i arg2 harg2 arg3 harg3 arg4 harg4 arg5 harg5 arg6 harg6 hc0 hc1 x0 x1 xs0 xs1).2.1, y ∈ pc.1.set :=
  View.cover_of_tiledL (kernelRun_B c i arg2 harg2 arg3 harg3 arg4 harg4 arg5 harg5 arg6 harg6 hc0 hc1 x0 x1 xs0 xs1).2.1 S256x1536.size (by sl_kernel_rfl) y

def sout_B_0 : Vec F S256x1536 .f32 :=
  VS_0.read (Elt F) (VS_0.writes (Elt F) VS_0.junk (kernelRun_B c i arg2 harg2 arg3 harg3 arg4 harg4 arg5 harg5 arg6 harg6 hc0 hc1 x0 x1 xs0 xs1).2.1)

theorem scover_B_1 (y : S1x1536.Idx) :
    ∃ pc ∈ (kernelRun_B c i arg2 harg2 arg3 harg3 arg4 harg4 arg5 harg5 arg6 harg6 hc0 hc1 x0 x1 xs0 xs1).2.2.1, y ∈ pc.1.set :=
  View.cover_of_tiledL (kernelRun_B c i arg2 harg2 arg3 harg3 arg4 harg4 arg5 harg5 arg6 harg6 hc0 hc1 x0 x1 xs0 xs1).2.2.1 S1x1536.size (by sl_kernel_rfl) y

def sout_B_1 : Vec F S1x1536 .f32 :=
  VS_1.read (Elt F) (VS_1.writes (Elt F) VS_1.junk (kernelRun_B c i arg2 harg2 arg3 harg3 arg4 harg4 arg5 harg5 arg6 harg6 hc0 hc1 x0 x1 xs0 xs1).2.2.1)

end

section
variable (hc0 : ¬cond_0 i) (hc1 : cond_1 i) (x0 : Vec F S1024x1536 .bf16) (x1 : Vec F S12288x256 .bf16) (xs0 : Vec F S256x1536 .f32) (xs1 : Vec F S1x1536 .f32)

set_option maxHeartbeats 1000000 in
noncomputable def kernelRun_C :
    Σ' (L2 : List (View.Piece (Elt F) S256x1536 .bf16)) (LS0 : List (View.Piece (Elt F) S256x1536 .f32)), { LS1 : List (View.Piece (Elt F) S1x1536 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc2__kernel_c_body i arg2 harg2 arg3 harg3 arg4 harg4 arg5 harg5 arg6 harg6) K } := by
  refine ⟨?_, ?_, ?_, fun E K => ?run⟩
  case run =>
    simp only [cc2__kernel_c_body_eq_skeleton]; unfold cc2__kernel_c_body_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]
    · iexists _; iexact HS0
    iexists _; iexact HS1

theorem cover_C_2 (y : S256x1536.Idx) :
    ∃ pc ∈ (kernelRun_C c i arg2 harg2 arg3 harg3 arg4 harg4 arg5 harg5 arg6 harg6 hc0 hc1 x0 x1 xs0 xs1).1, y ∈ pc.1.set :=
  View.cover_of_tiledL (kernelRun_C c i arg2 harg2 arg3 harg3 arg4 harg4 arg5 harg5 arg6 harg6 hc0 hc1 x0 x1 xs0 xs1).1 S256x1536.size (by sl_kernel_rfl) y

def out_C_2 : Vec F S256x1536 .bf16 :=
  VO_2.read (Elt F) (VO_2.writes (Elt F) VO_2.junk (kernelRun_C c i arg2 harg2 arg3 harg3 arg4 harg4 arg5 harg5 arg6 harg6 hc0 hc1 x0 x1 xs0 xs1).1)

theorem scover_C_0 (y : S256x1536.Idx) :
    ∃ pc ∈ (kernelRun_C c i arg2 harg2 arg3 harg3 arg4 harg4 arg5 harg5 arg6 harg6 hc0 hc1 x0 x1 xs0 xs1).2.1, y ∈ pc.1.set :=
  View.cover_of_tiledL (kernelRun_C c i arg2 harg2 arg3 harg3 arg4 harg4 arg5 harg5 arg6 harg6 hc0 hc1 x0 x1 xs0 xs1).2.1 S256x1536.size (by sl_kernel_rfl) y

def sout_C_0 : Vec F S256x1536 .f32 :=
  VS_0.read (Elt F) (VS_0.writes (Elt F) VS_0.junk (kernelRun_C c i arg2 harg2 arg3 harg3 arg4 harg4 arg5 harg5 arg6 harg6 hc0 hc1 x0 x1 xs0 xs1).2.1)

theorem scover_C_1 (y : S1x1536.Idx) :
    ∃ pc ∈ (kernelRun_C c i arg2 harg2 arg3 harg3 arg4 harg4 arg5 harg5 arg6 harg6 hc0 hc1 x0 x1 xs0 xs1).2.2.1, y ∈ pc.1.set :=
  View.cover_of_tiledL (kernelRun_C c i arg2 harg2 arg3 harg3 arg4 harg4 arg5 harg5 arg6 harg6 hc0 hc1 x0 x1 xs0 xs1).2.2.1 S1x1536.size (by sl_kernel_rfl) y

def sout_C_1 : Vec F S1x1536 .f32 :=
  VS_1.read (Elt F) (VS_1.writes (Elt F) VS_1.junk (kernelRun_C c i arg2 harg2 arg3 harg3 arg4 harg4 arg5 harg5 arg6 harg6 hc0 hc1 x0 x1 xs0 xs1).2.2.1)

end

end

def outsAt (c : Dev nD) : (n : ℕ) → n < cfg2.N → Vec F S256x1536 .bf16 × Vec F S256x1536 .f32 × Vec F S1x1536 .f32
  | 0, hn => (out_A_2 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩), sout_A_0 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩), sout_A_1 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩))
  | n + 1, hn =>
    if h0 : (n + 1) % 12 = 0 then
      if h1 : (n + 1) % 12 = 11 then
        False.elim (by omega)
      else
        (out_A_2 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) scM_1 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩), sout_A_0 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) scM_1 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩), sout_A_1 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) scM_1 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩))
    else
      if h1 : (n + 1) % 12 = 11 then
        (out_C_2 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) scM_1 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (outsAt c n (Nat.lt_of_succ_lt hn)).2.1 (outsAt c n (Nat.lt_of_succ_lt hn)).2.2, sout_C_0 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) scM_1 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (outsAt c n (Nat.lt_of_succ_lt hn)).2.1 (outsAt c n (Nat.lt_of_succ_lt hn)).2.2, sout_C_1 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) scM_1 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (outsAt c n (Nat.lt_of_succ_lt hn)).2.1 (outsAt c n (Nat.lt_of_succ_lt hn)).2.2)
      else
        (out_B_2 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) scM_1 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (outsAt c n (Nat.lt_of_succ_lt hn)).2.1 (outsAt c n (Nat.lt_of_succ_lt hn)).2.2, sout_B_0 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) scM_1 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (outsAt c n (Nat.lt_of_succ_lt hn)).2.1 (outsAt c n (Nat.lt_of_succ_lt hn)).2.2, sout_B_1 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) scM_1 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (outsAt c n (Nat.lt_of_succ_lt hn)).2.1 (outsAt c n (Nat.lt_of_succ_lt hn)).2.2)

theorem outsAt_A (c : Dev nD) (t : Fin cfg2.N) (h0 : t.val % 12 = 0) (h1 : ¬t.val % 12 = 11) :
    outsAt V c t.val t.isLt = (out_A_2 c (grid2.coords t) (ms_0 t) (hs_0 t) (ms_1 t) (hs_1 t) (ms_2 t) (hs_2 t) scM_0 (Memref.isWhole_whole _) scM_1 (Memref.isWhole_whole _) ((hcond_0 t).mpr h0) (fun h => h1 ((hcond_1 t).mp h)) (iblk V c 0 t) (iblk V c 1 t), sout_A_0 c (grid2.coords t) (ms_0 t) (hs_0 t) (ms_1 t) (hs_1 t) (ms_2 t) (hs_2 t) scM_0 (Memref.isWhole_whole _) scM_1 (Memref.isWhole_whole _) ((hcond_0 t).mpr h0) (fun h => h1 ((hcond_1 t).mp h)) (iblk V c 0 t) (iblk V c 1 t), sout_A_1 c (grid2.coords t) (ms_0 t) (hs_0 t) (ms_1 t) (hs_1 t) (ms_2 t) (hs_2 t) scM_0 (Memref.isWhole_whole _) scM_1 (Memref.isWhole_whole _) ((hcond_0 t).mpr h0) (fun h => h1 ((hcond_1 t).mp h)) (iblk V c 0 t) (iblk V c 1 t)) := by
  obtain ⟨n, hn⟩ := t
  cases n with
  | zero => exact rfl
  | succ n => exact (dif_pos h0).trans ((dif_neg h1).trans rfl)

theorem outsAt_B (c : Dev nD) (t : Fin cfg2.N) (h0 : ¬t.val % 12 = 0) (h1 : ¬t.val % 12 = 11) :
    outsAt V c t.val t.isLt = (out_B_2 c (grid2.coords t) (ms_0 t) (hs_0 t) (ms_1 t) (hs_1 t) (ms_2 t) (hs_2 t) scM_0 (Memref.isWhole_whole _) scM_1 (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2.1 (outsAt V c (t.val - 1) (Nat.lt_of_le_of_lt (Nat.sub_le _ _) t.isLt)).2.2, sout_B_0 c (grid2.coords t) (ms_0 t) (hs_0 t) (ms_1 t) (hs_1 t) (ms_2 t) (hs_2 t) scM_0 (Memref.isWhole_whole _) scM_1 (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2.1 (outsAt V c (t.val - 1) (Nat.lt_of_le_of_lt (Nat.sub_le _ _) t.isLt)).2.2, sout_B_1 c (grid2.coords t) (ms_0 t) (hs_0 t) (ms_1 t) (hs_1 t) (ms_2 t) (hs_2 t) scM_0 (Memref.isWhole_whole _) scM_1 (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg2.N) (h0 : ¬t.val % 12 = 0) (h1 : t.val % 12 = 11) :
    outsAt V c t.val t.isLt = (out_C_2 c (grid2.coords t) (ms_0 t) (hs_0 t) (ms_1 t) (hs_1 t) (ms_2 t) (hs_2 t) scM_0 (Memref.isWhole_whole _) scM_1 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2.1 (outsAt V c (t.val - 1) (Nat.lt_of_le_of_lt (Nat.sub_le _ _) t.isLt)).2.2, sout_C_0 c (grid2.coords t) (ms_0 t) (hs_0 t) (ms_1 t) (hs_1 t) (ms_2 t) (hs_2 t) scM_0 (Memref.isWhole_whole _) scM_1 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2.1 (outsAt V c (t.val - 1) (Nat.lt_of_le_of_lt (Nat.sub_le _ _) t.isLt)).2.2, sout_C_1 c (grid2.coords t) (ms_0 t) (hs_0 t) (ms_1 t) (hs_1 t) (ms_2 t) (hs_2 t) scM_0 (Memref.isWhole_whole _) scM_1 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg2.N → sProp 𝕄
  | 0, _ => Pipeline.ΦA spec2 c
  | n + 1, hn => iprop(iprop(iprop(owns (c : Thread nD τ) scM_0 fullShare ((outsAt V c n hn).2.1) ∗ owns (c : Thread nD τ) scM_1 fullShare ((outsAt V c n hn).2.2)) ∗ Rest (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(iprop(owns (c : Thread nD τ) scM_0 fullShare ((outsAt V c n hn).2.1) ∗ owns (c : Thread nD τ) scM_1 fullShare ((outsAt V c n hn).2.2)) ∗ Rest (F := F) c) ∗ (∃ r, prngReg c r)) := rfl

theorem PhiS_pos (c : Dev nD) (n : ℕ) (h : n ≤ cfg2.N) (hz : n ≠ 0) :
    PhiS V c n h = iprop(iprop(iprop(owns (c : Thread nD τ) scM_0 fullShare ((outsAt V c (n - 1) (by omega)).2.1) ∗ owns (c : Thread nD τ) scM_1 fullShare ((outsAt V c (n - 1) (by omega)).2.2)) ∗ Rest (F := F) c) ∗ (∃ r, prngReg c r)) := by
  cases n with
  | zero => exact absurd rfl hz
  | succ n => rfl

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = (outsAt V c t.val t.isLt).1 := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d

def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

/-- Before any point the invariant gives each scratch at some contents. -/
theorem PhiS_weak (c : Dev nD) (n : ℕ) (h : n ≤ cfg2.N) : PhiS V c n h ⊢ (Pipeline.ΦA spec2 c : sProp 𝕄) := by
  cases n with
  | zero => exact .rfl
  | succ n =>
    rw [PhiA_eq]; show iprop(iprop(iprop(owns (c : Thread nD τ) scM_0 fullShare _ ∗ owns (c : Thread nD τ) scM_1 fullShare _) ∗ Rest (F := F) c) ∗ (∃ r, prngReg c r)) ⊢ _
    iintro ⟨⟨⟨HS0, HS1⟩, HR⟩, Hg⟩
    iframe HR Hg
    isplitl [HS0]; · iexists _; iexact HS0
    iexists _; iexact HS1

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).owesAt () t.succ = (dat V c).owesAt () t.castSucc from rfl,
    show (dat V c).Φ t.succ = PhiS V c (t.val + 1) t.isLt from rfl, PhiS_succ, PhiS_castSucc V c t,
    show (dat V c).leavesExact 0 t = owns (c : Thread nD τ) (ms_0 t) fullShare ((dat V c).after 0 t) from by unfold Dat.leavesExact; rw [liveAt_0 t], after_0,
    show (dat V c).leavesExact 1 t = owns (c : Thread nD τ) (ms_1 t) fullShare ((dat V c).after 1 t) from by unfold Dat.leavesExact; rw [liveAt_1 t], after_1]
  have hN : t.val < 48 := lt_of_lt_of_eq t.isLt (show cfg2.N = 48 from N_2)
  by_cases h0 : t.val % 12 = 0
  · have h1 : ¬t.val % 12 = 11 := by omega
    have hc0 := (hcond_0 t).mpr h0
    have hc1 : ¬cond_1 (grid2.coords t) := fun h => h1 ((hcond_1 t).mp h)
    have hw := PhiS_weak V c t.val (Nat.le_of_lt t.isLt)
    rw [PhiA_eq] at hw
    rw [Dat.leavesExact_idle (dat V c) 2 t (idleAt_2_A t hc0 hc1) (noFlush_2_A t hc0 hc1), outsAt_A V c t h0 h1]
    unfold sout_A_0 sout_A_1; (try dsimp only)
    iintro ⟨HΦ, Ho, ⟨%d0, H0⟩, ⟨%d1, H1⟩, ⟨%d2, H2⟩⟩
    ihave HΦ' := hw $$ HΦ
    icases HΦ' with ⟨⟨⟨HS0, HS1⟩, HR⟩, Hg⟩
    iapply ((kernelRun_A c (grid2.coords t) _ _ _ _ _ _ _ _ _ _ hc0 hc1 (iblk V c 0 t) (iblk V c 1 t)).2.2.2 _ Set.univ _)
    iframe H0 H1 H2 HS0 HS1
    iintro ⟨H0, H1, H2, ⟨%es0, HS0⟩, ⟨%es1, HS1⟩⟩
    iframe Ho H0 H1 HR Hg
    isplitr [H2]; swap; · iexists _; iexact H2
    isplitl [HS0]
    · unfold owns; iexists _; iframe HS0; ipureintro; exact View.read_writes_of_cover _ _ _ _ _ (scover_A_0 c _ _ _ _ _ _ _ _ _ _ _ _ _ _ _)
    unfold owns; iexists _; iframe HS1; ipureintro; exact View.read_writes_of_cover _ _ _ _ _ (scover_A_1 c _ _ _ _ _ _ _ _ _ _ _ _ _ _ _)
  · have hz : t.val ≠ 0 := by omega
    have hc0 : ¬cond_0 (grid2.coords t) := fun h => h0 ((hcond_0 t).mp h)
    rw [PhiS_pos V c _ _ hz]
    by_cases h1 : t.val % 12 = 11
    · have hc1 := (hcond_1 t).mpr h1
      rw [show (dat V c).leavesExact 2 t = owns (c : Thread nD τ) (ms_2 t) fullShare ((dat V c).after 2 t) from by unfold Dat.leavesExact; rw [liveAt_2_C t hc0 hc1], after_2, outsAt_C V c t h0 h1]
      unfold out_C_2 sout_C_0 sout_C_1; (try dsimp only)
      iintro ⟨⟨⟨⟨HS0, HS1⟩, HR⟩, Hg⟩, Ho, ⟨%d0, H0⟩, ⟨%d1, H1⟩, ⟨%d2, H2⟩⟩
      iapply ((kernelRun_C c (grid2.coords t) _ _ _ _ _ _ _ _ _ _ hc0 hc1 (iblk V c 0 t) (iblk V c 1 t) _ _).2.2.2 Set.univ _)
      iframe H0 H1 HS0 HS1
      isplitl [H2]; · iexists _; iexact H2
      iintro ⟨H0, H1, ⟨%e2, H2⟩, ⟨%es0, HS0⟩, ⟨%es1, HS1⟩⟩
      iframe Ho H0 H1 HR Hg
      isplitr [H2]
      swap; · unfold owns; iexists _; iframe H2; ipureintro; exact View.read_writes_of_cover _ _ _ _ _ (cover_C_2 c _ _ _ _ _ _ _ _ _ _ _ _ _ _ _ _ _)
      isplitl [HS0]
      · unfold owns; iexists _; iframe HS0; ipureintro; exact View.read_writes_of_cover _ _ _ _ _ (scover_C_0 c _ _ _ _ _ _ _ _ _ _ _ _ _ _ _ _ _)
      unfold owns; iexists _; iframe HS1; ipureintro; exact View.read_writes_of_cover _ _ _ _ _ (scover_C_1 c _ _ _ _ _ _ _ _ _ _ _ _ _ _ _ _ _)
    · have hc1 : ¬cond_1 (grid2.coords t) := fun h => h1 ((hcond_1 t).mp h)
      rw [Dat.leavesExact_idle (dat V c) 2 t (idleAt_2_B t hc0 hc1) (noFlush_2_B t hc0 hc1), outsAt_B V c t h0 h1]
      unfold sout_B_0 sout_B_1; (try dsimp only)
      iintro ⟨⟨⟨⟨HS0, HS1⟩, HR⟩, Hg⟩, Ho, ⟨%d0, H0⟩, ⟨%d1, H1⟩, ⟨%d2, H2⟩⟩
      iapply ((kernelRun_B c (grid2.coords t) _ _ _ _ _ _ _ _ _ _ hc0 hc1 (iblk V c 0 t) (iblk V c 1 t) _ _).2.2.2 _ Set.univ _)
      iframe H0 H1 H2 HS0 HS1
      iintro ⟨H0, H1, H2, ⟨%es0, HS0⟩, ⟨%es1, HS1⟩⟩
      iframe Ho H0 H1 HR Hg
      isplitr [H2]; swap; · iexists _; iexact H2
      isplitl [HS0]
      · unfold owns; iexists _; iframe HS0; ipureintro; exact View.read_writes_of_cover _ _ _ _ _ (scover_B_0 c _ _ _ _ _ _ _ _ _ _ _ _ _ _ _ _ _)
      unfold owns; iexists _; iframe HS1; ipureintro; exact View.read_writes_of_cover _ _ _ _ _ (scover_B_1 c _ _ _ _ _ _ _ _ _ _ _ _ _ _ _ _ _)

theorem body_obligation (c : Dev nD) : BodyObligation (dat (F := F) V c) (defs₀ (F := F)) Variants.none () Set.univ := fun t => by
  rw [bigSep_W2, bigSep_W2]
  exact sound_body V c t

theorem Phi_first (c : Dev nD) : (dat V c).Φ 0 = Pipeline.ΦA spec2 c := rfl

theorem Phi_last (c : Dev nD) : (dat V c).Φ (Fin.last cfg2.N) ⊢ (Pipeline.ΦA spec2 c : sProp 𝕄) :=
  PhiS_weak V c (Fin.last cfg2.N).val (Nat.le_of_lt_succ (Fin.last cfg2.N).isLt)

end Cert.KernelIdeal.R2

end
-- ==== Proof.R3Frame.lean ====
import proofs.«406483_j14499809591686_3_alg».proof.Proof.Gen.KernelIdeal.Launch
import proofs.«406483_j14499809591686_3_alg».proof.Proof.Gen.KernelIdeal.Skeleton
import proofs.«406483_j14499809591686_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev cond_0 (i : grid3.Coords) : Prop := (Scalar.cmpi .ne (Scalar.extui (Scalar.cmpi .eq (BitVec.ofNat 32 (i 1).val) 0#32)) 0#32) = 1#1
theorem hcond_0 : ∀ t : Fin cfg3.N, cond_0 (grid3.coords t) ↔ t.val % 4 = 0 :=
  (by decide +kernel : ∀ t : Fin grid3.N, cond_0 (grid3.coords t) ↔ t.val % 4 = 0)

abbrev cond_1 (i : grid3.Coords) : Prop := k3_cond2 i = 1#1
theorem hcond_1 : ∀ t : Fin cfg3.N, cond_1 (grid3.coords t) ↔ t.val % 4 = 3 :=
  (by decide +kernel : ∀ t : Fin grid3.N, cond_1 (grid3.coords t) ↔ t.val % 4 = 3)

theorem liveAt_0 : ∀ t : Fin cfg3.N, cfg3.idle 0 (grid3.coords t) = false := by decide +kernel
theorem liveAt_1 : ∀ t : Fin cfg3.N, cfg3.idle 1 (grid3.coords t) = false := by decide +kernel
theorem idleAt_2_A : ∀ t : Fin cfg3.N, cond_0 (grid3.coords t) → ¬cond_1 (grid3.coords t) → cfg3.idle 2 (grid3.coords t) = true := by decide +kernel
theorem noFlush_2_A : ∀ t : Fin cfg3.N, cond_0 (grid3.coords t) → ¬cond_1 (grid3.coords t) → (cfg3.win 2).flush t = false := by decide +kernel
theorem idleAt_2_B : ∀ t : Fin cfg3.N, ¬cond_0 (grid3.coords t) → ¬cond_1 (grid3.coords t) → cfg3.idle 2 (grid3.coords t) = true := by decide +kernel
theorem noFlush_2_B : ∀ t : Fin cfg3.N, ¬cond_0 (grid3.coords t) → ¬cond_1 (grid3.coords t) → (cfg3.win 2).flush t = false := by decide +kernel
theorem liveAt_2_C : ∀ t : Fin cfg3.N, ¬cond_0 (grid3.coords t) → cond_1 (grid3.coords t) → cfg3.idle 2 (grid3.coords t) = false := by decide +kernel

abbrev VO_2 : View sig .tc .vmem S1024x256 .f32 := (Memref.whole cc3_stg2_0 : Memref sig .tc .vmem S1024x256 .f32).view
abbrev ms_0 (t : Fin cfg3.N) : Memref sig .tc .vmem S1024x1536 .bf16 := win3_0.stage (cfg3.slots t 0)
abbrev hs_0 (t : Fin cfg3.N) : (ms_0 t).IsWhole := hstage3_0 ((cfg3.slots t 0).cast nbuf3_0)
abbrev ms_1 (t : Fin cfg3.N) : Memref sig .tc .vmem S256x6144 .bf16 := win3_1.stage (cfg3.slots t 1)
abbrev hs_1 (t : Fin cfg3.N) : (ms_1 t).IsWhole := hstage3_1 ((cfg3.slots t 1).cast nbuf3_1)
abbrev ms_2 (t : Fin cfg3.N) : Memref sig .tc .vmem S1024x256 .f32 := win3_2.stage (cfg3.slots t 2)
abbrev hs_2 (t : Fin cfg3.N) : (ms_2 t).IsWhole := hstage3_2 ((cfg3.slots t 2).cast nbuf3_2)
abbrev scM_0 : Memref sig .tc .vmem S1024x256 .f32 := Memref.whole cc3_scratch0
abbrev VS_0 : View sig .tc .vmem S1024x256 .f32 := scM_0.view

section
variable (c : Dev nD) (i : grid3.Coords) (arg2 : Memref sig .tc .vmem S1024x1536 .bf16) (harg2 : arg2.IsWhole) (arg3 : Memref sig .tc .vmem S256x6144 .bf16) (harg3 : arg3.IsWhole) (arg4 : Memref sig .tc .vmem S1024x256 .f32) (harg4 : arg4.IsWhole) (arg5 : Memref sig .tc .vmem S1024x256 .f32) (harg5 : arg5.IsWhole)

section
variable (hc0 : cond_0 i) (hc1 : ¬cond_1 i) (x0 : Vec F S1024x1536 .bf16) (x1 : Vec F S256x6144 .bf16)

set_option maxHeartbeats 1000000 in
noncomputable def kernelRun_A :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__kernel_d_body i arg2 harg2 arg3 harg3 arg4 harg4 arg5 harg5) K } := by
  refine ⟨[], ?_, fun xi2 E K => ?run⟩
  case run =>
    simp only [cc3__kernel_d_body_eq_skeleton]; unfold cc3__kernel_d_body_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

def out_A_2 : Vec F S1024x256 .f32 :=
  VO_2.read (Elt F) (VO_2.writes (Elt F) VO_2.junk (kernelRun_A c i arg2 harg2 arg3 harg3 arg4 harg4 arg5 harg5 hc0 hc1 x0 x1).1)

theorem scover_A_0 (y : S1024x256.Idx) :
    ∃ pc ∈ (kernelRun_A c i arg2 harg2 arg3 harg3 arg4 harg4 arg5 harg5 hc0 hc1 x0 x1).2.1, y ∈ pc.1.set :=
  View.cover_of_tiledL (kernelRun_A c i arg2 harg2 arg3 harg3 arg4 harg4 arg5 harg5 hc0 hc1 x0 x1).2.1 S1024x256.size (by sl_kernel_rfl) y

def sout_A_0 : Vec F S1024x256 .f32 :=
  VS_0.read (Elt F) (VS_0.writes (Elt F) VS_0.junk (kernelRun_A c i arg2 harg2 arg3 harg3 arg4 harg4 arg5 harg5 hc0 hc1 x0 x1).2.1)

end

section
variable (hc0 : ¬cond_0 i) (hc1 : ¬cond_1 i) (x0 : Vec F S1024x1536 .bf16) (x1 : Vec F S256x6144 .bf16) (xs0 : Vec F S1024x256 .f32)

set_option maxHeartbeats 1000000 in
noncomputable def kernelRun_B :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__kernel_d_body i arg2 harg2 arg3 harg3 arg4 harg4 arg5 harg5) K } := by
  refine ⟨[], ?_, fun xi2 E K => ?run⟩
  case run =>
    simp only [cc3__kernel_d_body_eq_skeleton]; unfold cc3__kernel_d_body_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

def out_B_2 : Vec F S1024x256 .f32 :=
  VO_2.read (Elt F) (VO_2.writes (Elt F) VO_2.junk (kernelRun_B c i arg2 harg2 arg3 harg3 arg4 harg4 arg5 harg5 hc0 hc1 x0 x1 xs0).1)

theorem scover_B_0 (y : S1024x256.Idx) :
    ∃ pc ∈ (kernelRun_B c i arg2 harg2 arg3 harg3 arg4 harg4 arg5 harg5 hc0 hc1 x0 x1 xs0).2.1, y ∈ pc.1.set :=
  View.cover_of_tiledL (kernelRun_B c i arg2 harg2 arg3 harg3 arg4 harg4 arg5 harg5 hc0 hc1 x0 x1 xs0).2.1 S1024x256.size (by sl_kernel_rfl) y

def sout_B_0 : Vec F S1024x256 .f32 :=
  VS_0.read (Elt F) (VS_0.writes (Elt F) VS_0.junk (kernelRun_B c i arg2 harg2 arg3 harg3 arg4 harg4 arg5 harg5 hc0 hc1 x0 x1 xs0).2.1)

end

section
variable (hc0 : ¬cond_0 i) (hc1 : cond_1 i) (x0 : Vec F S1024x1536 .bf16) (x1 : Vec F S256x6144 .bf16) (xs0 : Vec F S1024x256 .f32)

set_option maxHeartbeats 1000000 in
noncomputable def kernelRun_C :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc3__kernel_d_body i arg2 harg2 arg3 harg3 arg4 harg4 arg5 harg5) K } := by
  refine ⟨?_, ?_, fun E K => ?run⟩
  case run =>
    simp only [cc3__kernel_d_body_eq_skeleton]; unfold cc3__kernel_d_body_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

theorem cover_C_2 (y : S1024x256.Idx) :
    ∃ pc ∈ (kernelRun_C c i arg2 harg2 arg3 harg3 arg4 harg4 arg5 harg5 hc0 hc1 x0 x1 xs0).1, y ∈ pc.1.set :=
  View.cover_of_tiledL (kernelRun_C c i arg2 harg2 arg3 harg3 arg4 harg4 arg5 harg5 hc0 hc1 x0 x1 xs0).1 S1024x256.size (by sl_kernel_rfl) y

def out_C_2 : Vec F S1024x256 .f32 :=
  VO_2.read (Elt F) (VO_2.writes (Elt F) VO_2.junk (kernelRun_C c i arg2 harg2 arg3 harg3 arg4 harg4 arg5 harg5 hc0 hc1 x0 x1 xs0).1)

theorem scover_C_0 (y : S1024x256.Idx) :
    ∃ pc ∈ (kernelRun_C c i arg2 harg2 arg3 harg3 arg4 harg4 arg5 harg5 hc0 hc1 x0 x1 xs0).2.1, y ∈ pc.1.set :=
  View.cover_of_tiledL (kernelRun_C c i arg2 harg2 arg3 harg3 arg4 harg4 arg5 harg5 hc0 hc1 x0 x1 xs0).2.1 S1024x256.size (by sl_kernel_rfl) y

def sout_C_0 : Vec F S1024x256 .f32 :=
  VS_0.read (Elt F) (VS_0.writes (Elt F) VS_0.junk (kernelRun_C c i arg2 harg2 arg3 harg3 arg4 harg4 arg5 harg5 hc0 hc1 x0 x1 xs0).2.1)

end

end

def outsAt (c : Dev nD) : (n : ℕ) → n < cfg3.N → Vec F S1024x256 .f32 × Vec F S1024x256 .f32
  | 0, hn => (out_A_2 c (grid3.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM_0 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩), sout_A_0 c (grid3.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM_0 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩))
  | n + 1, hn =>
    if h0 : (n + 1) % 4 = 0 then
      if h1 : (n + 1) % 4 = 3 then
        False.elim (by omega)
      else
        (out_A_2 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩), sout_A_0 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩))
    else
      if h1 : (n + 1) % 4 = 3 then
        (out_C_2 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (outsAt c n (Nat.lt_of_succ_lt hn)).2, sout_C_0 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (outsAt c n (Nat.lt_of_succ_lt hn)).2)
      else
        (out_B_2 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (outsAt c n (Nat.lt_of_succ_lt hn)).2, sout_B_0 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (outsAt c n (Nat.lt_of_succ_lt hn)).2)

theorem outsAt_A (c : Dev nD) (t : Fin cfg3.N) (h0 : t.val % 4 = 0) (h1 : ¬t.val % 4 = 3) :
    outsAt V c t.val t.isLt = (out_A_2 c (grid3.coords t) (ms_0 t) (hs_0 t) (ms_1 t) (hs_1 t) (ms_2 t) (hs_2 t) scM_0 (Memref.isWhole_whole _) ((hcond_0 t).mpr h0) (fun h => h1 ((hcond_1 t).mp h)) (iblk V c 0 t) (iblk V c 1 t), sout_A_0 c (grid3.coords t) (ms_0 t) (hs_0 t) (ms_1 t) (hs_1 t) (ms_2 t) (hs_2 t) scM_0 (Memref.isWhole_whole _) ((hcond_0 t).mpr h0) (fun h => h1 ((hcond_1 t).mp h)) (iblk V c 0 t) (iblk V c 1 t)) := by
  obtain ⟨n, hn⟩ := t
  cases n with
  | zero => exact rfl
  | succ n => exact (dif_pos h0).trans ((dif_neg h1).trans rfl)

theorem outsAt_B (c : Dev nD) (t : Fin cfg3.N) (h0 : ¬t.val % 4 = 0) (h1 : ¬t.val % 4 = 3) :
    outsAt V c t.val t.isLt = (out_B_2 c (grid3.coords t) (ms_0 t) (hs_0 t) (ms_1 t) (hs_1 t) (ms_2 t) (hs_2 t) scM_0 (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2, sout_B_0 c (grid3.coords t) (ms_0 t) (hs_0 t) (ms_1 t) (hs_1 t) (ms_2 t) (hs_2 t) scM_0 (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg3.N) (h0 : ¬t.val % 4 = 0) (h1 : t.val % 4 = 3) :
    outsAt V c t.val t.isLt = (out_C_2 c (grid3.coords t) (ms_0 t) (hs_0 t) (ms_1 t) (hs_1 t) (ms_2 t) (hs_2 t) scM_0 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2, sout_C_0 c (grid3.coords t) (ms_0 t) (hs_0 t) (ms_1 t) (hs_1 t) (ms_2 t) (hs_2 t) scM_0 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

theorem scopedRest_split (c : Dev nD) :
    (Pipeline.scopedRest (Ix := Unit) (Name := ℕ) (U := UR sig nD τ) (Lvl := ℕ) (Val := Elt F) spec3 c : sProp 𝕄)
      = iprop((∃ f : Buf (Elt F) ((c : Thread nD τ).loc cc3_scratch0), ((c : Thread nD τ).loc cc3_scratch0) ↦{fullShare} f)
          ∗ Pipeline.scopedRestBut (Ix := Unit) (Name := ℕ) (U := UR sig nD τ) (Lvl := ℕ) (Val := Elt F) spec3 c [cc3_scratch0]) :=
  Pipeline.scopedRest_split_of_list spec3 c [cc3_scratch0] (by decide) (by decide)

abbrev Rest (c : Dev nD) : sProp 𝕄 :=
  Pipeline.scopedRestBut (Ix := Unit) (Name := ℕ) (U := UR sig nD τ) (Lvl := ℕ) (Val := Elt F) spec3 c [cc3_scratch0]

theorem PhiA_eq (c : Dev nD) :
    (Pipeline.ΦA spec3 c : sProp 𝕄) = iprop(iprop((∃ d, owns (c : Thread nD τ) scM_0 fullShare d) ∗ Rest (F := F) c) ∗ (∃ r, prngReg c r)) := by
  unfold Pipeline.ΦA; rw [scopedRest_split]; simp only [scM_0, owns_whole]; try rfl

def PhiS (c : Dev nD) : (n : ℕ) → n ≤ cfg3.N → sProp 𝕄
  | 0, _ => Pipeline.ΦA spec3 c
  | n + 1, hn => iprop(iprop(owns (c : Thread nD τ) scM_0 fullShare ((outsAt V c n hn).2) ∗ Rest (F := F) c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scM_0 fullShare ((outsAt V c n hn).2) ∗ Rest (F := F) c) ∗ (∃ r, prngReg c r)) := rfl

theorem PhiS_pos (c : Dev nD) (n : ℕ) (h : n ≤ cfg3.N) (hz : n ≠ 0) :
    PhiS V c n h = iprop(iprop(owns (c : Thread nD τ) scM_0 fullShare ((outsAt V c (n - 1) (by omega)).2) ∗ Rest (F := F) c) ∗ (∃ r, prngReg c r)) := by
  cases n with
  | zero => exact absurd rfl hz
  | succ n => rfl

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = (outsAt V c t.val t.isLt).1 := by dsimp only [dat]

theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d

def bodyPre (c : Dev nD) (t : Fin cfg3.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t)

/-- Before any point the invariant gives each scratch at some contents. -/
theorem PhiS_weak (c : Dev nD) (n : ℕ) (h : n ≤ cfg3.N) : PhiS V c n h ⊢ (Pipeline.ΦA spec3 c : sProp 𝕄) := by
  cases n with
  | zero => exact .rfl
  | succ n =>
    rw [PhiA_eq]; show iprop(iprop(owns (c : Thread nD τ) scM_0 fullShare _ ∗ Rest (F := F) c) ∗ (∃ r, prngReg c r)) ⊢ _
    iintro ⟨⟨HS0, HR⟩, Hg⟩
    iframe HR Hg
    iexists _; iexact HS0

set_option maxHeartbeats 4800000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1]
  rw [show (dat V c).owesAt () t.succ = (dat V c).owesAt () t.castSucc from rfl,
    show (dat V c).Φ t.succ = PhiS V c (t.val + 1) t.isLt from rfl, PhiS_succ, PhiS_castSucc V c t,
    show (dat V c).leavesExact 0 t = owns (c : Thread nD τ) (ms_0 t) fullShare ((dat V c).after 0 t) from by unfold Dat.leavesExact; rw [liveAt_0 t], after_0,
    show (dat V c).leavesExact 1 t = owns (c : Thread nD τ) (ms_1 t) fullShare ((dat V c).after 1 t) from by unfold Dat.leavesExact; rw [liveAt_1 t], after_1]
  have hN : t.val < 48 := lt_of_lt_of_eq t.isLt (show cfg3.N = 48 from N_3)
  by_cases h0 : t.val % 4 = 0
  · have h1 : ¬t.val % 4 = 3 := by omega
    have hc0 := (hcond_0 t).mpr h0
    have hc1 : ¬cond_1 (grid3.coords t) := fun h => h1 ((hcond_1 t).mp h)
    have hw := PhiS_weak V c t.val (Nat.le_of_lt t.isLt)
    rw [PhiA_eq] at hw
    rw [Dat.leavesExact_idle (dat V c) 2 t (idleAt_2_A t hc0 hc1) (noFlush_2_A t hc0 hc1), outsAt_A V c t h0 h1]
    unfold sout_A_0; (try dsimp only)
    iintro ⟨HΦ, Ho, ⟨%d0, H0⟩, ⟨%d1, H1⟩, ⟨%d2, H2⟩⟩
    ihave HΦ' := hw $$ HΦ
    icases HΦ' with ⟨⟨HS0, HR⟩, Hg⟩
    iapply ((kernelRun_A c (grid3.coords t) _ _ _ _ _ _ _ _ hc0 hc1 (iblk V c 0 t) (iblk V c 1 t)).2.2 _ Set.univ _)
    iframe H0 H1 H2 HS0
    iintro ⟨H0, H1, H2, ⟨%es0, HS0⟩⟩
    iframe Ho H0 H1 HR Hg
    isplitr [H2]; swap; · iexists _; iexact H2
    unfold owns; iexists _; iframe HS0; ipureintro; exact View.read_writes_of_cover _ _ _ _ _ (scover_A_0 c _ _ _ _ _ _ _ _ _ _ _ _ _)
  · have hz : t.val ≠ 0 := by omega
    have hc0 : ¬cond_0 (grid3.coords t) := fun h => h0 ((hcond_0 t).mp h)
    rw [PhiS_pos V c _ _ hz]
    by_cases h1 : t.val % 4 = 3
    · have hc1 := (hcond_1 t).mpr h1
      rw [show (dat V c).leavesExact 2 t = owns (c : Thread nD τ) (ms_2 t) fullShare ((dat V c).after 2 t) from by unfold Dat.leavesExact; rw [liveAt_2_C t hc0 hc1], after_2, outsAt_C V c t h0 h1]
      unfold out_C_2 sout_C_0; (try dsimp only)
      iintro ⟨⟨⟨HS0, HR⟩, Hg⟩, Ho, ⟨%d0, H0⟩, ⟨%d1, H1⟩, ⟨%d2, H2⟩⟩
      iapply ((kernelRun_C c (grid3.coords t) _ _ _ _ _ _ _ _ hc0 hc1 (iblk V c 0 t) (iblk V c 1 t) _).2.2 Set.univ _)
      iframe H0 H1 HS0
      isplitl [H2]; · iexists _; iexact H2
      iintro ⟨H0, H1, ⟨%e2, H2⟩, ⟨%es0, HS0⟩⟩
      iframe Ho H0 H1 HR Hg
      isplitr [H2]
      swap; · unfold owns; iexists _; iframe H2; ipureintro; exact View.read_writes_of_cover _ _ _ _ _ (cover_C_2 c _ _ _ _ _ _ _ _ _ _ _ _ _ _)
      unfold owns; iexists _; iframe HS0; ipureintro; exact View.read_writes_of_cover _ _ _ _ _ (scover_C_0 c _ _ _ _ _ _ _ _ _ _ _ _ _ _)
    · have hc1 : ¬cond_1 (grid3.coords t) := fun h => h1 ((hcond_1 t).mp h)
      rw [Dat.leavesExact_idle (dat V c) 2 t (idleAt_2_B t hc0 hc1) (noFlush_2_B t hc0 hc1), outsAt_B V c t h0 h1]
      unfold sout_B_0; (try dsimp only)
      iintro ⟨⟨⟨HS0, HR⟩, Hg⟩, Ho, ⟨%d0, H0⟩, ⟨%d1, H1⟩, ⟨%d2, H2⟩⟩
      iapply ((kernelRun_B c (grid3.coords t) _ _ _ _ _ _ _ _ hc0 hc1 (iblk V c 0 t) (iblk V c 1 t) _).2.2 _ Set.univ _)
      iframe H0 H1 H2 HS0
      iintro ⟨H0, H1, H2, ⟨%es0, HS0⟩⟩
      iframe Ho H0 H1 HR Hg
      isplitr [H2]; swap; · iexists _; iexact H2
      unfold owns; iexists _; iframe HS0; ipureintro; exact View.read_writes_of_cover _ _ _ _ _ (scover_B_0 c _ _ _ _ _ _ _ _ _ _ _ _ _ _)

theorem body_obligation (c : Dev nD) : BodyObligation (dat (F := F) V c) (defs₀ (F := F)) Variants.none () Set.univ := fun t => by
  rw [bigSep_W3, bigSep_W3]
  exact sound_body V c t

theorem Phi_first (c : Dev nD) : (dat V c).Φ 0 = Pipeline.ΦA spec3 c := rfl

theorem Phi_last (c : Dev nD) : (dat V c).Φ (Fin.last cfg3.N) ⊢ (Pipeline.ΦA spec3 c : sProp 𝕄) :=
  PhiS_weak V c (Fin.last cfg3.N).val (Nat.le_of_lt_succ (Fin.last cfg3.N).isLt)

end Cert.KernelIdeal.R3

end
-- ==== Proof.Spec.lean ====
import Idealize.ShloMosaic.PureOps.Ideal
import Idealize.ShloMosaic.Lib.ValueIdx

noncomputable section

namespace Cert.HyperAttn

open Idealize.ShloMosaic Idealize.ShloMosaic.ValueIdx

abbrev SNK : Shape := ⟨2, ![12288, 256]⟩
abbrev SNE : Shape := ⟨2, ![12288, 6144]⟩
abbrev SKF : Shape := ⟨2, ![256, 256]⟩
abbrev SF1 : Shape := ⟨2, ![256, 1]⟩

def slope (v : EReal) : EReal :=
  Scalar.select (Ideal.cmp .oge v (Ideal.ofBits .f32 0x00000000#32)) v (Ideal.ofBits .f32 0x3DCCCCCD#32 * v)

def act (s : EReal) : EReal :=
  slope (Ideal.tanh (s * Ideal.ofBits .f32 0x3E000000#32) * Ideal.ofBits .f32 0x41000000#32)

variable (x : FVec Ideal SNK .f32) (H : FVec Ideal SNE .f32) (p : FVec Ideal SKF .f32) (a1 a2 : FVec Ideal SF1 .f32)

def he (e : Fin 6144) (k : Fin 256) : EReal :=
  Ideal.div (∑ n : Fin 12288, H (ix2 n e) * x (ix2 n k)) (∑ n : Fin 12288, H (ix2 n e))

def xp (n : Fin 12288) (f : Fin 256) : EReal := ∑ k : Fin 256, x (ix2 n k) * p (ix2 k f)

def hep (e : Fin 6144) (f : Fin 256) : EReal := ∑ k : Fin 256, he x H e k * p (ix2 k f)

def s1 (n : Fin 12288) : EReal := ∑ f : Fin 256, xp x p n f * a1 (ix2 f 0)
def s2 (e : Fin 6144) : EReal := ∑ f : Fin 256, hep x H p e f * a2 (ix2 f 0)

def wgt (n : Fin 12288) (e : Fin 6144) : EReal :=
  Ideal.exp (act (s1 x p a1 n + s2 x H p a2 e)) * H (ix2 n e)

def rowSum (n : Fin 12288) : EReal := ∑ e : Fin 6144, wgt x H p a1 a2 n e
def hm (n : Fin 12288) (e : Fin 6144) : EReal := Ideal.div (wgt x H p a1 a2 n e) (rowSum x H p a1 a2 n)
def colSum (e : Fin 6144) : EReal := ∑ n : Fin 12288, hm x H p a1 a2 n e

section Tail
variable (w : Fin 12288 → Fin 6144 → EReal) (y : Fin 12288 → Fin 256 → EReal)

def edgeMix (f : Fin 256) (e : Fin 6144) : EReal :=
  Ideal.div (∑ n : Fin 12288, y n f * w n e) (∑ n : Fin 12288, w n e)

def outK (n : Fin 12288) (f : Fin 256) : EReal := slope (∑ e : Fin 6144, w n e * edgeMix w y f e)

def outR (n : Fin 12288) (f : Fin 256) : EReal :=
  slope ((∑ e : Fin 6144, w n e) * ∑ e : Fin 6144, w n e *
    (Ideal.div (Ideal.ofBits .f32 0x3F800000#32) (∑ n' : Fin 12288, w n' e) * ∑ n' : Fin 12288, w n' e * ((∑ e' : Fin 6144, w n' e') * y n' f)))

end Tail

end Cert.HyperAttn

end
-- ==== Proof.HostStretch.lean ====
import proofs.«406483_j14499809591686_3_alg».proof.Proof.Gen.KernelIdeal.Regions
import proofs.«406483_j14499809591686_3_alg».proof.Proof.Spec
import Idealize.ShloMosaic.Lib.Pipeline.Value
import Idealize.ShloMosaic.PureOps.Ideal.Laws
import Idealize.ShloMosaic.Lib.StableHlo.Run

noncomputable section

namespace Cert.KernelIdeal.HostStretch

open Cert.KernelIdeal Cert.KernelIdeal.Gen Idealize.ShloMosaic Idealize.ShloMosaic.TcCoe Idealize.ShloMosaic.ValueIdx Idealize.SL.Sem

section Plain
variable (M K N : Nat)

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

theorem plain_dot_apply {φ₁ φ₂ : FTy} (l : FVec Ideal ⟨2, ![M, K]⟩ φ₁) (r : FVec Ideal ⟨2, ![K, N]⟩ φ₂) (i : Fin M) (j : Fin N) :
    Host.dotGeneral (DotDims.plain M K N) none l r (ix2 i j) = ∑ k : Fin K, l (ix2 i k) * r (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact plain_lhs_0 M K N _ _
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => exact plain_rhs_1 M K N _ _)
  rw [el, er]

end Plain

theorem dot_xp_eq : dot_S12288x256_S256x256_S12288x256_1_0_0_1_n_n = DotDims.plain 12288 256 256 := rfl
theorem dot_hep_eq : dot_S6144x256_S256x256_S6144x256_1_0_0_1_n_n = DotDims.plain 6144 256 256 := rfl
theorem dot_s1_eq : dot_S12288x256_S256x1_S12288x1_1_0_0_1_n_n = DotDims.plain 12288 256 1 := rfl
theorem dot_s2_eq : dot_S6144x256_S256x1_S6144x1_1_0_0_1_n_n = DotDims.plain 6144 256 1 := rfl

variable (W : Valuation τ sig (Elt Ideal))

abbrev xA : FVec Ideal S12288x256 .f32 := W (Proc.devRef .tc main_arg0)
abbrev pA : FVec Ideal S256x256 .f32 := W (Proc.devRef .tc main_arg2)
abbrev a1A : FVec Ideal S256x1 .f32 := W (Proc.devRef .tc main_arg3)
abbrev a2A : FVec Ideal S256x1 .f32 := W (Proc.devRef .tc main_arg4)
abbrev heA : FVec Ideal S6144x256 .f32 := W (Proc.devRef .tc main_v0)
abbrev xpbA : FVec Ideal S12288x256 .bf16 := StableHlo.after (hostOps1 (F := Ideal)) W (Proc.devRef .tc main_v6)
abbrev s1A : FVec Ideal S12288x1 .f32 := StableHlo.after (hostOps1 (F := Ideal)) W (Proc.devRef .tc main_v3)
abbrev s2A : FVec Ideal S1x6144 .f32 := StableHlo.after (hostOps1 (F := Ideal)) W (Proc.devRef .tc main_v5)

theorem v6_apply (n : Fin 12288) (f : Fin 256) :
    xpbA W (ix2 n f) = ∑ k : Fin 256, xA W (ix2 n k) * pA W (ix2 k f) := by
  have e : xpbA W = truncf .bf16 (Host.dotGeneral (DotDims.plain 12288 256 256) none (xA W) (pA W)) bitsLt_bf16_f32 := by
    show StableHlo.after (hostOps1 (F := Ideal)) W (Proc.devRef .tc main_v6) = _
    after_results
    rfl
  refine (congrFun e _).trans ?_
  exact plain_dot_apply 12288 256 256 (xA W) (pA W) n f

theorem v3_apply (n : Fin 12288) :
    s1A W (ix2 n 0) = ∑ f : Fin 256, (∑ k : Fin 256, xA W (ix2 n k) * pA W (ix2 k f)) * a1A W (ix2 f 0) := by
  have e : s1A W = Host.dotGeneral (DotDims.plain 12288 256 1) none
      (Host.dotGeneral (DotDims.plain 12288 256 256) none (xA W) (pA W)) (a1A W) := by
    show StableHlo.after (hostOps1 (F := Ideal)) W (Proc.devRef .tc main_v3) = _
    after_results
    rfl
  refine (congrFun e _).trans ?_
  refine (plain_dot_apply 12288 256 1 _ (a1A W) n 0).trans ?_
  exact Finset.sum_congr rfl fun f _ =>
    congrArg (· * a1A W (ix2 f 0)) (plain_dot_apply 12288 256 256 (xA W) (pA W) n f)

theorem v5_apply (e : Fin 6144) :
    s2A W (ix2 0 e) = ∑ f : Fin 256, (∑ k : Fin 256, heA W (ix2 e k) * pA W (ix2 k f)) * a2A W (ix2 f 0) := by
  have e' : s2A W = transpose S1x6144 [1, 0] (Host.dotGeneral (DotDims.plain 6144 256 1) none
      (Host.dotGeneral (DotDims.plain 6144 256 256) none (heA W) (pA W)) (a2A W)) transposes_S6144x1_S1x6144_1_0 := by
    show StableHlo.after (hostOps1 (F := Ideal)) W (Proc.devRef .tc main_v5) = _
    after_results
    rfl
  refine (congrFun e' _).trans ?_
  refine (transpose_apply [1, 0] _ transposes_S6144x1_S1x6144_1_0 (ix2 0 e) (ix2 e 0) (fun b => match b with
    | ⟨0, _⟩ => rfl
    | ⟨1, _⟩ => rfl)).trans ?_
  refine (plain_dot_apply 6144 256 1 _ (a2A W) e 0).trans ?_
  exact Finset.sum_congr rfl fun f _ =>
    congrArg (· * a2A W (ix2 f 0)) (plain_dot_apply 6144 256 256 (heA W) (pA W) e f)

end Cert.KernelIdeal.HostStretch

end
-- ==== Proof.LibBlockSum.lean ====
import Mathlib.Algebra.BigOperators.Fin
import Mathlib.Data.Fintype.BigOperators
import Mathlib.Logic.Equiv.Fin.Basic

namespace Cert.BlockSum

open scoped BigOperators

theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

theorem sum_range_12 {M : Type*} [AddCommMonoid M] (g : ℕ → M) :
    ∑ i ∈ Finset.range 12, g i = ∑ b : Fin 12, g b.val :=
  Finset.sum_range g

theorem sum_range_4 {M : Type*} [AddCommMonoid M] (g : ℕ → M) :
    ∑ i ∈ Finset.range 4, g i = ∑ b : Fin 4, g b.val :=
  Finset.sum_range g

end Cert.BlockSum
-- ==== Proof.Payloads.lean ====
import proofs.«406483_j14499809591686_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payloads

open Cert.KernelIdeal Cert.KernelIdeal.Gen Idealize.ShloMosaic Idealize.ShloMosaic.ValueIdx

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem k0_pay1_apply (e : Fin 1536) (k : Fin 256) : (k0_pay1 (F := Ideal)) (ix2 e k) = 0 := by
  unfold k0_pay1
  refine (congrFun (shapeCast_self _ _) _).trans ?_
  exact Ideal.ofBits_zero_f32

theorem k0_pay2_apply (e : Fin 1536) : (k0_pay2 (F := Ideal)) (ix2 0 e) = 0 := by
  unfold k0_pay2
  refine (congrFun (shapeCast_self _ _) _).trans ?_
  exact Ideal.ofBits_zero_f32

abbrev k0_dot := dot_S1024x1536_S1024x256_S1536x256_0_0_1_1_n_n

theorem k0_lhs_0 (i : S1536x256.Idx) (q : k0_dot.contr.Idx) : (k0_dot.lhsIdx i q 0).val = (q ⟨0, by decide⟩).val :=
  k0_dot.lhsIdx_val_of_single rfl i q
theorem k0_lhs_1 (i : S1536x256.Idx) (q : k0_dot.contr.Idx) : (k0_dot.lhsIdx i q 1).val = (i 0).val := by
  unfold DotDims.lhsIdx
  rw [dif_neg (show ¬(1 : Fin S1024x1536.rank) ∈ k0_dot.lhsBatch by decide), dif_pos (show (1 : Fin S1024x1536.rank) ∈ k0_dot.lhsNonContracting by decide)]
  rfl
theorem k0_rhs_0 (i : S1536x256.Idx) (q : k0_dot.contr.Idx) : (k0_dot.rhsIdx i q 0).val = (q ⟨0, by decide⟩).val :=
  k0_dot.rhsIdx_val_of_single rfl i q
theorem k0_rhs_1 (i : S1536x256.Idx) (q : k0_dot.contr.Idx) : (k0_dot.rhsIdx i q 1).val = (i 1).val := by
  unfold DotDims.rhsIdx
  rw [dif_neg (show ¬(1 : Fin S1024x256.rank) ∈ k0_dot.rhsBatch by decide), dif_pos (show (1 : Fin S1024x256.rank) ∈ k0_dot.rhsNonContracting by decide)]
  rfl

theorem k0_pay3_apply (v3 : Vec Ideal S1024x1536 .f32) (v7 : Vec Ideal S1024x256 .f32) (v10 : Vec Ideal S1536x256 .f32)
    (e : Fin 1536) (k : Fin 256) :
    k0_pay3 v3 v7 v10 (ix2 e k) = v10 (ix2 e k) + ∑ r : Fin 1024, v3 (ix2 r e) * v7 (ix2 r k) := by
  unfold k0_pay3
  refine (congrFun (shapeCast_self _ _) _).trans ?_
  refine congrArg (v10 (ix2 e k) + ·) ?_
  refine (Ideal.matmul_constant_zero_apply k0_dot none _ _ (ix2 e k)).trans ?_
  rw [← Equiv.sum_comp (contrEquiv1 k0_dot 1024 rfl rfl).symm]
  refine Finset.sum_congr rfl fun r _ => ?_
  have hr := contrEquiv1_symm_val k0_dot 1024 rfl rfl r
  have el : k0_dot.lhsIdx (ix2 e k) ((contrEquiv1 k0_dot 1024 rfl rfl).symm r) = ix2 r e := funext fun a => Fin.ext (by
    match a with
    | ⟨0, _⟩ => exact (k0_lhs_0 _ _).trans hr
    | ⟨1, _⟩ => exact k0_lhs_1 _ _)
  have er : k0_dot.rhsIdx (ix2 e k) ((contrEquiv1 k0_dot 1024 rfl rfl).symm r) = ix2 r k := funext fun a => Fin.ext (by
    match a with
    | ⟨0, _⟩ => exact (k0_rhs_0 _ _).trans hr
    | ⟨1, _⟩ => exact k0_rhs_1 _ _)
  rw [el, er]
  rfl

theorem k0_pay4_apply (v3 : Vec Ideal S1024x1536 .f32) (v16 : Vec Ideal S1x1536 .f32) (e : Fin 1536) :
    k0_pay4 v3 v16 (ix2 0 e) = v16 (ix2 0 e) + ∑ r : Fin 1024, v3 (ix2 r e) := by
  unfold k0_pay4
  refine (congrFun (shapeCast_self _ _) _).trans ?_
  refine congrArg (v16 (ix2 0 e) + ·) ?_
  refine (shapeCast_a_1a_apply _ _ 0 e).trans ?_
  refine (Ideal.multiReduction_add_single _ _ _ _ _ (ix1 e)).trans ?_
  refine Finset.sum_congr rfl fun r _ => ?_
  exact congrArg v3 (funext fun a => Fin.ext (by match a with | ⟨0, _⟩ => rfl | ⟨1, _⟩ => rfl))

theorem k0_pay5_apply (v26 : Vec Ideal S1x1536 .f32) (v28 : Vec Ideal S1536x256 .f32) (e : Fin 1536) (k : Fin 256) :
    k0_pay5 v26 v28 (ix2 e k) = Ideal.div (v28 (ix2 e k)) (v26 (ix2 0 e)) := by
  unfold k0_pay5
  refine congrArg (Ideal.div (v28 (ix2 e k))) ?_
  refine (broadcastTo_a1_ab_apply _ _ e k).trans ?_
  exact transpose_ix2_apply v26 _ e 0

theorem k2_pay1_apply (f : Fin 256) (e : Fin 1536) : (k2_pay1 (F := Ideal)) (ix2 f e) = 0 := by
  unfold k2_pay1
  refine (congrFun (shapeCast_self _ _) _).trans ?_
  exact Ideal.ofBits_zero_f32

theorem k2_pay2_apply (e : Fin 1536) : (k2_pay2 (F := Ideal)) (ix2 0 e) = 0 := by
  unfold k2_pay2
  refine (congrFun (shapeCast_self _ _) _).trans ?_
  exact Ideal.ofBits_zero_f32

abbrev k2_dot := dot_S1024x256_S1024x1536_S256x1536_0_0_1_1_n_n

theorem k2_lhs_0 (i : S256x1536.Idx) (q : k2_dot.contr.Idx) : (k2_dot.lhsIdx i q 0).val = (q ⟨0, by decide⟩).val :=
  k2_dot.lhsIdx_val_of_single rfl i q
theorem k2_lhs_1 (i : S256x1536.Idx) (q : k2_dot.contr.Idx) : (k2_dot.lhsIdx i q 1).val = (i 0).val := by
  unfold DotDims.lhsIdx
  rw [dif_neg (show ¬(1 : Fin S1024x256.rank) ∈ k2_dot.lhsBatch by decide), dif_pos (show (1 : Fin S1024x256.rank) ∈ k2_dot.lhsNonContracting by decide)]
  rfl
theorem k2_rhs_0 (i : S256x1536.Idx) (q : k2_dot.contr.Idx) : (k2_dot.rhsIdx i q 0).val = (q ⟨0, by decide⟩).val :=
  k2_dot.rhsIdx_val_of_single rfl i q
theorem k2_rhs_1 (i : S256x1536.Idx) (q : k2_dot.contr.Idx) : (k2_dot.rhsIdx i q 1).val = (i 1).val := by
  unfold DotDims.rhsIdx
  rw [dif_neg (show ¬(1 : Fin S1024x1536.rank) ∈ k2_dot.rhsBatch by decide), dif_pos (show (1 : Fin S1024x1536.rank) ∈ k2_dot.rhsNonContracting by decide)]
  rfl

theorem k2_pay4_apply (v3 : Vec Ideal S1024x1536 .bf16) (v8 : Vec Ideal S1024x256 .bf16) (v10 : Vec Ideal S256x1536 .f32)
    (f : Fin 256) (e : Fin 1536) :
    k2_pay4 v3 v8 v10 (ix2 f e) = v10 (ix2 f e) + ∑ r : Fin 1024, v8 (ix2 r f) * v3 (ix2 r e) := by
  unfold k2_pay4 k2_pay3
  refine (congrFun (shapeCast_self _ _) _).trans ?_
  refine congrArg (v10 (ix2 f e) + ·) ?_
  refine (Ideal.matmul_constant_zero_apply k2_dot none _ _ (ix2 f e)).trans ?_
  rw [← Equiv.sum_comp (contrEquiv1 k2_dot 1024 rfl rfl).symm]
  refine Finset.sum_congr rfl fun r _ => ?_
  have hr := contrEquiv1_symm_val k2_dot 1024 rfl rfl r
  have el : k2_dot.lhsIdx (ix2 f e) ((contrEquiv1 k2_dot 1024 rfl rfl).symm r) = ix2 r f := funext fun a => Fin.ext (by
    match a with
    | ⟨0, _⟩ => exact (k2_lhs_0 _ _).trans hr
    | ⟨1, _⟩ => exact k2_lhs_1 _ _)
  have er : k2_dot.rhsIdx (ix2 f e) ((contrEquiv1 k2_dot 1024 rfl rfl).symm r) = ix2 r e := funext fun a => Fin.ext (by
    match a with
    | ⟨0, _⟩ => exact (k2_rhs_0 _ _).trans hr
    | ⟨1, _⟩ => exact k2_rhs_1 _ _)
  rw [el, er, shapeCast_self, shapeCast_self]

theorem k2_pay5_apply (v3 : Vec Ideal S1024x1536 .bf16) (v16 : Vec Ideal S1x1536 .f32) (e : Fin 1536) :
    k2_pay5 v3 v16 (ix2 0 e) = v16 (ix2 0 e) + ∑ r : Fin 1024, v3 (ix2 r e) := by
  unfold k2_pay5 k2_pay3
  refine (congrFun (shapeCast_self _ _) _).trans ?_
  refine congrArg (v16 (ix2 0 e) + ·) ?_
  refine (shapeCast_a_1a_apply _ _ 0 e).trans ?_
  refine (Ideal.multiReduction_add_single _ _ _ _ _ (ix1 e)).trans ?_
  refine Finset.sum_congr rfl fun r _ => ?_
  refine (congrFun (shapeCast_self v3 _) _).trans ?_
  exact congrArg v3 (funext fun a => Fin.ext (by match a with | ⟨0, _⟩ => rfl | ⟨1, _⟩ => rfl))

theorem k2_pay6_apply (v27 : Vec Ideal S256x1536 .f32) (v28 : Vec Ideal S1x1536 .f32) (f : Fin 256) (e : Fin 1536) :
    k2_pay6 v27 v28 (ix2 f e) = Ideal.div (v27 (ix2 f e)) (v28 (ix2 0 e)) := by
  unfold k2_pay6
  refine congrArg (Ideal.div (v27 (ix2 f e))) ?_
  exact broadcastTo_1b_ab_apply v28 _ f e

end Cert.KernelIdeal.Payloads

end
-- ==== Proof.R0Value.lean ====
import proofs.«406483_j14499809591686_3_alg».proof.Proof.R0Frame
import proofs.«406483_j14499809591686_3_alg».proof.Proof.Spec
import proofs.«406483_j14499809591686_3_alg».proof.Proof.LibBlockSum
import proofs.«406483_j14499809591686_3_alg».proof.Proof.Payloads
import Idealize.ShloMosaic.Lib.Pipeline.Value
import Idealize.ShloMosaic.Lib.ValueIdx
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

section Pieces
variable {F : FTy → Type} [FloatOps F]

theorem hz : (![0, 0] : Fin 2 → Nat) = fun _ => 0 := funext fun a => by fin_cases a <;> rfl

abbrev xrows (i : grid0.Coords) (x1 : Vec F S12288x256 .f32) : Vec F S1024x256 .f32 :=
  View.ld x1 (Rect.unit (s := S12288x256) (k0_off1 i) S1024x256.size (k0_off1_inb i))

section
variable (c : Dev nD) (i : grid0.Coords) (arg2 : Memref sig .tc .vmem S1024x1536 .f32) (harg2 : arg2.IsWhole) (arg3 : Memref sig .tc .vmem S12288x256 .f32) (harg3 : arg3.IsWhole) (arg4 : Memref sig .tc .vmem S1536x256 .f32) (harg4 : arg4.IsWhole) (arg5 : Memref sig .tc .vmem S1536x256 .f32) (harg5 : arg5.IsWhole) (arg6 : Memref sig .tc .vmem S1x1536 .f32) (harg6 : arg6.IsWhole)

section
variable (hc0 : cond0_0 i) (hc1 : ¬cond0_1 i) (x0 : Vec F S1024x1536 .f32) (x1 : Vec F S12288x256 .f32)

theorem sout_A_0 :
    sout0_A_0 c i arg2 harg2 arg3 harg3 arg4 harg4 arg5 harg5 arg6 harg6 hc0 hc1 x0 x1 = k0_pay3 x0 (xrows i x1) (k0_pay1 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_run_names
  rw [View.canon_cons_unit_zero (S := S1536x256) hz]
  simp only [View.readAt_eq_ld, harg2.read_unread, harg3.read_unread, harg5.read_unread, harg6.read_unread, View.ld_unit_zero (S := S1024x1536) hz, View.ld_unit_zero (S := S1536x256) hz, View.ld_unit_zero (S := S1x1536) hz, View.readCov_unit_zero (S := S1536x256) _ hz, View.readCov_unit_zero (S := S1x1536) _ hz]

theorem sout_A_1 :
    sout0_A_1 c i arg2 harg2 arg3 harg3 arg4 harg4 arg5 harg5 arg6 harg6 hc0 hc1 x0 x1 = k0_pay4 x0 (k0_pay2 (F := F)) := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_run_names
  rw [View.canon_cons_unit_zero (S := S1x1536) hz]
  simp only [View.readAt_eq_ld, harg2.read_unread, harg3.read_unread, harg5.read_unread, harg6.read_unread, View.ld_unit_zero (S := S1024x1536) hz, View.ld_unit_zero (S := S1536x256) hz, View.ld_unit_zero (S := S1x1536) hz, View.readCov_unit_zero (S := S1536x256) _ hz, View.readCov_unit_zero (S := S1x1536) _ hz]

end

section
variable (hc0 : ¬cond0_0 i) (hc1 : ¬cond0_1 i) (x0 : Vec F S1024x1536 .f32) (x1 : Vec F S12288x256 .f32) (xs0 : Vec F S1536x256 .f32) (xs1 : Vec F S1x1536 .f32)

theorem sout_B_0 :
    sout0_B_0 c i arg2 harg2 arg3 harg3 arg4 harg4 arg5 harg5 arg6 harg6 hc0 hc1 x0 x1 xs0 xs1 = k0_pay3 x0 (xrows i x1) xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  rw [View.canon_unit_zero hz]
  simp only [View.readAt_eq_ld, harg2.read_unread, harg3.read_unread, harg5.read_unread, harg6.read_unread, View.ld_unit_zero (S := S1024x1536) hz, View.ld_unit_zero (S := S1536x256) hz, View.ld_unit_zero (S := S1x1536) hz]

theorem sout_B_1 :
    sout0_B_1 c i arg2 harg2 arg3 harg3 arg4 harg4 arg5 harg5 arg6 harg6 hc0 hc1 x0 x1 xs0 xs1 = k0_pay4 x0 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  rw [View.canon_unit_zero hz]
  simp only [View.readAt_eq_ld, harg2.read_unread, harg3.read_unread, harg5.read_unread, harg6.read_unread, View.ld_unit_zero (S := S1024x1536) hz, View.ld_unit_zero (S := S1536x256) hz, View.ld_unit_zero (S := S1x1536) hz]

end

section
variable (hc0 : ¬cond0_0 i) (hc1 : cond0_1 i) (x0 : Vec F S1024x1536 .f32) (x1 : Vec F S12288x256 .f32) (xs0 : Vec F S1536x256 .f32) (xs1 : Vec F S1x1536 .f32)

theorem sout_C_0 :
    sout0_C_0 c i arg2 harg2 arg3 harg3 arg4 harg4 arg5 harg5 arg6 harg6 hc0 hc1 x0 x1 xs0 xs1 = k0_pay3 x0 (xrows i x1) xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_run_names
  rw [View.canon_unit_zero hz]
  simp only [View.readAt_eq_ld, harg2.read_unread, harg3.read_unread, harg5.read_unread, harg6.read_unread, View.ld_unit_zero (S := S1024x1536) hz, View.ld_unit_zero (S := S1536x256) hz, View.ld_unit_zero (S := S1x1536) hz]

theorem sout_C_1 :
    sout0_C_1 c i arg2 harg2 arg3 harg3 arg4 harg4 arg5 harg5 arg6 harg6 hc0 hc1 x0 x1 xs0 xs1 = k0_pay4 x0 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_run_names
  rw [View.canon_unit_zero hz]
  simp only [View.readAt_eq_ld, harg2.read_unread, harg3.read_unread, harg5.read_unread, harg6.read_unread, View.ld_unit_zero (S := S1024x1536) hz, View.ld_unit_zero (S := S1536x256) hz, View.ld_unit_zero (S := S1x1536) hz]

theorem out_C_2 :
    out0_C_2 c i arg2 harg2 arg3 harg3 arg4 harg4 arg5 harg5 arg6 harg6 hc0 hc1 x0 x1 xs0 xs1 = k0_pay5 (k0_pay4 x0 xs1) (k0_pay3 x0 (xrows i x1) xs0) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_run_names
  rw [View.canon_unit_zero hz]
  simp only [View.readAt_eq_ld, harg2.read_unread, harg3.read_unread, harg5.read_unread, harg6.read_unread, View.ld_unit_zero (S := S1024x1536) hz, View.ld_unit_zero (S := S1536x256) hz, View.ld_unit_zero (S := S1x1536) hz, View.readCov_unit_zero (S := S1536x256) _ hz, View.readCov_unit_zero (S := S1x1536) _ hz]

end

end

end Pieces

section Recurrence
variable {F : FTy → Type} [FloatOps F]
variable (V : (c : Dev nD) → (b : Ref sig .tc) → Buf (Elt F) ((c : Thread nD τ).loc b))

theorem atA_acc (c : Dev nD) (t : Fin cfg0.N) (h0 : t.val % 12 = 0) (h1 : ¬t.val % 12 = 11) :
    (atA V c t h0 h1).2.1 = k0_pay3 (iblk V c 0 t) (xrows (grid0.coords t) (iblk V c 1 t)) (k0_pay1 (F := F)) := by
  unfold atA; dsimp only
  exact sout_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk V c 0 t) (iblk V c 1 t)

theorem atA_col (c : Dev nD) (t : Fin cfg0.N) (h0 : t.val % 12 = 0) (h1 : ¬t.val % 12 = 11) :
    (atA V c t h0 h1).2.2 = k0_pay4 (iblk V c 0 t) (k0_pay2 (F := F)) := by
  unfold atA; dsimp only
  exact sout_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk V c 0 t) (iblk V c 1 t)

theorem atB_acc (c : Dev nD) (t : Fin cfg0.N) (h0 : ¬t.val % 12 = 0) (h1 : ¬t.val % 12 = 11) (xs0 : Vec F S1536x256 .f32) (xs1 : Vec F S1x1536 .f32) :
    (atB V c t h0 h1 xs0 xs1).2.1 = k0_pay3 (iblk V c 0 t) (xrows (grid0.coords t) (iblk V c 1 t)) xs0 := by
  unfold atB; dsimp only
  exact sout_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk V c 0 t) (iblk V c 1 t) xs0 xs1

theorem atB_col (c : Dev nD) (t : Fin cfg0.N) (h0 : ¬t.val % 12 = 0) (h1 : ¬t.val % 12 = 11) (xs0 : Vec F S1536x256 .f32) (xs1 : Vec F S1x1536 .f32) :
    (atB V c t h0 h1 xs0 xs1).2.2 = k0_pay4 (iblk V c 0 t) xs1 := by
  unfold atB; dsimp only
  exact sout_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk V c 0 t) (iblk V c 1 t) xs0 xs1

theorem atC_acc (c : Dev nD) (t : Fin cfg0.N) (h0 : ¬t.val % 12 = 0) (h1 : t.val % 12 = 11) (xs0 : Vec F S1536x256 .f32) (xs1 : Vec F S1x1536 .f32) :
    (atC V c t h0 h1 xs0 xs1).2.1 = k0_pay3 (iblk V c 0 t) (xrows (grid0.coords t) (iblk V c 1 t)) xs0 := by
  unfold atC; dsimp only
  exact sout_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk V c 0 t) (iblk V c 1 t) xs0 xs1

theorem atC_col (c : Dev nD) (t : Fin cfg0.N) (h0 : ¬t.val % 12 = 0) (h1 : t.val % 12 = 11) (xs0 : Vec F S1536x256 .f32) (xs1 : Vec F S1x1536 .f32) :
    (atC V c t h0 h1 xs0 xs1).2.2 = k0_pay4 (iblk V c 0 t) xs1 := by
  unfold atC; dsimp only
  exact sout_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk V c 0 t) (iblk V c 1 t) xs0 xs1

theorem atC_out (c : Dev nD) (t : Fin cfg0.N) (h0 : ¬t.val % 12 = 0) (h1 : t.val % 12 = 11) (xs0 : Vec F S1536x256 .f32) (xs1 : Vec F S1x1536 .f32) :
    (atC V c t h0 h1 xs0 xs1).1 = k0_pay5 (k0_pay4 (iblk V c 0 t) xs1) (k0_pay3 (iblk V c 0 t) (xrows (grid0.coords t) (iblk V c 1 t)) xs0) := by
  unfold atC; dsimp only
  exact out_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk V c 0 t) (iblk V c 1 t) xs0 xs1

theorem acc_first (c : Dev nD) (t : Fin cfg0.N) (h0 : t.val % 12 = 0) :
    (outsAt0 V c t.val t.isLt).2.1 = k0_pay3 (iblk V c 0 t) (xrows (grid0.coords t) (iblk V c 1 t)) (k0_pay1 (F := F)) := by
  have h1 : ¬t.val % 12 = 11 := by omega
  rw [outsAt0_A V c t h0 h1]
  exact atA_acc V c t h0 h1

theorem col_first (c : Dev nD) (t : Fin cfg0.N) (h0 : t.val % 12 = 0) :
    (outsAt0 V c t.val t.isLt).2.2 = k0_pay4 (iblk V c 0 t) (k0_pay2 (F := F)) := by
  have h1 : ¬t.val % 12 = 11 := by omega
  rw [outsAt0_A V c t h0 h1]
  exact atA_col V c t h0 h1

theorem acc_step (c : Dev nD) (t : Fin cfg0.N) (h0 : ¬t.val % 12 = 0) :
    (outsAt0 V c t.val t.isLt).2.1 = k0_pay3 (iblk V c 0 t) (xrows (grid0.coords t) (iblk V c 1 t))
      (outsAt0 V c (t.val - 1) (Nat.lt_of_le_of_lt (Nat.sub_le _ _) t.isLt)).2.1 := by
  by_cases h1 : t.val % 12 = 11
  · rw [outsAt0_C V c t h0 h1]
    exact atC_acc V c t h0 h1 _ _
  · rw [outsAt0_B V c t h0 h1]
    exact atB_acc V c t h0 h1 _ _

theorem col_step (c : Dev nD) (t : Fin cfg0.N) (h0 : ¬t.val % 12 = 0) :
    (outsAt0 V c t.val t.isLt).2.2 = k0_pay4 (iblk V c 0 t)
      (outsAt0 V c (t.val - 1) (Nat.lt_of_le_of_lt (Nat.sub_le _ _) t.isLt)).2.2 := by
  by_cases h1 : t.val % 12 = 11
  · rw [outsAt0_C V c t h0 h1]
    exact atC_col V c t h0 h1 _ _
  · rw [outsAt0_B V c t h0 h1]
    exact atB_col V c t h0 h1 _ _

theorem out_last (c : Dev nD) (t : Fin cfg0.N) (h1 : t.val % 12 = 11) :
    (outsAt0 V c t.val t.isLt).1 = k0_pay5 (outsAt0 V c t.val t.isLt).2.2 (outsAt0 V c t.val t.isLt).2.1 := by
  have h0 : ¬t.val % 12 = 0 := by omega
  rw [outsAt0_C V c t h0 h1]
  rw [atC_out V c t h0 h1, atC_acc V c t h0 h1, atC_col V c t h0 h1]

end Recurrence

section Value
variable (V : (c : Dev nD) → (b : Ref sig .tc) → Buf (Elt Ideal) ((c : Thread nD τ).loc b))

abbrev HA (c : Dev nD) : FVec Ideal S12288x6144 .f32 := V c main_arg1
abbrev XA (c : Dev nD) : FVec Ideal S12288x256 .f32 := V c main_arg0
abbrev outA (c : Dev nD) : FVec Ideal S6144x256 .f32 := (dat (F := Ideal) V c).arrAt 2 cfg0.N
abbrev hblk (c : Dev nD) (t : Fin cfg0.N) : Vec Ideal S1024x1536 .f32 := iblk V c 0 t
abbrev xres (c : Dev nD) (t : Fin cfg0.N) : Vec Ideal S12288x256 .f32 := iblk V c 1 t

def Hn (c : Dev nD) (n e : ℕ) : EReal := if h : n < 12288 ∧ e < 6144 then HA V c (ix2 ⟨n, h.1⟩ ⟨e, h.2⟩) else 0
def Xn (c : Dev nD) (n k : ℕ) : EReal := if h : n < 12288 ∧ k < 256 then XA V c (ix2 ⟨n, h.1⟩ ⟨k, h.2⟩) else 0

theorem Hn_eq (c : Dev nD) (n e : ℕ) (hn : n < 12288) (he : e < 6144) : Hn V c n e = HA V c (ix2 ⟨n, hn⟩ ⟨e, he⟩) :=
  dif_pos ⟨hn, he⟩
theorem Xn_eq (c : Dev nD) (n k : ℕ) (hn : n < 12288) (hk : k < 256) : Xn V c n k = XA V c (ix2 ⟨n, hn⟩ ⟨k, hk⟩) :=
  dif_pos ⟨hn, hk⟩

theorem idx_facts : ∀ t : Fin cfg0.N,
    win0_0.index t (0 : Fin 2) = t.val % 12 ∧ win0_0.index t (1 : Fin 2) = t.val / 12
    ∧ win0_1.index t (0 : Fin 2) = 0 ∧ win0_1.index t (1 : Fin 2) = 0
    ∧ win0_2.index t (0 : Fin 2) = t.val / 12 ∧ win0_2.index t (1 : Fin 2) = 0
    ∧ k0_off1 (grid0.coords t) (0 : Fin 2) = 1024 * (t.val % 12) ∧ k0_off1 (grid0.coords t) (1 : Fin 2) = 0 :=
  (by decide +kernel : ∀ t : Fin grid0.N, _)

theorem hblk_apply (c : Dev nD) (t : Fin cfg0.N) (r : Fin 1024) (p : Fin 1536) :
    hblk V c t (ix2 r p) = Hn V c (1024 * (t.val % 12) + r.val) (1536 * (t.val / 12) + p.val) := by
  have hN : t.val < 48 := lt_of_lt_of_eq t.isLt (show cfg0.N = 48 from N_0)
  obtain ⟨e0, e1, -, -, -, -, -, -⟩ := idx_facts t
  have hn : 1024 * (t.val % 12) + r.val < 12288 := by have := r.isLt; omega
  have he : 1536 * (t.val / 12) + p.val < 6144 := by have := p.isLt; omega
  rw [Hn_eq V c _ _ hn he]
  show V c main_arg1 (((cfg0.win 0).blk t).view.emb (ix2 r p)) = V c main_arg1 (ix2 ⟨_, hn⟩ ⟨_, he⟩)
  refine congrArg (V c main_arg1) (funext fun a => Fin.ext ?_)
  match a with
  | ⟨0, _⟩ => show win0_0.index t (0 : Fin 2) * 1024 + 1 * r.val = 1024 * (t.val % 12) + r.val; omega
  | ⟨1, _⟩ => show win0_0.index t (1 : Fin 2) * 1536 + 1 * p.val = 1536 * (t.val / 12) + p.val; omega

theorem xrows_apply (c : Dev nD) (t : Fin cfg0.N) (r : Fin 1024) (k : Fin 256) :
    xrows (grid0.coords t) (xres V c t) (ix2 r k) = Xn V c (1024 * (t.val % 12) + r.val) k.val := by
  have hN : t.val < 48 := lt_of_lt_of_eq t.isLt (show cfg0.N = 48 from N_0)
  obtain ⟨-, -, e2, e3, -, -, e6, e7⟩ := idx_facts t
  have hn : 1024 * (t.val % 12) + r.val < 12288 := by have := r.isLt; omega
  rw [Xn_eq V c _ _ hn k.isLt]
  show V c main_arg0 (((cfg0.win 1).blk t).view.emb ((Rect.unit (s := S12288x256) (k0_off1 (grid0.coords t)) S1024x256.size (k0_off1_inb (grid0.coords t))).emb (ix2 r k))) = V c main_arg0 (ix2 ⟨_, hn⟩ k)
  refine congrArg (V c main_arg0) (funext fun a => Fin.ext ?_)
  match a with
  | ⟨0, _⟩ => show win0_1.index t (0 : Fin 2) * 12288 + 1 * (k0_off1 (grid0.coords t) (0 : Fin 2) + 1 * r.val) = 1024 * (t.val % 12) + r.val; omega
  | ⟨1, _⟩ => show win0_1.index t (1 : Fin 2) * 256 + 1 * (k0_off1 (grid0.coords t) (1 : Fin 2) + 1 * k.val) = k.val; omega

def prodBlk (c : Dev nD) (g b p q : ℕ) : EReal :=
  ∑ r : Fin 1024, Hn V c (1024 * b + r.val) (1536 * g + p) * Xn V c (1024 * b + r.val) q
def colBlk (c : Dev nD) (g b p : ℕ) : EReal :=
  ∑ r : Fin 1024, Hn V c (1024 * b + r.val) (1536 * g + p)

theorem acc_update (c : Dev nD) (t : Fin cfg0.N) (prev : Vec Ideal S1536x256 .f32) (p : Fin 1536) (q : Fin 256) :
    k0_pay3 (hblk V c t) (xrows (grid0.coords t) (xres V c t)) prev (ix2 p q)
      = prev (ix2 p q) + prodBlk V c (t.val / 12) (t.val % 12) p.val q.val := by
  refine (Payloads.k0_pay3_apply (hblk V c t) (xrows (grid0.coords t) (xres V c t)) prev p q).trans ?_
  refine congrArg (prev (ix2 p q) + ·) ?_
  unfold prodBlk
  refine Finset.sum_congr rfl fun r _ => ?_
  rw [hblk_apply V c t r p, xrows_apply V c t r q]

theorem col_update (c : Dev nD) (t : Fin cfg0.N) (prev : Vec Ideal S1x1536 .f32) (p : Fin 1536) :
    k0_pay4 (hblk V c t) prev (ix2 0 p) = prev (ix2 0 p) + colBlk V c (t.val / 12) (t.val % 12) p.val := by
  refine (Payloads.k0_pay4_apply (hblk V c t) prev p).trans ?_
  refine congrArg (prev (ix2 0 p) + ·) ?_
  unfold colBlk
  refine Finset.sum_congr rfl fun r _ => ?_
  rw [hblk_apply V c t r p]

theorem inv_first (c : Dev nD) (t : Fin cfg0.N) (h0 : t.val % 12 = 0) :
    (∀ (p : Fin 1536) (q : Fin 256), (outsAt0 V c t.val t.isLt).2.1 (ix2 p q)
        = ∑ b ∈ Finset.range (t.val % 12 + 1), prodBlk V c (t.val / 12) b p.val q.val)
    ∧ (∀ p : Fin 1536, (outsAt0 V c t.val t.isLt).2.2 (ix2 0 p)
        = ∑ b ∈ Finset.range (t.val % 12 + 1), colBlk V c (t.val / 12) b p.val) := by
  constructor
  · intro p q
    rw [acc_first V c t h0]
    refine (acc_update V c t (k0_pay1 (F := Ideal)) p q).trans ?_
    rw [Payloads.k0_pay1_apply p q, h0, zero_add, Finset.sum_range_one]
  · intro p
    rw [col_first V c t h0]
    refine (col_update V c t (k0_pay2 (F := Ideal)) p).trans ?_
    rw [Payloads.k0_pay2_apply p, h0, zero_add, Finset.sum_range_one]

theorem inv_step (c : Dev nD) (t : Fin cfg0.N) (h0 : ¬t.val % 12 = 0)
    (ihA : ∀ (p : Fin 1536) (q : Fin 256), (outsAt0 V c (t.val - 1) (Nat.lt_of_le_of_lt (Nat.sub_le _ _) t.isLt)).2.1 (ix2 p q)
        = ∑ b ∈ Finset.range ((t.val - 1) % 12 + 1), prodBlk V c ((t.val - 1) / 12) b p.val q.val)
    (ihC : ∀ p : Fin 1536, (outsAt0 V c (t.val - 1) (Nat.lt_of_le_of_lt (Nat.sub_le _ _) t.isLt)).2.2 (ix2 0 p)
        = ∑ b ∈ Finset.range ((t.val - 1) % 12 + 1), colBlk V c ((t.val - 1) / 12) b p.val) :
    (∀ (p : Fin 1536) (q : Fin 256), (outsAt0 V c t.val t.isLt).2.1 (ix2 p q)
        = ∑ b ∈ Finset.range (t.val % 12 + 1), prodBlk V c (t.val / 12) b p.val q.val)
    ∧ (∀ p : Fin 1536, (outsAt0 V c t.val t.isLt).2.2 (ix2 0 p)
        = ∑ b ∈ Finset.range (t.val % 12 + 1), colBlk V c (t.val / 12) b p.val) := by
  have e1 : (t.val - 1) % 12 + 1 = t.val % 12 := by omega
  have e2 : (t.val - 1) / 12 = t.val / 12 := by omega
  constructor
  · intro p q
    rw [acc_step V c t h0]
    refine (acc_update V c t _ p q).trans ?_
    rw [ihA p q, e1, e2, Finset.sum_range_succ]
  · intro p
    rw [col_step V c t h0]
    refine (col_update V c t _ p).trans ?_
    rw [ihC p, e1, e2, Finset.sum_range_succ]

theorem inv (c : Dev nD) : ∀ (n : ℕ) (h : n < cfg0.N),
    (∀ (p : Fin 1536) (q : Fin 256), (outsAt0 V c n h).2.1 (ix2 p q)
        = ∑ b ∈ Finset.range (n % 12 + 1), prodBlk V c (n / 12) b p.val q.val)
    ∧ (∀ p : Fin 1536, (outsAt0 V c n h).2.2 (ix2 0 p)
        = ∑ b ∈ Finset.range (n % 12 + 1), colBlk V c (n / 12) b p.val) := by
  intro n
  induction n with
  | zero => intro h; exact inv_first V c ⟨0, h⟩ (Nat.zero_mod _)
  | succ n ih =>
    intro h
    by_cases h0 : (n + 1) % 12 = 0
    · exact inv_first V c ⟨n + 1, h⟩ h0
    · exact inv_step V c ⟨n + 1, h⟩ h0 (ih (Nat.lt_of_succ_lt h)).1 (ih (Nat.lt_of_succ_lt h)).2

theorem out_entry (c : Dev nD) (t : Fin cfg0.N) (h1 : t.val % 12 = 11) (p : Fin 1536) (q : Fin 256) :
    (outsAt0 V c t.val t.isLt).1 (ix2 p q)
      = Ideal.div (∑ b ∈ Finset.range 12, prodBlk V c (t.val / 12) b p.val q.val)
                  (∑ b ∈ Finset.range 12, colBlk V c (t.val / 12) b p.val) := by
  rw [out_last V c t h1]
  refine (Payloads.k0_pay5_apply _ _ p q).trans ?_
  rw [(inv V c t.val t.isLt).1 p q, (inv V c t.val t.isLt).2 p, h1]

theorem prod_total (c : Dev nD) (g : ℕ) (p : Fin 1536) (q : Fin 256) (he : 1536 * g + p.val < 6144) :
    ∑ b ∈ Finset.range 12, prodBlk V c g b p.val q.val
      = ∑ n : Fin 12288, HA V c (ix2 n ⟨1536 * g + p.val, he⟩) * XA V c (ix2 n q) := by
  rw [Cert.BlockSum.sum_range_12]
  refine Eq.trans ?_ (Cert.BlockSum.sum_12x1024 fun n : Fin 12288 => HA V c (ix2 n ⟨1536 * g + p.val, he⟩) * XA V c (ix2 n q))
  refine Finset.sum_congr rfl fun b _ => Finset.sum_congr rfl fun r _ => ?_
  have hn : 1024 * b.val + r.val < 12288 := by have := b.isLt; have := r.isLt; omega
  rw [Hn_eq V c _ _ hn he, Xn_eq V c _ _ hn q.isLt]

theorem col_total (c : Dev nD) (g : ℕ) (p : Fin 1536) (he : 1536 * g + p.val < 6144) :
    ∑ b ∈ Finset.range 12, colBlk V c g b p.val = ∑ n : Fin 12288, HA V c (ix2 n ⟨1536 * g + p.val, he⟩) := by
  rw [Cert.BlockSum.sum_range_12]
  refine Eq.trans ?_ (Cert.BlockSum.sum_12x1024 fun n : Fin 12288 => HA V c (ix2 n ⟨1536 * g + p.val, he⟩))
  refine Finset.sum_congr rfl fun b _ => Finset.sum_congr rfl fun r _ => ?_
  have hn : 1024 * b.val + r.val < 12288 := by have := b.isLt; have := r.isLt; omega
  rw [Hn_eq V c _ _ hn he]

def G (c : Dev nD) : FVec Ideal S6144x256 .f32 := fun i =>
  Ideal.div (∑ n : Fin 12288, HA V c (ix2 n ⟨(i 0).val, (i 0).isLt⟩) * XA V c (ix2 n ⟨(i 1).val, (i 1).isLt⟩))
            (∑ n : Fin 12288, HA V c (ix2 n ⟨(i 0).val, (i 0).isLt⟩))

theorem G_apply (c : Dev nD) (e : Fin 6144) (k : Fin 256) :
    G V c (ix2 e k) = Ideal.div (∑ n : Fin 12288, HA V c (ix2 n e) * XA V c (ix2 n k)) (∑ n : Fin 12288, HA V c (ix2 n e)) := rfl

theorem ext2 {α : Type} {n0 n1 : ℕ} (X Y : (⟨2, ![n0, n1]⟩ : Shape).Idx → α)
    (h : ∀ (p : Fin n0) (q : Fin n1), X (ix2 p q) = Y (ix2 p q)) : X = Y :=
  funext fun j => by rw [eq_ix2 j]; exact h _ _

theorem flushed_eq (c : Dev nD) (t : Fin cfg0.N) (hf : (cfg0.win 2).flush t = true) :
    (dat V c).flushed 2 t = ((cfg0.win 2).blk t).view.read (Elt Ideal) (G V c) := by
  have h11 : t.val % 12 = 11 := (flush0_2 t).mp hf
  have hN : t.val < 48 := lt_of_lt_of_eq t.isLt (show cfg0.N = 48 from N_0)
  obtain ⟨-, -, -, -, e4, e5, -, -⟩ := idx_facts t
  show (cfg0.win 2).cut (grid0.coords t) ((dat V c).after 2 t) = _
  rw [after0_2]
  refine ext2 (n0 := 1536) (n1 := 256) _ _ fun p q => ?_
  have he : 1536 * (t.val / 12) + p.val < 6144 := by have := p.isLt; omega
  show (outsAt0 V c t.val t.isLt).1 (ix2 p q) = G V c (((cfg0.win 2).blk t).view.emb (ix2 p q))
  rw [out_entry V c t h11 p q, prod_total V c _ p q he, col_total V c _ p he]
  have hi : ((cfg0.win 2).blk t).view.emb (ix2 p q) = ix2 (⟨1536 * (t.val / 12) + p.val, he⟩ : Fin 6144) q := by
    funext a; apply Fin.ext
    match a with
    | ⟨0, _⟩ => show win0_2.index t (0 : Fin 2) * 1536 + 1 * p.val = 1536 * (t.val / 12) + p.val; omega
    | ⟨1, _⟩ => show win0_2.index t (1 : Fin 2) * 256 + 1 * q.val = q.val; omega
  rw [hi, G_apply]

theorem mem_blk (t : Fin cfg0.N) (i : S6144x256.Idx) :
    i ∈ ((cfg0.win 2).blk t).view.set ↔ ∀ a : Fin 2, win0_2.index t a * S1536x256.size a ≤ (i a).val ∧ (i a).val < win0_2.index t a * S1536x256.size a + S1536x256.size a := by
  show i ∈ ((View.whole main_v0).slice (win0_2.rect t)).set ↔ _
  rw [View.set_slice_whole, Rect.mem_set_unit]
  exact Iff.rfl

theorem cover (i : S6144x256.Idx) :
    ∃ t : Fin cfg0.N, (cfg0.win 2).flush t = true ∧ i ∈ ((cfg0.win 2).blk t).view.set := by
  have hi0 : (i 0).val < 6144 := (i 0).isLt
  have hi1 : (i 1).val < 256 := (i 1).isLt
  have hN : cfg0.N = 48 := N_0
  have ht : 12 * ((i 0).val / 1536) + 11 < cfg0.N := by rw [hN]; omega
  refine ⟨⟨12 * ((i 0).val / 1536) + 11, ht⟩, (flush0_2 _).mpr (by show (12 * ((i 0).val / 1536) + 11) % 12 = 11; omega), ?_⟩
  rw [mem_blk]
  obtain ⟨-, -, -, -, e4, e5, -, -⟩ := idx_facts ⟨12 * ((i 0).val / 1536) + 11, ht⟩
  have e4' : win0_2.index ⟨12 * ((i 0).val / 1536) + 11, ht⟩ (0 : Fin 2) = (i 0).val / 1536 := by
    rw [e4]; show (12 * ((i 0).val / 1536) + 11) / 12 = _; omega
  intro a
  match a with
  | ⟨0, _⟩ =>
    show win0_2.index ⟨12 * ((i 0).val / 1536) + 11, ht⟩ (0 : Fin 2) * 1536 ≤ (i 0).val ∧ (i 0).val < win0_2.index ⟨12 * ((i 0).val / 1536) + 11, ht⟩ (0 : Fin 2) * 1536 + 1536
    rw [e4']; omega
  | ⟨1, _⟩ =>
    show win0_2.index ⟨12 * ((i 0).val / 1536) + 11, ht⟩ (1 : Fin 2) * 256 ≤ (i 1).val ∧ (i 1).val < win0_2.index ⟨12 * ((i 0).val / 1536) + 11, ht⟩ (1 : Fin 2) * 256 + 256
    rw [e5]; omega

theorem final (c : Dev nD) : (dat V c).arrAt 2 cfg0.N = G V c :=
  (dat V c).arrAt_eq_of_cover 2 (G V c) (fun t hf => flushed_eq V c t hf) cover

theorem out_eq (c : Dev nD) (e : Fin 6144) (k : Fin 256) :
    outA V c (ix2 e k)
      = Ideal.div (∑ n : Fin 12288, HA V c (ix2 n e) * XA V c (ix2 n k)) (∑ n : Fin 12288, HA V c (ix2 n e)) := by
  show (dat V c).arrAt 2 cfg0.N (ix2 e k) = _
  rw [final V c, G_apply]

end Value

end Cert.KernelIdeal.R0

end
-- ==== Proof.R1Value.lean ====
import proofs.«406483_j14499809591686_3_alg».proof.Proof.R1Frame
import proofs.«406483_j14499809591686_3_alg».proof.Proof.Spec
import Idealize.ShloMosaic.PureOps.Ideal.Laws
import Idealize.ShloMosaic.Lib.Pipeline.Value
import Idealize.ShloMosaic.Lib.ValueLayout

set_option maxRecDepth 16384

noncomputable section

namespace Cert.KernelIdeal.R1

open Cert.KernelIdeal Cert.KernelIdeal.Gen Idealize.ShloMosaic Idealize.ShloMosaic.TcCoe Idealize.SL.Sem
open Idealize.ShloMosaic.Pipeline (Dat)
open Idealize.ShloMosaic.ValueIdx
open Cert.HyperAttn (act)

section Layout
variable {α : Type}

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

def bw (x0 : Vec Ideal S128x6144 .f32) (x1 : Vec Ideal S128x1 .f32) (x3 : Vec Ideal S1x6144 .f32) (p : Fin 128) (q : Fin 6144) : EReal :=
  Ideal.exp (act (x1 (ix2 p 0) + x3 (ix2 0 q))) * x0 (ix2 p q)

theorem norm_apply (W : FVec Ideal S128x6144 .f32) (p : Fin 128) (q : Fin 6144) (hφ : FKind.Formats .f32)
    (hacc : (0x00000000#32 : BitVec 32) = FKind.add.neutral .f32 hφ) :
    (truncf .bf16 (divf W (broadcastTo S128x6144 (shapeCast S128x1 (multiReduction .add [1] S128 W 0x00000000#32 reduces_S128x6144_S128 hφ hacc)
      shapeCasts_S128_S128x1) broadcasts_S128x1_S128x6144)) bitsLt_bf16_f32 : FVec Ideal S128x6144 .bf16) (ix2 p q)
      = Ideal.div (W (ix2 p q)) (∑ q' : Fin 6144, W (ix2 p q')) := by
  show Ideal.div (W (ix2 p q)) (broadcastTo S128x6144 (shapeCast S128x1 (multiReduction .add [1] S128 W 0x00000000#32 reduces_S128x6144_S128 hφ hacc)
      shapeCasts_S128_S128x1) broadcasts_S128x1_S128x6144 (ix2 p q)) = _
  rw [broadcastTo_a1_ab_apply, shapeCast_a_a1_apply, Ideal.multiReduction_add_single]
  refine congrArg (Ideal.div _) (Finset.sum_congr rfl fun k _ => congrArg W ?_)
  funext a; apply Fin.ext
  match a with
  | ⟨0, _⟩ => rfl
  | ⟨1, _⟩ => rfl

theorem pay_apply (x0 : Vec Ideal S128x6144 .f32) (x1 : Vec Ideal S128x1 .f32) (x3 : Vec Ideal S1x6144 .f32) (p : Fin 128) (q : Fin 6144) :
    k1_pay1 x0 x1 x3 (ix2 p q) = Ideal.div (bw x0 x1 x3 p q) (∑ q' : Fin 6144, bw x0 x1 x3 p q') := by
  unfold k1_pay1
  dsimp only
  refine (norm_apply _ p q _ _).trans ?_
  refine congrArg₂ Ideal.div ?_ (Finset.sum_congr rfl fun q' _ => ?_)
  all_goals
    show Ideal.exp (act (broadcastTo S128x6144 (shapeCast S128x1 x1 shapeCasts_S128x1_S128x1) broadcasts_S128x1_S128x6144 (ix2 p _)
      + broadcastTo S128x6144 (shapeCast S1x6144 x3 shapeCasts_S1x6144_S1x6144) broadcasts_S1x6144_S128x6144 (ix2 p _))) * x0 (ix2 p _) = _
    rw [broadcastTo_a1_ab_apply, broadcastTo_1b_ab_apply, shapeCast_self, shapeCast_self]
    rfl

variable (V : (c : Dev nD) → (b : Ref sig .tc) → Buf (Elt Ideal) ((c : Thread nD τ).loc b))

abbrev HA (c : Dev nD) : FVec Ideal S12288x6144 .f32 := V c main_arg1
abbrev s1A (c : Dev nD) : FVec Ideal S12288x1 .f32 := V c main_v3
abbrev s2A (c : Dev nD) : FVec Ideal S1x6144 .f32 := V c main_v5
abbrev outA (c : Dev nD) : FVec Ideal S12288x6144 .bf16 := (dat (F := Ideal) V c).arrAt 3 cfg1.N

def wv (c : Dev nD) (n : Fin 12288) (e : Fin 6144) : EReal :=
  Ideal.exp (act (s1A V c (ix2 n 0) + s2A V c (ix2 0 e))) * HA V c (ix2 n e)

def G (c : Dev nD) : FVec Ideal S12288x6144 .bf16 :=
  fun i => Ideal.div (wv V c (i 0) (i 1)) (∑ e' : Fin 6144, wv V c (i 0) e')

theorem hz : (![0, 0] : Fin 2 → Nat) = fun _ => 0 := funext fun a => by fin_cases a <;> rfl

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

def rowOf (t : Fin cfg1.N) (p : Fin 128) : Fin 12288 :=
  ⟨t.val * 128 + p.val, by have ht : t.val < 96 := lt_of_lt_of_eq t.isLt N_1; have := p.isLt; omega⟩

theorem emb_0 (t : Fin cfg1.N) (p : Fin 128) (q : Fin 6144) :
    ((cfg1.win 0).blk t).view.emb (ix2 p q) = ix2 (rowOf t p) q := by
  obtain ⟨e0, e1, e2, e3, e4, e5, e6, e7⟩ := idx_facts t
  funext a; apply Fin.ext
  match a with
  | ⟨0, _⟩ => show win1_0.index t (0 : Fin 2) * 128 + 1 * p.val = t.val * 128 + p.val; omega
  | ⟨1, _⟩ => show win1_0.index t (1 : Fin 2) * 6144 + 1 * q.val = q.val; omega

theorem emb_1 (t : Fin cfg1.N) (p : Fin 128) :
    ((cfg1.win 1).blk t).view.emb (ix2 p (0 : Fin 1)) = ix2 (rowOf t p) (0 : Fin 1) := by
  obtain ⟨e0, e1, e2, e3, e4, e5, e6, e7⟩ := idx_facts t
  funext a; apply Fin.ext
  match a with
  | ⟨0, _⟩ => show win1_1.index t (0 : Fin 2) * 128 + 1 * p.val = t.val * 128 + p.val; omega
  | ⟨1, _⟩ => show win1_1.index t (1 : Fin 2) * 1 + 1 * 0 = 0; omega

theorem emb_2 (t : Fin cfg1.N) (q : Fin 6144) :
    ((cfg1.win 2).blk t).view.emb (ix2 (0 : Fin 1) q) = ix2 (0 : Fin 1) q := by
  obtain ⟨e0, e1, e2, e3, e4, e5, e6, e7⟩ := idx_facts t
  funext a; apply Fin.ext
  match a with
  | ⟨0, _⟩ => show win1_2.index t (0 : Fin 2) * 1 + 1 * 0 = 0; omega
  | ⟨1, _⟩ => show win1_2.index t (1 : Fin 2) * 6144 + 1 * q.val = q.val; omega

theorem emb_3 (t : Fin cfg1.N) (p : Fin 128) (q : Fin 6144) :
    ((cfg1.win 3).blk t).view.emb (ix2 p q) = ix2 (rowOf t p) q := by
  obtain ⟨e0, e1, e2, e3, e4, e5, e6, e7⟩ := idx_facts t
  funext a; apply Fin.ext
  match a with
  | ⟨0, _⟩ => show win1_3.index t (0 : Fin 2) * 128 + 1 * p.val = t.val * 128 + p.val; omega
  | ⟨1, _⟩ => show win1_3.index t (1 : Fin 2) * 6144 + 1 * q.val = q.val; omega

theorem iblk_0_apply (c : Dev nD) (t : Fin cfg1.N) (p : Fin 128) (q : Fin 6144) :
    iblk V c 0 t (ix2 p q) = HA V c (ix2 (rowOf t p) q) := by
  show V c main_arg1 (((cfg1.win 0).blk t).view.emb (ix2 p q)) = V c main_arg1 (ix2 (rowOf t p) q)
  rw [emb_0]

theorem iblk_1_apply (c : Dev nD) (t : Fin cfg1.N) (p : Fin 128) :
    iblk V c 1 t (ix2 p (0 : Fin 1)) = s1A V c (ix2 (rowOf t p) (0 : Fin 1)) := by
  show V c main_v3 (((cfg1.win 1).blk t).view.emb (ix2 p (0 : Fin 1))) = V c main_v3 (ix2 (rowOf t p) (0 : Fin 1))
  rw [emb_1]

theorem iblk_2_apply (c : Dev nD) (t : Fin cfg1.N) (q : Fin 6144) :
    iblk V c 2 t (ix2 (0 : Fin 1) q) = s2A V c (ix2 (0 : Fin 1) q) := by
  show V c main_v5 (((cfg1.win 2).blk t).view.emb (ix2 (0 : Fin 1) q)) = V c main_v5 (ix2 (0 : Fin 1) q)
  rw [emb_2]

theorem flushed_eq (c : Dev nD) (t : Fin cfg1.N) :
    (dat (F := Ideal) V c).flushed 3 t = ((cfg1.win 3).blk t).view.read (Elt Ideal) (G V c) := by
  show (cfg1.win 3).cut (grid1.coords t) ((dat (F := Ideal) V c).after 3 t) = _
  rw [after_3]
  unfold out_3
  rw [View.canon_unit_zero hz]
  simp only [View.ld_unit_zero (S := S128x6144) hz, View.ld_unit_zero (S := S128x1) hz, View.ld_unit_zero (S := S1x6144) hz]
  funext j
  obtain ⟨p, q, rfl⟩ : ∃ (p : Fin 128) (q : Fin 6144), j = ix2 p q := ⟨j 0, j 1, eq_ix2 j⟩
  show k1_pay1 (iblk V c 0 t) (iblk V c 1 t) (iblk V c 2 t) (ix2 p q) = G V c (((cfg1.win 3).blk t).view.emb (ix2 p q))
  rw [pay_apply, emb_3]
  show _ = Ideal.div (wv V c (rowOf t p) q) (∑ e' : Fin 6144, wv V c (rowOf t p) e')
  unfold bw wv
  simp only [iblk_0_apply, iblk_1_apply, iblk_2_apply]

theorem mem_blk (t : Fin cfg1.N) (i : S12288x6144.Idx) :
    i ∈ ((cfg1.win 3).blk t).view.set ↔ ∀ a : Fin 2, win1_3.index t a * S128x6144.size a ≤ (i a).val ∧ (i a).val < win1_3.index t a * S128x6144.size a + S128x6144.size a := by
  show i ∈ ((View.whole main_v7).slice (win1_3.rect t)).set ↔ _
  rw [View.set_slice_whole, Rect.mem_set_unit]
  exact Iff.rfl

theorem cover (i : S12288x6144.Idx) :
    ∃ t : Fin cfg1.N, (cfg1.win 3).flush t = true ∧ i ∈ ((cfg1.win 3).blk t).view.set := by
  have hi0 : (i 0).val < 12288 := (i 0).isLt
  have hi1 : (i 1).val < 6144 := (i 1).isLt
  obtain ⟨t, ht⟩ : ∃ t : Fin cfg1.N, t.val = (i 0).val / 128 :=
    ⟨⟨(i 0).val / 128, lt_of_lt_of_eq (by omega : (i 0).val / 128 < 96) N_1.symm⟩, rfl⟩
  obtain ⟨e0, e1, e2, e3, e4, e5, e6, e7⟩ := idx_facts t
  refine ⟨t, flush1_3 t, ?_⟩
  rw [mem_blk]
  intro a
  match a with
  | ⟨0, _⟩ => show win1_3.index t (0 : Fin 2) * 128 ≤ (i 0).val ∧ (i 0).val < win1_3.index t (0 : Fin 2) * 128 + 128; omega
  | ⟨1, _⟩ => show win1_3.index t (1 : Fin 2) * 6144 ≤ (i 1).val ∧ (i 1).val < win1_3.index t (1 : Fin 2) * 6144 + 6144; omega

theorem final (c : Dev nD) : (dat (F := Ideal) V c).arrAt 3 cfg1.N = G V c :=
  (dat (F := Ideal) V c).arrAt_eq_of_cover 3 (G V c) (fun t _ => flushed_eq V c t) cover

theorem out_eq (c : Dev nD) (n : Fin 12288) (e : Fin 6144) :
    outA V c (ix2 n e) = Ideal.div (wv V c n e) (∑ e' : Fin 6144, wv V c n e') :=
  congrFun (final V c) (ix2 n e)

end Cert.KernelIdeal.R1

end
-- ==== Proof.R2Value.lean ====
import proofs.«406483_j14499809591686_3_alg».proof.Proof.R2Frame
import proofs.«406483_j14499809591686_3_alg».proof.Proof.Spec
import proofs.«406483_j14499809591686_3_alg».proof.Proof.Payloads
import proofs.«406483_j14499809591686_3_alg».proof.Proof.LibBlockSum
import Idealize.ShloMosaic.Lib.Pipeline.Value
import Idealize.ShloMosaic.Lib.ValueIdx
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

section Pieces

variable {F : FTy → Type} [FloatOps F]

theorem hz : (![0, 0] : Fin 2 → Nat) = fun _ => 0 := funext fun a => by fin_cases a <;> rfl

def xrows (i : grid2.Coords) (x1 : Vec F S12288x256 .bf16) : Vec F S1024x256 .bf16 :=
  View.ld x1 (Rect.unit (s := S12288x256) (k2_off1 i) S1024x256.size (k2_off1_inb i))

section
variable (c : Dev nD) (i : grid2.Coords) (arg2 : Memref sig .tc .vmem S1024x1536 .bf16) (harg2 : arg2.IsWhole) (arg3 : Memref sig .tc .vmem S12288x256 .bf16) (harg3 : arg3.IsWhole) (arg4 : Memref sig .tc .vmem S256x1536 .bf16) (harg4 : arg4.IsWhole) (arg5 : Memref sig .tc .vmem S256x1536 .f32) (harg5 : arg5.IsWhole) (arg6 : Memref sig .tc .vmem S1x1536 .f32) (harg6 : arg6.IsWhole)

section
variable (hc0 : cond_0 i) (hc1 : ¬cond_1 i) (x0 : Vec F S1024x1536 .bf16) (x1 : Vec F S12288x256 .bf16)

theorem sout_A_0_eq :
    sout_A_0 c i arg2 harg2 arg3 harg3 arg4 harg4 arg5 harg5 arg6 harg6 hc0 hc1 x0 x1 = k2_pay4 x0 (xrows i x1) k2_pay1 := by
  unfold sout_A_0
  rw [View.read_writes_eq_canon _ _ _ (scover_A_0 c i arg2 harg2 arg3 harg3 arg4 harg4 arg5 harg5 arg6 harg6 hc0 hc1 x0 x1)]
  unfold kernelRun_A
  dsimp only
  sl_unfold_words
  rw [View.canon_cons_unit_zero (S := S256x1536) hz]
  simp only [View.readAt_eq_ld, harg2.read_unread, harg3.read_unread, harg5.read_unread, harg6.read_unread, View.ld_unit_zero (S := S1024x1536) hz, View.ld_unit_zero (S := S256x1536) hz, View.ld_unit_zero (S := S1x1536) hz, View.readCov_unit_zero (S := S256x1536) _ hz, View.readCov_unit_zero (S := S1x1536) _ hz]
  rfl

theorem sout_A_1_eq :
    sout_A_1 c i arg2 harg2 arg3 harg3 arg4 harg4 arg5 harg5 arg6 harg6 hc0 hc1 x0 x1 = k2_pay5 x0 k2_pay2 := by
  unfold sout_A_1
  rw [View.read_writes_eq_canon _ _ _ (scover_A_1 c i arg2 harg2 arg3 harg3 arg4 harg4 arg5 harg5 arg6 harg6 hc0 hc1 x0 x1)]
  unfold kernelRun_A
  dsimp only
  sl_unfold_words
  rw [View.canon_cons_unit_zero (S := S1x1536) hz]
  simp only [View.readAt_eq_ld, harg2.read_unread, harg3.read_unread, harg5.read_unread, harg6.read_unread, View.ld_unit_zero (S := S1024x1536) hz, View.ld_unit_zero (S := S256x1536) hz, View.ld_unit_zero (S := S1x1536) hz, View.readCov_unit_zero (S := S256x1536) _ hz, View.readCov_unit_zero (S := S1x1536) _ hz]

end

section
variable (hc0 : ¬cond_0 i) (hc1 : ¬cond_1 i) (x0 : Vec F S1024x1536 .bf16) (x1 : Vec F S12288x256 .bf16) (xs0 : Vec F S256x1536 .f32) (xs1 : Vec F S1x1536 .f32)

theorem sout_B_0_eq :
    sout_B_0 c i arg2 harg2 arg3 harg3 arg4 harg4 arg5 harg5 arg6 harg6 hc0 hc1 x0 x1 xs0 xs1 = k2_pay4 x0 (xrows i x1) xs0 := by
  unfold sout_B_0
  rw [View.read_writes_eq_canon _ _ _ (scover_B_0 c i arg2 harg2 arg3 harg3 arg4 harg4 arg5 harg5 arg6 harg6 hc0 hc1 x0 x1 xs0 xs1)]
  unfold kernelRun_B
  dsimp only
  sl_unfold_words
  rw [View.canon_unit_zero hz]
  simp only [View.readAt_eq_ld, harg2.read_unread, harg3.read_unread, harg5.read_unread, harg6.read_unread, View.ld_unit_zero (S := S1024x1536) hz, View.ld_unit_zero (S := S256x1536) hz, View.ld_unit_zero (S := S1x1536) hz, View.readCov_unit_zero (S := S256x1536) _ hz, View.readCov_unit_zero (S := S1x1536) _ hz]
  rfl

theorem sout_B_1_eq :
    sout_B_1 c i arg2 harg2 arg3 harg3 arg4 harg4 arg5 harg5 arg6 harg6 hc0 hc1 x0 x1 xs0 xs1 = k2_pay5 x0 xs1 := by
  unfold sout_B_1
  rw [View.read_writes_eq_canon _ _ _ (scover_B_1 c i arg2 harg2 arg3 harg3 arg4 harg4 arg5 harg5 arg6 harg6 hc0 hc1 x0 x1 xs0 xs1)]
  unfold kernelRun_B
  dsimp only
  sl_unfold_words
  rw [View.canon_unit_zero hz]
  simp only [View.readAt_eq_ld, harg2.read_unread, harg3.read_unread, harg5.read_unread, harg6.read_unread, View.ld_unit_zero (S := S1024x1536) hz, View.ld_unit_zero (S := S256x1536) hz, View.ld_unit_zero (S := S1x1536) hz, View.readCov_unit_zero (S := S256x1536) _ hz, View.readCov_unit_zero (S := S1x1536) _ hz]

end

section
variable (hc0 : ¬cond_0 i) (hc1 : cond_1 i) (x0 : Vec F S1024x1536 .bf16) (x1 : Vec F S12288x256 .bf16) (xs0 : Vec F S256x1536 .f32) (xs1 : Vec F S1x1536 .f32)

theorem sout_C_0_eq :
    sout_C_0 c i arg2 harg2 arg3 harg3 arg4 harg4 arg5 harg5 arg6 harg6 hc0 hc1 x0 x1 xs0 xs1 = k2_pay4 x0 (xrows i x1) xs0 := by
  unfold sout_C_0
  rw [View.read_writes_eq_canon _ _ _ (scover_C_0 c i arg2 harg2 arg3 harg3 arg4 harg4 arg5 harg5 arg6 harg6 hc0 hc1 x0 x1 xs0 xs1)]
  unfold kernelRun_C
  dsimp only
  sl_unfold_words
  rw [View.canon_unit_zero hz]
  simp only [View.readAt_eq_ld, harg2.read_unread, harg3.read_unread, harg5.read_unread, harg6.read_unread, View.ld_unit_zero (S := S1024x1536) hz, View.ld_unit_zero (S := S256x1536) hz, View.ld_unit_zero (S := S1x1536) hz, View.readCov_unit_zero (S := S256x1536) _ hz, View.readCov_unit_zero (S := S1x1536) _ hz]
  rfl

theorem sout_C_1_eq :
    sout_C_1 c i arg2 harg2 arg3 harg3 arg4 harg4 arg5 harg5 arg6 harg6 hc0 hc1 x0 x1 xs0 xs1 = k2_pay5 x0 xs1 := by
  unfold sout_C_1
  rw [View.read_writes_eq_canon _ _ _ (scover_C_1 c i arg2 harg2 arg3 harg3 arg4 harg4 arg5 harg5 arg6 harg6 hc0 hc1 x0 x1 xs0 xs1)]
  unfold kernelRun_C
  dsimp only
  sl_unfold_words
  rw [View.canon_unit_zero hz]
  simp only [View.readAt_eq_ld, harg2.read_unread, harg3.read_unread, harg5.read_unread, harg6.read_unread, View.ld_unit_zero (S := S1024x1536) hz, View.ld_unit_zero (S := S256x1536) hz, View.ld_unit_zero (S := S1x1536) hz, View.readCov_unit_zero (S := S256x1536) _ hz, View.readCov_unit_zero (S := S1x1536) _ hz]

theorem out_C_2_eq :
    out_C_2 c i arg2 harg2 arg3 harg3 arg4 harg4 arg5 harg5 arg6 harg6 hc0 hc1 x0 x1 xs0 xs1 = k2_pay6 (k2_pay4 x0 (xrows i x1) xs0) (k2_pay5 x0 xs1) := by
  unfold out_C_2
  rw [View.read_writes_eq_canon _ _ _ (cover_C_2 c i arg2 harg2 arg3 harg3 arg4 harg4 arg5 harg5 arg6 harg6 hc0 hc1 x0 x1 xs0 xs1)]
  unfold kernelRun_C
  dsimp only
  sl_unfold_words
  rw [View.canon_unit_zero hz]
  simp only [View.readAt_eq_ld, harg2.read_unread, harg3.read_unread, harg5.read_unread, harg6.read_unread, View.ld_unit_zero (S := S1024x1536) hz, View.ld_unit_zero (S := S256x1536) hz, View.ld_unit_zero (S := S1x1536) hz, View.readCov_unit_zero (S := S256x1536) _ hz, View.readCov_unit_zero (S := S1x1536) _ hz]
  rfl

end

end

end Pieces

section Value

variable (V : (c : Dev nD) → (b : Ref sig .tc) → Buf (Elt Ideal) ((c : Thread nD τ).loc b))

abbrev hmA (c : Dev nD) : FVec Ideal S12288x6144 .bf16 := V c main_v7
abbrev xpA (c : Dev nD) : FVec Ideal S12288x256 .bf16 := V c main_v6
abbrev outA (c : Dev nD) : FVec Ideal S256x6144 .bf16 := (dat (F := Ideal) V c).arrAt 2 cfg2.N
abbrev hmblk (c : Dev nD) (t : Fin cfg2.N) : Vec Ideal S1024x1536 .bf16 := iblk V c 0 t
abbrev xpblk (c : Dev nD) (t : Fin cfg2.N) : Vec Ideal S12288x256 .bf16 := iblk V c 1 t

theorem tlt (t : Fin cfg2.N) : t.val < 48 := lt_of_lt_of_eq t.isLt N_2

theorem idx_facts : ∀ t : Fin cfg2.N, win2_0.index t (0 : Fin 2) = t.val % 12 ∧ win2_0.index t (1 : Fin 2) = t.val / 12
    ∧ win2_1.index t (0 : Fin 2) = 0 ∧ win2_1.index t (1 : Fin 2) = 0
    ∧ win2_2.index t (0 : Fin 2) = 0 ∧ win2_2.index t (1 : Fin 2) = t.val / 12
    ∧ k2_off1 (grid2.coords t) (0 : Fin 2) = 1024 * (t.val % 12) ∧ k2_off1 (grid2.coords t) (1 : Fin 2) = 0 :=
  (by decide +kernel : ∀ t : Fin grid2.N, _)

theorem hmblk_apply (c : Dev nD) (t : Fin cfg2.N) (r : Fin 1024) (e : Fin 1536) :
    hmblk V c t (ix2 r e) = hmA V c (ix2 ⟨1024 * (t.val % 12) + r.val, by omega⟩ ⟨1536 * (t.val / 12) + e.val, by have := tlt t; omega⟩) := by
  obtain ⟨e0, e1, -⟩ := idx_facts t
  show V c main_v7 (((cfg2.win 0).blk t).view.emb (ix2 r e)) = V c main_v7 _
  refine congrArg (V c main_v7) ?_
  funext a; apply Fin.ext
  match a with
  | ⟨0, _⟩ => show win2_0.index t (0 : Fin 2) * 1024 + 1 * r.val = 1024 * (t.val % 12) + r.val; omega
  | ⟨1, _⟩ => show win2_0.index t (1 : Fin 2) * 1536 + 1 * e.val = 1536 * (t.val / 12) + e.val; omega

theorem xpblk_apply (c : Dev nD) (t : Fin cfg2.N) (n : Fin 12288) (f : Fin 256) :
    xpblk V c t (ix2 n f) = xpA V c (ix2 n f) := by
  obtain ⟨-, -, e2, e3, -⟩ := idx_facts t
  show V c main_v6 (((cfg2.win 1).blk t).view.emb (ix2 n f)) = V c main_v6 (ix2 n f)
  refine congrArg (V c main_v6) ?_
  funext a; apply Fin.ext
  match a with
  | ⟨0, _⟩ => show win2_1.index t (0 : Fin 2) * 12288 + 1 * n.val = n.val; omega
  | ⟨1, _⟩ => show win2_1.index t (1 : Fin 2) * 256 + 1 * f.val = f.val; omega

theorem xrows_apply (t : Fin cfg2.N) (x1 : Vec Ideal S12288x256 .bf16) (r : Fin 1024) (f : Fin 256) :
    xrows (grid2.coords t) x1 (ix2 r f) = x1 (ix2 ⟨1024 * (t.val % 12) + r.val, by omega⟩ f) := by
  obtain ⟨-, -, -, -, -, -, e6, e7⟩ := idx_facts t
  show x1 ((Rect.unit (s := S12288x256) (k2_off1 (grid2.coords t)) S1024x256.size (k2_off1_inb (grid2.coords t))).emb (ix2 r f)) = _
  refine congrArg x1 ?_
  funext a; apply Fin.ext
  match a with
  | ⟨0, _⟩ => show k2_off1 (grid2.coords t) (0 : Fin 2) + 1 * r.val = 1024 * (t.val % 12) + r.val; omega
  | ⟨1, _⟩ => show k2_off1 (grid2.coords t) (1 : Fin 2) + 1 * f.val = f.val; omega

def rowOf (b : ℕ) (r : Fin 1024) : Fin 12288 := ⟨(1024 * b + r.val) % 12288, Nat.mod_lt _ (by norm_num)⟩
def colOf (g : ℕ) (e : Fin 1536) : Fin 6144 := ⟨(1536 * g + e.val) % 6144, Nat.mod_lt _ (by norm_num)⟩

def prodTerm (c : Dev nD) (f : Fin 256) (col : Fin 6144) (b : ℕ) : EReal :=
  ∑ r : Fin 1024, xpA V c (ix2 (rowOf b r) f) * hmA V c (ix2 (rowOf b r) col)
def colTerm (c : Dev nD) (col : Fin 6144) (b : ℕ) : EReal :=
  ∑ r : Fin 1024, hmA V c (ix2 (rowOf b r) col)

theorem step_acc (c : Dev nD) (t : Fin cfg2.N) (xs0 : Vec Ideal S256x1536 .f32) (f : Fin 256) (e : Fin 1536) :
    k2_pay4 (hmblk V c t) (xrows (grid2.coords t) (xpblk V c t)) xs0 (ix2 f e)
      = xs0 (ix2 f e) + prodTerm V c f (colOf (t.val / 12) e) (t.val % 12) := by
  have ht := tlt t
  refine (Payloads.k2_pay4_apply (hmblk V c t) (xrows (grid2.coords t) (xpblk V c t)) xs0 f e).trans ?_
  refine congrArg (fun z => xs0 (ix2 f e) + z) ?_
  unfold prodTerm
  refine Finset.sum_congr rfl fun r _ => ?_
  rw [xrows_apply t (xpblk V c t) r f, xpblk_apply V c t _ f, hmblk_apply V c t r e]
  have hr : (⟨1024 * (t.val % 12) + r.val, by omega⟩ : Fin 12288) = rowOf (t.val % 12) r := Fin.ext (by unfold rowOf; dsimp only; omega)
  have hc : (⟨1536 * (t.val / 12) + e.val, by omega⟩ : Fin 6144) = colOf (t.val / 12) e := Fin.ext (by unfold colOf; dsimp only; omega)
  rw [hr, hc]

theorem step_col (c : Dev nD) (t : Fin cfg2.N) (xs1 : Vec Ideal S1x1536 .f32) (e : Fin 1536) :
    k2_pay5 (hmblk V c t) xs1 (ix2 0 e)
      = xs1 (ix2 0 e) + colTerm V c (colOf (t.val / 12) e) (t.val % 12) := by
  have ht := tlt t
  refine (Payloads.k2_pay5_apply (hmblk V c t) xs1 e).trans ?_
  refine congrArg (fun z => xs1 (ix2 0 e) + z) ?_
  unfold colTerm
  refine Finset.sum_congr rfl fun r _ => ?_
  rw [hmblk_apply V c t r e]
  have hr : (⟨1024 * (t.val % 12) + r.val, by omega⟩ : Fin 12288) = rowOf (t.val % 12) r := Fin.ext (by unfold rowOf; dsimp only; omega)
  have hc : (⟨1536 * (t.val / 12) + e.val, by omega⟩ : Fin 6144) = colOf (t.val / 12) e := Fin.ext (by unfold colOf; dsimp only; omega)
  rw [hr, hc]

theorem outs_first (c : Dev nD) (t : Fin cfg2.N) (h0 : t.val % 12 = 0) (f : Fin 256) (e : Fin 1536) :
    (outsAt V c t.val t.isLt).2.1 (ix2 f e) = prodTerm V c f (colOf (t.val / 12) e) 0
    ∧ (outsAt V c t.val t.isLt).2.2 (ix2 0 e) = colTerm V c (colOf (t.val / 12) e) 0 := by
  have h1 : ¬t.val % 12 = 11 := by omega
  rw [outsAt_A V c t h0 h1]; dsimp only
  refine ⟨?_, ?_⟩
  · refine (congrFun (sout_A_0_eq (F := Ideal) c (grid2.coords t) (ms_0 t) (hs_0 t) (ms_1 t) (hs_1 t) (ms_2 t) (hs_2 t) scM_0 (Memref.isWhole_whole _) scM_1 (Memref.isWhole_whole _) ((hcond_0 t).mpr h0) (fun h => h1 ((hcond_1 t).mp h)) (iblk V c 0 t) (iblk V c 1 t)) (ix2 f e)).trans ?_
    refine (step_acc V c t (k2_pay1 (F := Ideal)) f e).trans ?_
    rw [Payloads.k2_pay1_apply, zero_add, h0]
  · refine (congrFun (sout_A_1_eq (F := Ideal) c (grid2.coords t) (ms_0 t) (hs_0 t) (ms_1 t) (hs_1 t) (ms_2 t) (hs_2 t) scM_0 (Memref.isWhole_whole _) scM_1 (Memref.isWhole_whole _) ((hcond_0 t).mpr h0) (fun h => h1 ((hcond_1 t).mp h)) (iblk V c 0 t) (iblk V c 1 t)) (ix2 0 e)).trans ?_
    refine (step_col V c t (k2_pay2 (F := Ideal)) e).trans ?_
    rw [Payloads.k2_pay2_apply, zero_add, h0]

theorem outs_step (c : Dev nD) (t : Fin cfg2.N) (h0 : ¬t.val % 12 = 0) (f : Fin 256) (e : Fin 1536) :
    (outsAt V c t.val t.isLt).2.1 (ix2 f e)
        = (outsAt V c (t.val - 1) (Nat.lt_of_le_of_lt (Nat.sub_le _ _) t.isLt)).2.1 (ix2 f e) + prodTerm V c f (colOf (t.val / 12) e) (t.val % 12)
    ∧ (outsAt V c t.val t.isLt).2.2 (ix2 0 e)
        = (outsAt V c (t.val - 1) (Nat.lt_of_le_of_lt (Nat.sub_le _ _) t.isLt)).2.2 (ix2 0 e) + colTerm V c (colOf (t.val / 12) e) (t.val % 12) := by
  by_cases h1 : t.val % 12 = 11
  · rw [outsAt_C V c t h0 h1]; dsimp only
    refine ⟨?_, ?_⟩
    · refine (congrFun (sout_C_0_eq (F := Ideal) c (grid2.coords t) (ms_0 t) (hs_0 t) (ms_1 t) (hs_1 t) (ms_2 t) (hs_2 t) scM_0 (Memref.isWhole_whole _) scM_1 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2.1 (outsAt V c (t.val - 1) (Nat.lt_of_le_of_lt (Nat.sub_le _ _) t.isLt)).2.2) (ix2 f e)).trans ?_
      exact step_acc V c t _ f e
    · refine (congrFun (sout_C_1_eq (F := Ideal) c (grid2.coords t) (ms_0 t) (hs_0 t) (ms_1 t) (hs_1 t) (ms_2 t) (hs_2 t) scM_0 (Memref.isWhole_whole _) scM_1 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2.1 (outsAt V c (t.val - 1) (Nat.lt_of_le_of_lt (Nat.sub_le _ _) t.isLt)).2.2) (ix2 0 e)).trans ?_
      exact step_col V c t _ e
  · rw [outsAt_B V c t h0 h1]; dsimp only
    refine ⟨?_, ?_⟩
    · refine (congrFun (sout_B_0_eq (F := Ideal) c (grid2.coords t) (ms_0 t) (hs_0 t) (ms_1 t) (hs_1 t) (ms_2 t) (hs_2 t) scM_0 (Memref.isWhole_whole _) scM_1 (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2.1 (outsAt V c (t.val - 1) (Nat.lt_of_le_of_lt (Nat.sub_le _ _) t.isLt)).2.2) (ix2 f e)).trans ?_
      exact step_acc V c t _ f e
    · refine (congrFun (sout_B_1_eq (F := Ideal) c (grid2.coords t) (ms_0 t) (hs_0 t) (ms_1 t) (hs_1 t) (ms_2 t) (hs_2 t) scM_0 (Memref.isWhole_whole _) scM_1 (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2.1 (outsAt V c (t.val - 1) (Nat.lt_of_le_of_lt (Nat.sub_le _ _) t.isLt)).2.2) (ix2 0 e)).trans ?_
      exact step_col V c t _ e

theorem outs_eq (c : Dev nD) (f : Fin 256) (e : Fin 1536) : ∀ (n : ℕ) (h : n < cfg2.N),
    (outsAt V c n h).2.1 (ix2 f e) = ∑ j ∈ Finset.range (n % 12 + 1), prodTerm V c f (colOf (n / 12) e) j
    ∧ (outsAt V c n h).2.2 (ix2 0 e) = ∑ j ∈ Finset.range (n % 12 + 1), colTerm V c (colOf (n / 12) e) j := by
  intro n
  induction n with
  | zero =>
    intro h
    have := outs_first V c ⟨0, h⟩ rfl f e
    simpa using this
  | succ m ih =>
    intro h
    by_cases h0 : (m + 1) % 12 = 0
    · have := outs_first V c ⟨m + 1, h⟩ h0 f e
      dsimp only at this
      rw [h0, zero_add, Finset.sum_range_one, Finset.sum_range_one]
      exact this
    · have hs := outs_step V c ⟨m + 1, h⟩ h0 f e
      have hm := ih (Nat.lt_of_succ_lt h)
      dsimp only at hs
      have e1 : (m + 1) % 12 = m % 12 + 1 := by omega
      have e2 : (m + 1) / 12 = m / 12 := by omega
      rw [Finset.sum_range_succ, Finset.sum_range_succ (fun j => colTerm V c (colOf ((m + 1) / 12) e) j), e1, e2]
      rw [e1, e2] at hs
      refine ⟨hs.1.trans ?_, hs.2.trans ?_⟩
      · exact congrArg (· + _) hm.1
      · exact congrArg (· + _) hm.2

def Gval (c : Dev nD) (f : Fin 256) (col : Fin 6144) : EReal :=
  Ideal.div (∑ n : Fin 12288, xpA V c (ix2 n f) * hmA V c (ix2 n col)) (∑ n : Fin 12288, hmA V c (ix2 n col))

def G (c : Dev nD) : FVec Ideal S256x6144 .bf16 := fun i => Gval V c ⟨(i 0).val, (i 0).isLt⟩ ⟨(i 1).val, (i 1).isLt⟩

theorem prod_all (c : Dev nD) (f : Fin 256) (col : Fin 6144) :
    ∑ j ∈ Finset.range 12, prodTerm V c f col j = ∑ n : Fin 12288, xpA V c (ix2 n f) * hmA V c (ix2 n col) := by
  rw [Cert.BlockSum.sum_range_12]
  refine Eq.trans ?_ (Cert.BlockSum.sum_12x1024 (fun n => xpA V c (ix2 n f) * hmA V c (ix2 n col)))
  refine Finset.sum_congr rfl fun b _ => ?_
  unfold prodTerm
  refine Finset.sum_congr rfl fun r _ => ?_
  have hr : rowOf b.val r = (⟨1024 * b.val + r.val, by omega⟩ : Fin 12288) := Fin.ext (by unfold rowOf; dsimp only; omega)
  rw [hr]

theorem col_all (c : Dev nD) (col : Fin 6144) :
    ∑ j ∈ Finset.range 12, colTerm V c col j = ∑ n : Fin 12288, hmA V c (ix2 n col) := by
  rw [Cert.BlockSum.sum_range_12]
  refine Eq.trans ?_ (Cert.BlockSum.sum_12x1024 (fun n => hmA V c (ix2 n col)))
  refine Finset.sum_congr rfl fun b _ => ?_
  unfold colTerm
  refine Finset.sum_congr rfl fun r _ => ?_
  have hr : rowOf b.val r = (⟨1024 * b.val + r.val, by omega⟩ : Fin 12288) := Fin.ext (by unfold rowOf; dsimp only; omega)
  rw [hr]

theorem flushed_eq (c : Dev nD) (t : Fin cfg2.N) (hf : (cfg2.win 2).flush t = true) :
    (dat (F := Ideal) V c).flushed 2 t = ((cfg2.win 2).blk t).view.read (Elt Ideal) (G V c) := by
  have ht := tlt t
  have h1 : t.val % 12 = 11 := (flush2_2 t).mp hf
  have h0 : ¬t.val % 12 = 0 := by omega
  obtain ⟨-, -, -, -, e4, e5, -⟩ := idx_facts t
  show (cfg2.win 2).cut (grid2.coords t) ((dat (F := Ideal) V c).after 2 t) = _
  rw [after_2]
  funext j
  obtain ⟨f, e, rfl⟩ : ∃ (f : Fin 256) (e : Fin 1536), j = ix2 f e := ⟨j 0, j 1, eq_ix2 j⟩
  show (outsAt V c t.val t.isLt).1 (ix2 f e) = G V c (((cfg2.win 2).blk t).view.emb (ix2 f e))
  have hemb : ((cfg2.win 2).blk t).view.emb (ix2 f e) = ix2 f (colOf (t.val / 12) e) := by
    funext a; apply Fin.ext
    match a with
    | ⟨0, _⟩ => show win2_2.index t (0 : Fin 2) * 256 + 1 * f.val = f.val; omega
    | ⟨1, _⟩ => show win2_2.index t (1 : Fin 2) * 1536 + 1 * e.val = (1536 * (t.val / 12) + e.val) % 6144; omega
  rw [hemb]
  show _ = Gval V c f (colOf (t.val / 12) e)
  obtain ⟨ha, hc⟩ := outs_eq V c f e t.val t.isLt
  rw [h1] at ha hc
  rw [outsAt_C V c t h0 h1] at ha hc ⊢
  dsimp only at ha hc ⊢
  rw [sout_C_0_eq (F := Ideal) c (grid2.coords t) (ms_0 t) (hs_0 t) (ms_1 t) (hs_1 t) (ms_2 t) (hs_2 t) scM_0 (Memref.isWhole_whole _) scM_1 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2.1 (outsAt V c (t.val - 1) (Nat.lt_of_le_of_lt (Nat.sub_le _ _) t.isLt)).2.2] at ha
  rw [sout_C_1_eq (F := Ideal) c (grid2.coords t) (ms_0 t) (hs_0 t) (ms_1 t) (hs_1 t) (ms_2 t) (hs_2 t) scM_0 (Memref.isWhole_whole _) scM_1 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2.1 (outsAt V c (t.val - 1) (Nat.lt_of_le_of_lt (Nat.sub_le _ _) t.isLt)).2.2] at hc
  refine (congrFun (out_C_2_eq (F := Ideal) c (grid2.coords t) (ms_0 t) (hs_0 t) (ms_1 t) (hs_1 t) (ms_2 t) (hs_2 t) scM_0 (Memref.isWhole_whole _) scM_1 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2.1 (outsAt V c (t.val - 1) (Nat.lt_of_le_of_lt (Nat.sub_le _ _) t.isLt)).2.2) (ix2 f e)).trans ?_
  refine (Payloads.k2_pay6_apply _ _ f e).trans ?_
  rw [ha, hc, prod_all, col_all]
  rfl

theorem mem_blk (t : Fin cfg2.N) (i : S256x6144.Idx) :
    i ∈ ((cfg2.win 2).blk t).view.set ↔ ∀ a : Fin 2, win2_2.index t a * S256x1536.size a ≤ (i a).val ∧ (i a).val < win2_2.index t a * S256x1536.size a + S256x1536.size a := by
  show i ∈ ((View.whole main_v8).slice (win2_2.rect t)).set ↔ _
  rw [View.set_slice_whole, Rect.mem_set_unit]
  exact Iff.rfl

theorem cover (i : S256x6144.Idx) : ∃ t : Fin cfg2.N, (cfg2.win 2).flush t = true ∧ i ∈ ((cfg2.win 2).blk t).view.set := by
  have hi0 : (i 0).val < 256 := (i 0).isLt
  have hi1 : (i 1).val < 6144 := (i 1).isLt
  have hN : 12 * ((i 1).val / 1536) + 11 < cfg2.N := by rw [show cfg2.N = 48 from N_2]; omega
  refine ⟨⟨12 * ((i 1).val / 1536) + 11, hN⟩, (flush2_2 _).mpr (by dsimp only; omega), ?_⟩
  obtain ⟨-, -, -, -, e4, e5, -⟩ := idx_facts ⟨12 * ((i 1).val / 1536) + 11, hN⟩
  dsimp only at e5
  rw [mem_blk]
  intro a
  match a with
  | ⟨0, _⟩ => show win2_2.index _ (0 : Fin 2) * 256 ≤ (i 0).val ∧ (i 0).val < win2_2.index _ (0 : Fin 2) * 256 + 256; omega
  | ⟨1, _⟩ => show win2_2.index _ (1 : Fin 2) * 1536 ≤ (i 1).val ∧ (i 1).val < win2_2.index _ (1 : Fin 2) * 1536 + 1536; omega

theorem final (c : Dev nD) : outA V c = G V c :=
  (dat (F := Ideal) V c).arrAt_eq_of_cover 2 (G V c) (flushed_eq V c) cover

theorem out_eq (c : Dev nD) (f : Fin 256) (e : Fin 6144) :
    outA V c (ix2 f e)
      = Ideal.div (∑ n : Fin 12288, xpA V c (ix2 n f) * hmA V c (ix2 n e)) (∑ n : Fin 12288, hmA V c (ix2 n e)) :=
  congrFun (final V c) (ix2 f e)

end Value

end Cert.KernelIdeal.R2

end
-- ==== Proof.R3Value.lean ====
import proofs.«406483_j14499809591686_3_alg».proof.Proof.R3Frame
import proofs.«406483_j14499809591686_3_alg».proof.Proof.LibBlockSum
import proofs.«406483_j14499809591686_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.R3

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

section Pieces
variable {F : FTy → Type} [FloatOps F]

theorem hz : (![0, 0] : Fin 2 → Nat) = fun _ => 0 := funext fun a => by fin_cases a <;> rfl

abbrev gld (i : grid3.Coords) (x1 : Vec F S256x6144 .bf16) : Vec F S256x1536 .bf16 :=
  View.ld x1 (Rect.unit (s := S256x6144) (k3_off1 i) S256x1536.size (k3_off1_inb i))

section
variable (c : Dev nD) (i : grid3.Coords) (arg2 : Memref sig .tc .vmem S1024x1536 .bf16) (harg2 : arg2.IsWhole) (arg3 : Memref sig .tc .vmem S256x6144 .bf16) (harg3 : arg3.IsWhole) (arg4 : Memref sig .tc .vmem S1024x256 .f32) (harg4 : arg4.IsWhole) (arg5 : Memref sig .tc .vmem S1024x256 .f32) (harg5 : arg5.IsWhole)

section
variable (hc0 : cond_0 i) (hc1 : ¬cond_1 i) (x0 : Vec F S1024x1536 .bf16) (x1 : Vec F S256x6144 .bf16)

theorem sout_A_eq :
    sout_A_0 c i arg2 harg2 arg3 harg3 arg4 harg4 arg5 harg5 hc0 hc1 x0 x1 = k3_pay2 x0 (gld i x1) k3_pay1 := by
  unfold sout_A_0
  rw [View.read_writes_eq_canon _ _ _ (scover_A_0 c i arg2 harg2 arg3 harg3 arg4 harg4 arg5 harg5 hc0 hc1 x0 x1)]
  unfold kernelRun_A
  dsimp only
  sl_unfold_words
  rw [View.canon_cons_unit_zero (S := S1024x256) hz, View.readCov_unit_zero (S := S1024x256) _ hz]
  simp only [View.readAt_eq_ld, harg2.read_unread, harg3.read_unread, View.ld_unit_zero (S := S1024x1536) hz]
  rfl

end

section
variable (hc0 : ¬cond_0 i) (hc1 : ¬cond_1 i) (x0 : Vec F S1024x1536 .bf16) (x1 : Vec F S256x6144 .bf16) (xs0 : Vec F S1024x256 .f32)

theorem sout_B_eq :
    sout_B_0 c i arg2 harg2 arg3 harg3 arg4 harg4 arg5 harg5 hc0 hc1 x0 x1 xs0 = k3_pay2 x0 (gld i x1) xs0 := by
  unfold sout_B_0
  rw [View.read_writes_eq_canon _ _ _ (scover_B_0 c i arg2 harg2 arg3 harg3 arg4 harg4 arg5 harg5 hc0 hc1 x0 x1 xs0)]
  unfold kernelRun_B
  dsimp only
  sl_unfold_words
  rw [View.canon_unit_zero hz]
  simp only [View.readAt_eq_ld, harg2.read_unread, harg3.read_unread, harg5.read_unread, View.ld_unit_zero (S := S1024x1536) hz, View.ld_unit_zero (S := S1024x256) hz]
  rfl

end

section
variable (hc0 : ¬cond_0 i) (hc1 : cond_1 i) (x0 : Vec F S1024x1536 .bf16) (x1 : Vec F S256x6144 .bf16) (xs0 : Vec F S1024x256 .f32)

theorem sout_C_eq :
    sout_C_0 c i arg2 harg2 arg3 harg3 arg4 harg4 arg5 harg5 hc0 hc1 x0 x1 xs0 = k3_pay2 x0 (gld i x1) xs0 := by
  unfold sout_C_0
  rw [View.read_writes_eq_canon _ _ _ (scover_C_0 c i arg2 harg2 arg3 harg3 arg4 harg4 arg5 harg5 hc0 hc1 x0 x1 xs0)]
  unfold kernelRun_C
  dsimp only
  sl_unfold_words
  rw [View.canon_unit_zero hz]
  simp only [View.readAt_eq_ld, harg2.read_unread, harg3.read_unread, harg5.read_unread, View.ld_unit_zero (S := S1024x1536) hz, View.ld_unit_zero (S := S1024x256) hz]
  rfl

theorem out_C_eq :
    out_C_2 c i arg2 harg2 arg3 harg3 arg4 harg4 arg5 harg5 hc0 hc1 x0 x1 xs0 = k3_pay3 (k3_pay2 x0 (gld i x1) xs0) := by
  unfold out_C_2
  rw [View.read_writes_eq_canon _ _ _ (cover_C_2 c i arg2 harg2 arg3 harg3 arg4 harg4 arg5 harg5 hc0 hc1 x0 x1 xs0)]
  unfold kernelRun_C
  dsimp only
  sl_unfold_words
  rw [View.canon_unit_zero hz, View.readCov_unit_zero (S := S1024x256) _ hz]
  simp only [View.readAt_eq_ld, harg2.read_unread, harg3.read_unread, harg5.read_unread, View.ld_unit_zero (S := S1024x1536) hz, View.ld_unit_zero (S := S1024x256) hz]
  rfl

end

end

end Pieces

section AtIdeal

abbrev D3 := dot_S1024x1536_S256x1536_S1024x256_1_1_0_0_n_n

theorem lhs3_0 (j : S1024x256.Idx) (q : D3.contr.Idx) : (D3.lhsIdx j q 0).val = (j 0).val := by
  unfold DotDims.lhsIdx
  rw [dif_neg (show ¬(0 : Fin S1024x1536.rank) ∈ D3.lhsBatch by decide), dif_pos (show (0 : Fin S1024x1536.rank) ∈ D3.lhsNonContracting by decide)]
  rfl
theorem lhs3_1 (j : S1024x256.Idx) (q : D3.contr.Idx) : (D3.lhsIdx j q 1).val = (q ⟨0, by decide⟩).val :=
  D3.lhsIdx_val_of_single rfl j q
theorem rhs3_0 (j : S1024x256.Idx) (q : D3.contr.Idx) : (D3.rhsIdx j q 0).val = (j 1).val := by
  unfold DotDims.rhsIdx
  rw [dif_neg (show ¬(0 : Fin S256x1536.rank) ∈ D3.rhsBatch by decide), dif_pos (show (0 : Fin S256x1536.rank) ∈ D3.rhsNonContracting by decide)]
  rfl
theorem rhs3_1 (j : S1024x256.Idx) (q : D3.contr.Idx) : (D3.rhsIdx j q 1).val = (q ⟨0, by decide⟩).val :=
  D3.rhsIdx_val_of_single rfl j q

theorem pay2_apply (x0 : FVec Ideal S1024x1536 .bf16) (g : FVec Ideal S256x1536 .bf16) (acc : FVec Ideal S1024x256 .f32) (r : Fin 1024) (f : Fin 256) :
    k3_pay2 (F := Ideal) x0 g acc (ix2 r f) = acc (ix2 r f) + ∑ e : Fin 1536, x0 (ix2 r e) * g (ix2 f e) := by
  unfold k3_pay2
  simp only [shapeCast_self]
  show acc (ix2 r f) + FloatOps.matmul D3 none x0 g (constant S1024x256 .f32 0x00000000#32) (ix2 r f) = _
  refine congrArg (acc (ix2 r f) + ·) ?_
  refine (Ideal.matmul_constant_zero_apply D3 none x0 g (ix2 r f)).trans ?_
  rw [← Equiv.sum_comp (contrEquiv1 D3 1536 rfl rfl).symm]
  refine Finset.sum_congr rfl fun k _ => ?_
  have hk := contrEquiv1_symm_val D3 1536 rfl rfl k
  have el : D3.lhsIdx (ix2 r f) ((contrEquiv1 D3 1536 rfl rfl).symm k) = ix2 r k := funext fun a => Fin.ext (by
    match a with
    | ⟨0, _⟩ => exact lhs3_0 _ _
    | ⟨1, _⟩ => exact (lhs3_1 _ _).trans hk)
  have er : D3.rhsIdx (ix2 r f) ((contrEquiv1 D3 1536 rfl rfl).symm k) = ix2 f k := funext fun a => Fin.ext (by
    match a with
    | ⟨0, _⟩ => exact rhs3_0 _ _
    | ⟨1, _⟩ => exact (rhs3_1 _ _).trans hk)
  rw [el, er]

theorem pay1_apply (r : Fin 1024) (f : Fin 256) : (k3_pay1 (F := Ideal) : FVec Ideal S1024x256 .f32) (ix2 r f) = 0 := by
  unfold k3_pay1
  simp only [shapeCast_self]
  exact Ideal.ofBits_zero_f32

theorem pay3_apply (v : FVec Ideal S1024x256 .f32) (r : Fin 1024) (f : Fin 256) :
    k3_pay3 (F := Ideal) v (ix2 r f) = Cert.HyperAttn.slope (v (ix2 r f)) := rfl

theorem gld_apply (i : grid3.Coords) (x1 : FVec Ideal S256x6144 .bf16) (f : Fin 256) (e : Fin 1536) (j : ℕ) (hj : (i 1).val = j)
    (h : 1536 * j + e.val < 6144) :
    gld (F := Ideal) i x1 (ix2 f e) = x1 (ix2 f ⟨1536 * j + e.val, h⟩) := by
  show x1 ((Rect.unit (s := S256x6144) (k3_off1 i) S256x1536.size (k3_off1_inb i)).idx (ix2 f e)) = _
  refine congrArg x1 (funext fun a => Fin.ext ?_)
  have ho := k3_off1_eq i
  match a with
  | ⟨0, _⟩ => show (k3_off1 i) 0 + 1 * f.val = f.val; rw [ho]; show 0 + 1 * f.val = f.val; omega
  | ⟨1, _⟩ => show (k3_off1 i) 1 + 1 * e.val = 1536 * j + e.val; rw [ho]; show 1536 * (i 1).val + 1 * e.val = 1536 * j + e.val; rw [hj]; omega

variable (V : (c : Dev nD) → (b : Ref sig .tc) → Buf (Elt Ideal) ((c : Thread nD τ).loc b))

abbrev hmA (c : Dev nD) : FVec Ideal S12288x6144 .bf16 := V c main_v7
abbrev gA (c : Dev nD) : FVec Ideal S256x6144 .bf16 := V c main_v8
abbrev outA (c : Dev nD) : FVec Ideal S12288x256 .f32 := (dat (F := Ideal) V c).arrAt 2 cfg3.N
abbrev hblk (c : Dev nD) (t : Fin cfg3.N) : FVec Ideal S1024x1536 .bf16 := iblk V c 0 t
abbrev gres (c : Dev nD) (t : Fin cfg3.N) : FVec Ideal S256x6144 .bf16 := iblk V c 1 t
abbrev accAt (c : Dev nD) (n : ℕ) (h : n < cfg3.N) : FVec Ideal S1024x256 .f32 := (outsAt V c n h).2
abbrev outAt (c : Dev nD) (n : ℕ) (h : n < cfg3.N) : FVec Ideal S1024x256 .f32 := (outsAt V c n h).1

theorem idx_facts : ∀ t : Fin cfg3.N, win3_0.index t (0 : Fin 2) = t.val / 4 ∧ win3_0.index t (1 : Fin 2) = t.val % 4
    ∧ win3_1.index t (0 : Fin 2) = 0 ∧ win3_1.index t (1 : Fin 2) = 0
    ∧ win3_2.index t (0 : Fin 2) = t.val / 4 ∧ win3_2.index t (1 : Fin 2) = 0
    ∧ ((grid3.coords t) 1).val = t.val % 4 :=
  (by decide +kernel : ∀ t : Fin grid3.N, _)

theorem hblk_apply (c : Dev nD) (t : Fin cfg3.N) (r : Fin 1024) (e : Fin 1536) (h0 : 1024 * (t.val / 4) + r.val < 12288)
    (h1 : 1536 * (t.val % 4) + e.val < 6144) :
    hblk V c t (ix2 r e) = hmA V c (ix2 ⟨1024 * (t.val / 4) + r.val, h0⟩ ⟨1536 * (t.val % 4) + e.val, h1⟩) := by
  obtain ⟨e0, e1, -⟩ := idx_facts t
  show ((cfg3.win 0).blk t).view.read (Elt Ideal) (V c main_v7) (ix2 r e) = _
  rw [View.read_apply]
  refine congrArg (V c main_v7) (funext fun a => Fin.ext ?_)
  match a with
  | ⟨0, _⟩ => show win3_0.index t (0 : Fin 2) * 1024 + 1 * r.val = 1024 * (t.val / 4) + r.val; rw [e0]; omega
  | ⟨1, _⟩ => show win3_0.index t (1 : Fin 2) * 1536 + 1 * e.val = 1536 * (t.val % 4) + e.val; rw [e1]; omega

theorem gres_apply (c : Dev nD) (t : Fin cfg3.N) (f : Fin 256) (e : Fin 6144) :
    gres V c t (ix2 f e) = gA V c (ix2 f e) := by
  obtain ⟨-, -, e2, e3, -⟩ := idx_facts t
  show ((cfg3.win 1).blk t).view.read (Elt Ideal) (V c main_v8) (ix2 f e) = _
  rw [View.read_apply]
  refine congrArg (V c main_v8) (funext fun a => Fin.ext ?_)
  match a with
  | ⟨0, _⟩ => show win3_1.index t (0 : Fin 2) * 256 + 1 * f.val = f.val; rw [e2]; omega
  | ⟨1, _⟩ => show win3_1.index t (1 : Fin 2) * 6144 + 1 * e.val = e.val; rw [e3]; omega

def term (c : Dev nD) (n : ℕ) (f : Fin 256) (e : ℕ) : EReal :=
  if h : n < 12288 ∧ e < 6144 then hmA V c (ix2 ⟨n, h.1⟩ ⟨e, h.2⟩) * gA V c (ix2 f ⟨e, h.2⟩) else 0

def bsum (c : Dev nD) (n : ℕ) (f : Fin 256) (j : ℕ) : EReal := ∑ e : Fin 1536, term V c n f (1536 * j + e.val)

theorem step (c : Dev nD) (t : Fin cfg3.N) (acc : FVec Ideal S1024x256 .f32) (r : Fin 1024) (f : Fin 256) :
    k3_pay2 (F := Ideal) (hblk V c t) (gld (F := Ideal) (grid3.coords t) (gres V c t)) acc (ix2 r f)
      = acc (ix2 r f) + bsum V c (1024 * (t.val / 4) + r.val) f (t.val % 4) := by
  have hN : t.val < 48 := lt_of_lt_of_eq t.isLt (show cfg3.N = 48 from N_3)
  obtain ⟨-, -, -, -, -, -, e6⟩ := idx_facts t
  refine (pay2_apply (hblk V c t) (gld (F := Ideal) (grid3.coords t) (gres V c t)) acc r f).trans ?_
  refine congrArg (acc (ix2 r f) + ·) ?_
  unfold bsum
  refine Finset.sum_congr rfl fun e _ => ?_
  have he : e.val < 1536 := e.isLt
  have hr : r.val < 1024 := r.isLt
  have h0 : 1024 * (t.val / 4) + r.val < 12288 := by omega
  have h1 : 1536 * (t.val % 4) + e.val < 6144 := by omega
  rw [hblk_apply V c t r e h0 h1, gld_apply (grid3.coords t) (gres V c t) f e (t.val % 4) e6 h1, gres_apply V c t f ⟨1536 * (t.val % 4) + e.val, h1⟩]
  unfold term
  rw [dif_pos ⟨h0, h1⟩]

theorem acc_eq (c : Dev nD) : ∀ (n : ℕ) (h : n < cfg3.N) (r : Fin 1024) (f : Fin 256),
    accAt V c n h (ix2 r f) = ∑ j ∈ Finset.range (n % 4 + 1), bsum V c (1024 * (n / 4) + r.val) f j := by
  intro n
  induction n using Nat.strong_induction_on with
  | _ n ih =>
    intro h r f
    have hN : n < 48 := lt_of_lt_of_eq h (show cfg3.N = 48 from N_3)
    by_cases h0 : n % 4 = 0
    · have h1 : ¬n % 4 = 3 := by omega
      show ((outsAt V c (⟨n, h⟩ : Fin cfg3.N).val (⟨n, h⟩ : Fin cfg3.N).isLt).2 : FVec Ideal S1024x256 .f32) (ix2 r f) = _
      rw [outsAt_A V c ⟨n, h⟩ h0 h1]
      dsimp only
      refine (congrFun (sout_A_eq (F := Ideal) c (grid3.coords ⟨n, h⟩) (ms_0 ⟨n, h⟩) (hs_0 ⟨n, h⟩) (ms_1 ⟨n, h⟩) (hs_1 ⟨n, h⟩) (ms_2 ⟨n, h⟩) (hs_2 ⟨n, h⟩) scM_0 (Memref.isWhole_whole _) _ _ (iblk V c 0 ⟨n, h⟩) (iblk V c 1 ⟨n, h⟩)) (ix2 r f)).trans ?_
      refine (step V c ⟨n, h⟩ (k3_pay1 (F := Ideal)) r f).trans ?_
      rw [pay1_apply r f, zero_add, h0, Finset.sum_range_one]
    · by_cases h1 : n % 4 = 3
      · show ((outsAt V c (⟨n, h⟩ : Fin cfg3.N).val (⟨n, h⟩ : Fin cfg3.N).isLt).2 : FVec Ideal S1024x256 .f32) (ix2 r f) = _
        rw [outsAt_C V c ⟨n, h⟩ h0 h1]
        dsimp only
        refine (congrFun (sout_C_eq (F := Ideal) c (grid3.coords ⟨n, h⟩) (ms_0 ⟨n, h⟩) (hs_0 ⟨n, h⟩) (ms_1 ⟨n, h⟩) (hs_1 ⟨n, h⟩) (ms_2 ⟨n, h⟩) (hs_2 ⟨n, h⟩) scM_0 (Memref.isWhole_whole _) _ _ (iblk V c 0 ⟨n, h⟩) (iblk V c 1 ⟨n, h⟩) (outsAt V c (n - 1) (Nat.lt_of_le_of_lt (Nat.sub_le _ _) h)).2) (ix2 r f)).trans ?_
        refine (step V c ⟨n, h⟩ (accAt V c (n - 1) (Nat.lt_of_le_of_lt (Nat.sub_le _ _) h)) r f).trans ?_
        rw [ih (n - 1) (by omega) (Nat.lt_of_le_of_lt (Nat.sub_le _ _) h) r f]
        have e1 : (n - 1) % 4 + 1 = n % 4 := by omega
        have e2 : (n - 1) / 4 = n / 4 := by omega
        show _ + bsum V c (1024 * (n / 4) + r.val) f (n % 4) = _
        rw [e1, e2, Finset.sum_range_succ]
      · show ((outsAt V c (⟨n, h⟩ : Fin cfg3.N).val (⟨n, h⟩ : Fin cfg3.N).isLt).2 : FVec Ideal S1024x256 .f32) (ix2 r f) = _
        rw [outsAt_B V c ⟨n, h⟩ h0 h1]
        dsimp only
        refine (congrFun (sout_B_eq (F := Ideal) c (grid3.coords ⟨n, h⟩) (ms_0 ⟨n, h⟩) (hs_0 ⟨n, h⟩) (ms_1 ⟨n, h⟩) (hs_1 ⟨n, h⟩) (ms_2 ⟨n, h⟩) (hs_2 ⟨n, h⟩) scM_0 (Memref.isWhole_whole _) _ _ (iblk V c 0 ⟨n, h⟩) (iblk V c 1 ⟨n, h⟩) (outsAt V c (n - 1) (Nat.lt_of_le_of_lt (Nat.sub_le _ _) h)).2) (ix2 r f)).trans ?_
        refine (step V c ⟨n, h⟩ (accAt V c (n - 1) (Nat.lt_of_le_of_lt (Nat.sub_le _ _) h)) r f).trans ?_
        rw [ih (n - 1) (by omega) (Nat.lt_of_le_of_lt (Nat.sub_le _ _) h) r f]
        have e1 : (n - 1) % 4 + 1 = n % 4 := by omega
        have e2 : (n - 1) / 4 = n / 4 := by omega
        show _ + bsum V c (1024 * (n / 4) + r.val) f (n % 4) = _
        rw [e1, e2, Finset.sum_range_succ]

theorem bsum_all (c : Dev nD) (n : ℕ) (hn : n < 12288) (f : Fin 256) :
    ∑ j ∈ Finset.range 4, bsum V c n f j = ∑ e : Fin 6144, hmA V c (ix2 ⟨n, hn⟩ e) * gA V c (ix2 f e) := by
  rw [Finset.sum_range]
  refine (Finset.sum_congr rfl fun b _ => Finset.sum_congr rfl fun e _ => ?_).trans
    (Cert.BlockSum.sum_4x1536 (fun e => hmA V c (ix2 ⟨n, hn⟩ e) * gA V c (ix2 f e)))
  have hb : b.val < 4 := b.isLt
  have he : e.val < 1536 := e.isLt
  unfold term
  rw [dif_pos ⟨hn, by omega⟩]

theorem outAt_eq (c : Dev nD) (t : Fin cfg3.N) (h3 : t.val % 4 = 3) :
    outAt V c t.val t.isLt = k3_pay3 (F := Ideal) (accAt V c t.val t.isLt) := by
  have h0 : ¬t.val % 4 = 0 := by omega
  show (outsAt V c t.val t.isLt).1 = k3_pay3 (F := Ideal) (outsAt V c t.val t.isLt).2
  rw [outsAt_C V c t h0 h3]
  dsimp only
  exact (out_C_eq (F := Ideal) c (grid3.coords t) (ms_0 t) (hs_0 t) (ms_1 t) (hs_1 t) (ms_2 t) (hs_2 t) scM_0 (Memref.isWhole_whole _) _ _ (iblk V c 0 t) (iblk V c 1 t) (outsAt V c (t.val - 1) (Nat.lt_of_le_of_lt (Nat.sub_le _ _) t.isLt)).2).trans
    (congrArg (k3_pay3 (F := Ideal)) (sout_C_eq (F := Ideal) c (grid3.coords t) (ms_0 t) (hs_0 t) (ms_1 t) (hs_1 t) (ms_2 t) (hs_2 t) scM_0 (Memref.isWhole_whole _) _ _ (iblk V c 0 t) (iblk V c 1 t) (outsAt V c (t.val - 1) (Nat.lt_of_le_of_lt (Nat.sub_le _ _) t.isLt)).2).symm)

theorem outAt_apply (c : Dev nD) (t : Fin cfg3.N) (h3 : t.val % 4 = 3) (r : Fin 1024) (f : Fin 256)
    (hn : 1024 * (t.val / 4) + r.val < 12288) :
    outAt V c t.val t.isLt (ix2 r f)
      = Cert.HyperAttn.slope (∑ e : Fin 6144, hmA V c (ix2 ⟨1024 * (t.val / 4) + r.val, hn⟩ e) * gA V c (ix2 f e)) := by
  rw [outAt_eq V c t h3, pay3_apply, acc_eq V c t.val t.isLt r f, h3]
  exact congrArg Cert.HyperAttn.slope (bsum_all V c _ hn f)

def G (c : Dev nD) : FVec Ideal S12288x256 .f32 := fun i =>
  Cert.HyperAttn.slope (∑ e : Fin 6144, hmA V c (ix2 (⟨(i 0).val, idx2_lt0 i⟩ : Fin 12288) e) * gA V c (ix2 (⟨(i 1).val, idx2_lt1 i⟩ : Fin 256) e))

theorem flushed_eq (c : Dev nD) (t : Fin cfg3.N) (hf : (cfg3.win 2).flush t = true) :
    (dat (F := Ideal) V c).flushed 2 t = ((cfg3.win 2).blk t).view.read (Elt Ideal) (G V c) := by
  have hN : t.val < 48 := lt_of_lt_of_eq t.isLt (show cfg3.N = 48 from N_3)
  have h3 : t.val % 4 = 3 := (flush3_2 t).mp hf
  obtain ⟨-, -, -, -, e4, e5, -⟩ := idx_facts t
  show (cfg3.win 2).cut (grid3.coords t) ((dat (F := Ideal) V c).after 2 t) = _
  rw [after_2]
  funext y
  obtain ⟨r, f, rfl⟩ : ∃ (r : Fin 1024) (f : Fin 256), y = ix2 r f := ⟨y 0, y 1, eq_ix2 y⟩
  have hr : r.val < 1024 := r.isLt
  have hn : 1024 * (t.val / 4) + r.val < 12288 := by omega
  rw [View.read_apply]
  show outAt V c t.val t.isLt (ix2 r f) = G V c (((cfg3.win 2).blk t).view.emb (ix2 r f))
  rw [outAt_apply V c t h3 r f hn]
  have hi0 : ((((cfg3.win 2).blk t).view.emb (ix2 r f)) 0).val = 1024 * (t.val / 4) + r.val := by
    show win3_2.index t (0 : Fin 2) * 1024 + 1 * r.val = _; rw [e4]; omega
  have hi1 : ((((cfg3.win 2).blk t).view.emb (ix2 r f)) 1).val = f.val := by
    show win3_2.index t (1 : Fin 2) * 256 + 1 * f.val = _; rw [e5]; omega
  unfold G
  refine congrArg Cert.HyperAttn.slope (Finset.sum_congr rfl fun e _ => ?_)
  exact congrArg₂ (· * ·) (congrArg (hmA V c) (congrArg (fun n => ix2 n e) (Fin.ext hi0.symm)))
    (congrArg (gA V c) (congrArg (fun m => ix2 m e) (Fin.ext hi1.symm)))

theorem mem_blk (t : Fin cfg3.N) (i : S12288x256.Idx) :
    i ∈ ((cfg3.win 2).blk t).view.set ↔ ∀ a : Fin 2, win3_2.index t a * S1024x256.size a ≤ (i a).val ∧ (i a).val < win3_2.index t a * S1024x256.size a + S1024x256.size a := by
  show i ∈ ((View.whole main_v9).slice (win3_2.rect t)).set ↔ _
  rw [View.set_slice_whole, Rect.mem_set_unit]
  exact Iff.rfl

theorem cover (i : S12288x256.Idx) :
    ∃ t : Fin cfg3.N, (cfg3.win 2).flush t = true ∧ i ∈ ((cfg3.win 2).blk t).view.set := by
  have hi0 : (i 0).val < 12288 := idx2_lt0 i
  have hi1 : (i 1).val < 256 := idx2_lt1 i
  have hlt : 4 * ((i 0).val / 1024) + 3 < cfg3.N := lt_of_lt_of_eq (by omega : 4 * ((i 0).val / 1024) + 3 < 48) N_3.symm
  refine ⟨⟨4 * ((i 0).val / 1024) + 3, hlt⟩, (flush3_2 _).mpr (by show (4 * ((i 0).val / 1024) + 3) % 4 = 3; omega), ?_⟩
  rw [mem_blk]
  obtain ⟨-, -, -, -, e4, e5, -⟩ := idx_facts ⟨4 * ((i 0).val / 1024) + 3, hlt⟩
  have e4' : win3_2.index ⟨4 * ((i 0).val / 1024) + 3, hlt⟩ (0 : Fin 2) = (i 0).val / 1024 := by rw [e4]; show (4 * ((i 0).val / 1024) + 3) / 4 = _; omega
  intro a
  match a with
  | ⟨0, _⟩ => show win3_2.index _ (0 : Fin 2) * 1024 ≤ (i 0).val ∧ (i 0).val < win3_2.index _ (0 : Fin 2) * 1024 + 1024; rw [e4']; omega
  | ⟨1, _⟩ => show win3_2.index _ (1 : Fin 2) * 256 ≤ (i 1).val ∧ (i 1).val < win3_2.index _ (1 : Fin 2) * 256 + 256; rw [e5]; omega

theorem final (c : Dev nD) : outA V c = G V c :=
  (dat (F := Ideal) V c).arrAt_eq_of_cover 2 (G V c) (flushed_eq V c) cover

theorem out_eq (c : Dev nD) (n : Fin 12288) (f : Fin 256) :
    outA V c (ix2 n f) = Cert.HyperAttn.slope (∑ e : Fin 6144, hmA V c (ix2 n e) * gA V c (ix2 f e)) := by
  rw [final V c]
  rfl

end AtIdeal

end Cert.KernelIdeal.R3

end
-- ==== Proof.KernelValue.lean ====
import proofs.«406483_j14499809591686_3_alg».proof.Proof.MainRun
import proofs.«406483_j14499809591686_3_alg».proof.Proof.HostStretch
import proofs.«406483_j14499809591686_3_alg».proof.Proof.R0Value
import proofs.«406483_j14499809591686_3_alg».proof.Proof.R1Value
import proofs.«406483_j14499809591686_3_alg».proof.Proof.R2Value
import proofs.«406483_j14499809591686_3_alg».proof.Proof.R3Value
import proofs.«406483_j14499809591686_3_alg».proof.Proof.Spec

noncomputable section

namespace Cert.KernelIdeal.KernelValue

open Cert.KernelIdeal Cert.KernelIdeal.Gen Cert.KernelIdeal.MainRun Cert.HyperAttn
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

abbrev xM : FVec Ideal SNK .f32 := m ((c : Thread nD τ).loc main_arg0)
abbrev HM : FVec Ideal SNE .f32 := m ((c : Thread nD τ).loc main_arg1)
abbrev pM : FVec Ideal SKF .f32 := m ((c : Thread nD τ).loc main_arg2)
abbrev a1M : FVec Ideal SF1 .f32 := m ((c : Thread nD τ).loc main_arg3)
abbrev a2M : FVec Ideal SF1 .f32 := m ((c : Thread nD τ).loc main_arg4)
abbrev resA : FVec Ideal SNK .f32 := W5 (F := Ideal) m ρ c (Proc.devRef .tc main_v9)

theorem x_W1 : HostStretch.xA (W1 m ρ c) = xM m c := W1_arg0 m ρ c
theorem p_W1 : HostStretch.pA (W1 m ρ c) = pM m c := W1_arg2 m ρ c
theorem a1_W1 : HostStretch.a1A (W1 m ρ c) = a1M m c := W1_arg3 m ρ c
theorem a2_W1 : HostStretch.a2A (W1 m ρ c) = a2M m c := W1_arg4 m ρ c

theorem he_at (e : Fin 6144) (k : Fin 256) :
    HostStretch.heA (W1 m ρ c) (ix2 e k) = he (xM m c) (HM m c) e k := by
  have h : HostStretch.heA (W1 m ρ c) = R0.outA (V0 m ρ) c := W1_v0 m ρ c
  exact (congrFun h (ix2 e k)).trans (R0.out_eq (V0 m ρ) c e k)

theorem xpb_at (n : Fin 12288) (f : Fin 256) :
    HostStretch.xpbA (W1 m ρ c) (ix2 n f) = xp (xM m c) (pM m c) n f := by
  rw [HostStretch.v6_apply, x_W1, p_W1]
  rfl

theorem s1_at (n : Fin 12288) :
    HostStretch.s1A (W1 m ρ c) (ix2 n 0) = s1 (xM m c) (pM m c) (a1M m c) n := by
  rw [HostStretch.v3_apply, x_W1, p_W1, a1_W1]
  rfl

theorem s2_at (e : Fin 6144) :
    HostStretch.s2A (W1 m ρ c) (ix2 0 e) = s2 (xM m c) (HM m c) (pM m c) (a2M m c) e := by
  rw [HostStretch.v5_apply, p_W1, a2_W1]
  unfold s2 hep
  refine Finset.sum_congr rfl fun f _ => congrArg (· * a2M m c (ix2 f 0)) (Finset.sum_congr rfl fun k _ => ?_)
  rw [he_at]

theorem wv_at (n : Fin 12288) (e : Fin 6144) :
    R1.wv (V2 m ρ) c n e = wgt (xM m c) (HM m c) (pM m c) (a1M m c) (a2M m c) n e := by
  have h1 : R1.s1A (V2 m ρ) c (ix2 n 0) = s1 (xM m c) (pM m c) (a1M m c) n := s1_at m ρ c n
  have h2 : R1.s2A (V2 m ρ) c (ix2 0 e) = s2 (xM m c) (HM m c) (pM m c) (a2M m c) e := s2_at m ρ c e
  have h3 : R1.HA (V2 m ρ) c = HM m c := W2_arg1 m ρ c
  unfold R1.wv wgt
  rw [h1, h2, h3]

theorem hm_at (n : Fin 12288) (e : Fin 6144) :
    R1.outA (V2 m ρ) c (ix2 n e) = hm (xM m c) (HM m c) (pM m c) (a1M m c) (a2M m c) n e := by
  rw [R1.out_eq]
  simp only [wv_at]
  rfl

theorem mix_at (f : Fin 256) (e : Fin 6144) :
    R2.outA (V3 m ρ) c (ix2 f e)
      = edgeMix (hm (xM m c) (HM m c) (pM m c) (a1M m c) (a2M m c)) (xp (xM m c) (pM m c)) f e := by
  have hy : ∀ n : Fin 12288, (V3 m ρ c main_v6 : FVec Ideal S12288x256 .bf16) (ix2 n f) = xp (xM m c) (pM m c) n f := fun n => by
    have h : (V3 m ρ c main_v6 : FVec Ideal S12288x256 .bf16) = HostStretch.xpbA (W1 m ρ c) := W3_v6 m ρ c
    exact (congrFun h (ix2 n f)).trans (xpb_at m ρ c n f)
  have hw : ∀ (n : Fin 12288) (e' : Fin 6144), (V3 m ρ c main_v7 : FVec Ideal S12288x6144 .bf16) (ix2 n e')
      = hm (xM m c) (HM m c) (pM m c) (a1M m c) (a2M m c) n e' := fun n e' => by
    have h : (V3 m ρ c main_v7 : FVec Ideal S12288x6144 .bf16) = R1.outA (V2 m ρ) c := W3_v7 m ρ c
    exact (congrFun h (ix2 n e')).trans (hm_at m ρ c n e')
  refine (R2.out_eq (V3 m ρ) c f e).trans ?_
  unfold edgeMix
  simp only [hy, hw]

theorem result_eq (n : Fin 12288) (f : Fin 256) :
    resA m ρ c (ix2 n f)
      = outK (hm (xM m c) (HM m c) (pM m c) (a1M m c) (a2M m c)) (xp (xM m c) (pM m c)) n f := by
  have hw : ∀ e : Fin 6144, (V4 m ρ c main_v7 : FVec Ideal S12288x6144 .bf16) (ix2 n e)
      = hm (xM m c) (HM m c) (pM m c) (a1M m c) (a2M m c) n e := fun e => by
    have h : (V4 m ρ c main_v7 : FVec Ideal S12288x6144 .bf16) = R1.outA (V2 m ρ) c := W4_v7 m ρ c
    exact (congrFun h (ix2 n e)).trans (hm_at m ρ c n e)
  have ht : ∀ e : Fin 6144, (V4 m ρ c main_v8 : FVec Ideal S256x6144 .bf16) (ix2 f e)
      = edgeMix (hm (xM m c) (HM m c) (pM m c) (a1M m c) (a2M m c)) (xp (xM m c) (pM m c)) f e := fun e => by
    have h : (V4 m ρ c main_v8 : FVec Ideal S256x6144 .bf16) = R2.outA (V3 m ρ) c := W4_v8 m ρ c
    exact (congrFun h (ix2 f e)).trans (mix_at m ρ c f e)
  have hr : resA m ρ c = R3.outA (V4 m ρ) c := W5_v9 m ρ c
  refine (congrFun hr (ix2 n f)).trans ((R3.out_eq (V4 m ρ) c n f).trans ?_)
  unfold outK
  simp only [hw, ht]

end Cert.KernelIdeal.KernelValue

end
-- ==== Proof.RefRead.lean ====
import proofs.«406483_j14499809591686_3_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S12288x256, .f32⟩ : BufTy).Contents (Elt F)) (x1 : (⟨S12288x6144, .f32⟩ : BufTy).Contents (Elt F)) (x2 : (⟨S256x256, .f32⟩ : BufTy).Contents (Elt F))
  (x3 x4 : (⟨S256x1, .f32⟩ : BufTy).Contents (Elt F))

def val_main_v0 : (⟨S6144x12288, .f32⟩ : BufTy).Contents (Elt F) :=
  transpose S6144x12288 [1, 0] (x1) transposes_S12288x6144_S6144x12288_1_0
abbrev idx_main_v0 (i : S6144x12288.Idx) : S12288x6144.Idx := fun a => match a with
  | ⟨0, _⟩ => ⟨(i 1).val, (i 1).isLt⟩
  | ⟨1, _⟩ => ⟨(i 0).val, (i 0).isLt⟩
theorem val_main_v0_apply (i : S6144x12288.Idx) :
    val_main_v0 (F := F) x1 i = x1 (idx_main_v0 i) := by
  unfold val_main_v0
  exact transpose_apply [1, 0] x1 transposes_S12288x6144_S6144x12288_1_0 i (idx_main_v0 i) (fun b => match b with
    | ⟨0, _⟩ => rfl
    | ⟨1, _⟩ => rfl)

def val_main_v1 : (⟨S6144x256, .f32⟩ : BufTy).Contents (Elt F) :=
  Host.dotGeneral dot_S6144x12288_S12288x256_S6144x256_1_0_0_1_n_n none (val_main_v0 (F := F) x1) (x0)
theorem lhs_main_v1_0 (i : S6144x256.Idx) (q : dot_S6144x12288_S12288x256_S6144x256_1_0_0_1_n_n.contr.Idx) :
    (dot_S6144x12288_S12288x256_S6144x256_1_0_0_1_n_n.lhsIdx i q 0).val = (i 0).val := by
  unfold DotDims.lhsIdx
  rw [dif_neg (show ¬(0 : Fin S6144x12288.rank) ∈ dot_S6144x12288_S12288x256_S6144x256_1_0_0_1_n_n.lhsBatch by decide), dif_pos (show (0 : Fin S6144x12288.rank) ∈ dot_S6144x12288_S12288x256_S6144x256_1_0_0_1_n_n.lhsNonContracting by decide)]
  rfl
theorem lhs_main_v1_1 (i : S6144x256.Idx) (q : dot_S6144x12288_S12288x256_S6144x256_1_0_0_1_n_n.contr.Idx) :
    (dot_S6144x12288_S12288x256_S6144x256_1_0_0_1_n_n.lhsIdx i q 1).val = (q ⟨0, by decide⟩).val :=
  dot_S6144x12288_S12288x256_S6144x256_1_0_0_1_n_n.lhsIdx_val_of_single rfl i q
theorem rhs_main_v1_0 (i : S6144x256.Idx) (q : dot_S6144x12288_S12288x256_S6144x256_1_0_0_1_n_n.contr.Idx) :
    (dot_S6144x12288_S12288x256_S6144x256_1_0_0_1_n_n.rhsIdx i q 0).val = (q ⟨0, by decide⟩).val :=
  dot_S6144x12288_S12288x256_S6144x256_1_0_0_1_n_n.rhsIdx_val_of_single rfl i q
theorem rhs_main_v1_1 (i : S6144x256.Idx) (q : dot_S6144x12288_S12288x256_S6144x256_1_0_0_1_n_n.contr.Idx) :
    (dot_S6144x12288_S12288x256_S6144x256_1_0_0_1_n_n.rhsIdx i q 1).val = (i 1).val := by
  unfold DotDims.rhsIdx
  rw [dif_neg (show ¬(1 : Fin S12288x256.rank) ∈ dot_S6144x12288_S12288x256_S6144x256_1_0_0_1_n_n.rhsBatch by decide), dif_pos (show (1 : Fin S12288x256.rank) ∈ dot_S6144x12288_S12288x256_S6144x256_1_0_0_1_n_n.rhsNonContracting by decide)]
  rfl
abbrev lidx_main_v1 (i : S6144x256.Idx) (k : Fin 12288) : S6144x12288.Idx := fun a => match a with
  | ⟨0, _⟩ => ⟨(i 0).val, (i 0).isLt⟩
  | ⟨1, _⟩ => ⟨k.val, k.isLt⟩
abbrev ridx_main_v1 (i : S6144x256.Idx) (k : Fin 12288) : S12288x256.Idx := fun a => match a with
  | ⟨0, _⟩ => ⟨k.val, k.isLt⟩
  | ⟨1, _⟩ => ⟨(i 1).val, (i 1).isLt⟩
theorem val_main_v1_apply (x0 : (⟨S12288x256, .f32⟩ : BufTy).Contents (Elt Ideal)) (x1 : (⟨S12288x6144, .f32⟩ : BufTy).Contents (Elt Ideal)) (i : S6144x256.Idx) :
    val_main_v1 (F := Ideal) x0 x1 i = ∑ k : Fin 12288, (val_main_v0 (F := Ideal) x1) (lidx_main_v1 i k) * x0 (ridx_main_v1 i k) := by
  unfold val_main_v1
  generalize val_main_v0 (F := Ideal) x1 = y0
  simp only [Host.dotGeneral]
  rw [Ideal.dotGeneral_apply, ← Equiv.sum_comp (ValueIdx.contrEquiv1 dot_S6144x12288_S12288x256_S6144x256_1_0_0_1_n_n 12288 rfl rfl).symm]
  refine Finset.sum_congr rfl fun k _ => ?_
  have hk := ValueIdx.contrEquiv1_symm_val dot_S6144x12288_S12288x256_S6144x256_1_0_0_1_n_n 12288 rfl rfl k
  have el : dot_S6144x12288_S12288x256_S6144x256_1_0_0_1_n_n.lhsIdx i ((ValueIdx.contrEquiv1 dot_S6144x12288_S12288x256_S6144x256_1_0_0_1_n_n 12288 rfl rfl).symm k) = lidx_main_v1 i k := funext fun a => Fin.ext (by
    match a with
    | ⟨0, _⟩ => exact lhs_main_v1_0 _ _
    | ⟨1, _⟩ => exact (lhs_main_v1_1 _ _).trans hk)
  have er : dot_S6144x12288_S12288x256_S6144x256_1_0_0_1_n_n.rhsIdx i ((ValueIdx.contrEquiv1 dot_S6144x12288_S12288x256_S6144x256_1_0_0_1_n_n 12288 rfl rfl).symm k) = ridx_main_v1 i k := funext fun a => Fin.ext (by
    match a with
    | ⟨0, _⟩ => exact (rhs_main_v1_0 _ _).trans hk
    | ⟨1, _⟩ => exact rhs_main_v1_1 _ _)
  rw [el, er]

def val_main_cst : (⟨S_, .f32⟩ : BufTy).Contents (Elt F) :=
  constant S_ .f32 0x00000000#32
theorem val_main_cst_apply (i : S_.Idx) :
    val_main_cst (F := F) i = FloatOps.ofBits .f32 0x00000000#32 := rfl

def val_main_v2 : (⟨S6144, .f32⟩ : BufTy).Contents (Elt F) :=
  Host.reduceAdd (val_main_v0 (F := F) x1) (val_main_cst (F := F)) reducesTo_S6144x12288_S6144_d1 h_S_
abbrev idx_main_v2 (i : S6144.Idx) (k : Fin 12288) : S6144x12288.Idx := fun a => match a with
  | ⟨0, _⟩ => ⟨(i 0).val, (i 0).isLt⟩
  | ⟨1, _⟩ => ⟨k.val, k.isLt⟩
theorem val_main_v2_apply (x1 : (⟨S12288x6144, .f32⟩ : BufTy).Contents (Elt Ideal)) (i : S6144.Idx) :
    val_main_v2 (F := Ideal) x1 i = (val_main_cst (F := Ideal)) (Shape.Idx.first h_S_) + ∑ k : Fin 12288, (val_main_v0 (F := Ideal) x1) (idx_main_v2 i k) := by
  unfold val_main_v2
  generalize val_main_v0 (F := Ideal) x1 = y0
  simp only [Host.reduceAdd, Ideal.hostReduceAdd_def]
  rw [Ideal.hostReduceAdd_single reducesTo_S6144x12288_S6144_d1 (by decide)]
  refine congrArg (_ + ·) (Finset.sum_congr rfl fun k _ => ?_)
  exact congrArg y0 (funext fun a => Fin.ext (by match a with | ⟨0, _⟩ => rfl | ⟨1, _⟩ => rfl))

def val_main_v3 : (⟨S6144x1, .f32⟩ : BufTy).Contents (Elt F) :=
  broadcastInDim S6144x1 ![0] bcast_S6144_S6144x1_0 (val_main_v2 (F := F) x1)
abbrev idx_main_v3 (i : S6144x1.Idx) : S6144.Idx := fun a => match a with
  | ⟨0, _⟩ => ⟨(i 0).val, (i 0).isLt⟩
theorem val_main_v3_apply (i : S6144x1.Idx) :
    val_main_v3 (F := F) x1 i = val_main_v2 (F := F) x1 (idx_main_v3 i) := by
  unfold val_main_v3
  generalize val_main_v2 (F := F) x1 = y
  exact broadcastInDim_apply _ bcast_S6144_S6144x1_0 y i (idx_main_v3 i) (fun a => match a with
    | ⟨0, _⟩ => by show (i 0).val = if (6144 : Nat) = 1 then 0 else (i 0).val; rw [if_neg (by decide)])

def val_main_v4 : (⟨S6144x256, .f32⟩ : BufTy).Contents (Elt F) :=
  broadcastInDim S6144x256 ![0, 1] bcast_S6144x1_S6144x256_0_1 (val_main_v3 (F := F) x1)
abbrev idx_main_v4 (i : S6144x256.Idx) : S6144x1.Idx := fun a => match a with
  | ⟨0, _⟩ => ⟨(i 0).val, (i 0).isLt⟩
  | ⟨1, _⟩ => ⟨0, Nat.one_pos⟩
theorem val_main_v4_apply (i : S6144x256.Idx) :
    val_main_v4 (F := F) x1 i = val_main_v3 (F := F) x1 (idx_main_v4 i) := by
  unfold val_main_v4
  generalize val_main_v3 (F := F) x1 = y
  exact broadcastInDim_apply _ bcast_S6144x1_S6144x256_0_1 y i (idx_main_v4 i) (fun a => match a with
    | ⟨0, _⟩ => by show (i 0).val = if (6144 : Nat) = 1 then 0 else (i 0).val; rw [if_neg (by decide)]
    | ⟨1, _⟩ => by show 0 = if (1 : Nat) = 1 then 0 else (i 1).val; rw [if_pos rfl])

def val_main_v5 : (⟨S6144x256, .f32⟩ : BufTy).Contents (Elt F) :=
  Host.divf (val_main_v1 (F := F) x0 x1) (val_main_v4 (F := F) x1)
theorem val_main_v5_apply (i : S6144x256.Idx) :
    val_main_v5 (F := F) x0 x1 i = FloatOps.hostDivf (val_main_v1 (F := F) x0 x1 i) (val_main_v4 (F := F) x1 i) := rfl

def val_main_v6 : (⟨S12288x256, .f32⟩ : BufTy).Contents (Elt F) :=
  Host.dotGeneral dot_S12288x256_S256x256_S12288x256_1_0_0_1_n_n none (x0) (x2)
theorem lhs_main_v6_0 (i : S12288x256.Idx) (q : dot_S12288x256_S256x256_S12288x256_1_0_0_1_n_n.contr.Idx) :
    (dot_S12288x256_S256x256_S12288x256_1_0_0_1_n_n.lhsIdx i q 0).val = (i 0).val := by
  unfold DotDims.lhsIdx
  rw [dif_neg (show ¬(0 : Fin S12288x256.rank) ∈ dot_S12288x256_S256x256_S12288x256_1_0_0_1_n_n.lhsBatch by decide), dif_pos (show (0 : Fin S12288x256.rank) ∈ dot_S12288x256_S256x256_S12288x256_1_0_0_1_n_n.lhsNonContracting by decide)]
  rfl
theorem lhs_main_v6_1 (i : S12288x256.Idx) (q : dot_S12288x256_S256x256_S12288x256_1_0_0_1_n_n.contr.Idx) :
    (dot_S12288x256_S256x256_S12288x256_1_0_0_1_n_n.lhsIdx i q 1).val = (q ⟨0, by decide⟩).val :=
  dot_S12288x256_S256x256_S12288x256_1_0_0_1_n_n.lhsIdx_val_of_single rfl i q
theorem rhs_main_v6_0 (i : S12288x256.Idx) (q : dot_S12288x256_S256x256_S12288x256_1_0_0_1_n_n.contr.Idx) :
    (dot_S12288x256_S256x256_S12288x256_1_0_0_1_n_n.rhsIdx i q 0).val = (q ⟨0, by decide⟩).val :=
  dot_S12288x256_S256x256_S12288x256_1_0_0_1_n_n.rhsIdx_val_of_single rfl i q
theorem rhs_main_v6_1 (i : S12288x256.Idx) (q : dot_S12288x256_S256x256_S12288x256_1_0_0_1_n_n.contr.Idx) :
    (dot_S12288x256_S256x256_S12288x256_1_0_0_1_n_n.rhsIdx i q 1).val = (i 1).val := by
  unfold DotDims.rhsIdx
  rw [dif_neg (show ¬(1 : Fin S256x256.rank) ∈ dot_S12288x256_S256x256_S12288x256_1_0_0_1_n_n.rhsBatch by decide), dif_pos (show (1 : Fin S256x256.rank) ∈ dot_S12288x256_S256x256_S12288x256_1_0_0_1_n_n.rhsNonContracting by decide)]
  rfl
abbrev lidx_main_v6 (i : S12288x256.Idx) (k : Fin 256) : S12288x256.Idx := fun a => match a with
  | ⟨0, _⟩ => ⟨(i 0).val, (i 0).isLt⟩
  | ⟨1, _⟩ => ⟨k.val, k.isLt⟩
abbrev ridx_main_v6 (i : S12288x256.Idx) (k : Fin 256) : S256x256.Idx := fun a => match a with
  | ⟨0, _⟩ => ⟨k.val, k.isLt⟩
  | ⟨1, _⟩ => ⟨(i 1).val, (i 1).isLt⟩
theorem val_main_v6_apply (x0 : (⟨S12288x256, .f32⟩ : BufTy).Contents (Elt Ideal)) (x2 : (⟨S256x256, .f32⟩ : BufTy).Contents (Elt Ideal)) (i : S12288x256.Idx) :
    val_main_v6 (F := Ideal) x0 x2 i = ∑ k : Fin 256, x0 (lidx_main_v6 i k) * x2 (ridx_main_v6 i k) := by
  unfold val_main_v6
  simp only [Host.dotGeneral]
  rw [Ideal.dotGeneral_apply, ← Equiv.sum_comp (ValueIdx.contrEquiv1 dot_S12288x256_S256x256_S12288x256_1_0_0_1_n_n 256 rfl rfl).symm]
  refine Finset.sum_congr rfl fun k _ => ?_
  have hk := ValueIdx.contrEquiv1_symm_val dot_S12288x256_S256x256_S12288x256_1_0_0_1_n_n 256 rfl rfl k
  have el : dot_S12288x256_S256x256_S12288x256_1_0_0_1_n_n.lhsIdx i ((ValueIdx.contrEquiv1 dot_S12288x256_S256x256_S12288x256_1_0_0_1_n_n 256 rfl rfl).symm k) = lidx_main_v6 i k := funext fun a => Fin.ext (by
    match a with
    | ⟨0, _⟩ => exact lhs_main_v6_0 _ _
    | ⟨1, _⟩ => exact (lhs_main_v6_1 _ _).trans hk)
  have er : dot_S12288x256_S256x256_S12288x256_1_0_0_1_n_n.rhsIdx i ((ValueIdx.contrEquiv1 dot_S12288x256_S256x256_S12288x256_1_0_0_1_n_n 256 rfl rfl).symm k) = ridx_main_v6 i k := funext fun a => Fin.ext (by
    match a with
    | ⟨0, _⟩ => exact (rhs_main_v6_0 _ _).trans hk
    | ⟨1, _⟩ => exact rhs_main_v6_1 _ _)
  rw [el, er]

def val_main_v7 : (⟨S6144x256, .f32⟩ : BufTy).Contents (Elt F) :=
  Host.dotGeneral dot_S6144x256_S256x256_S6144x256_1_0_0_1_n_n none (val_main_v5 (F := F) x0 x1) (x2)
theorem lhs_main_v7_0 (i : S6144x256.Idx) (q : dot_S6144x256_S256x256_S6144x256_1_0_0_1_n_n.contr.Idx) :
    (dot_S6144x256_S256x256_S6144x256_1_0_0_1_n_n.lhsIdx i q 0).val = (i 0).val := by
  unfold DotDims.lhsIdx
  rw [dif_neg (show ¬(0 : Fin S6144x256.rank) ∈ dot_S6144x256_S256x256_S6144x256_1_0_0_1_n_n.lhsBatch by decide), dif_pos (show (0 : Fin S6144x256.rank) ∈ dot_S6144x256_S256x256_S6144x256_1_0_0_1_n_n.lhsNonContracting by decide)]
  rfl
theorem lhs_main_v7_1 (i : S6144x256.Idx) (q : dot_S6144x256_S256x256_S6144x256_1_0_0_1_n_n.contr.Idx) :
    (dot_S6144x256_S256x256_S6144x256_1_0_0_1_n_n.lhsIdx i q 1).val = (q ⟨0, by decide⟩).val :=
  dot_S6144x256_S256x256_S6144x256_1_0_0_1_n_n.lhsIdx_val_of_single rfl i q
theorem rhs_main_v7_0 (i : S6144x256.Idx) (q : dot_S6144x256_S256x256_S6144x256_1_0_0_1_n_n.contr.Idx) :
    (dot_S6144x256_S256x256_S6144x256_1_0_0_1_n_n.rhsIdx i q 0).val = (q ⟨0, by decide⟩).val :=
  dot_S6144x256_S256x256_S6144x256_1_0_0_1_n_n.rhsIdx_val_of_single rfl i q
theorem rhs_main_v7_1 (i : S6144x256.Idx) (q : dot_S6144x256_S256x256_S6144x256_1_0_0_1_n_n.contr.Idx) :
    (dot_S6144x256_S256x256_S6144x256_1_0_0_1_n_n.rhsIdx i q 1).val = (i 1).val := by
  unfold DotDims.rhsIdx
  rw [dif_neg (show ¬(1 : Fin S256x256.rank) ∈ dot_S6144x256_S256x256_S6144x256_1_0_0_1_n_n.rhsBatch by decide), dif_pos (show (1 : Fin S256x256.rank) ∈ dot_S6144x256_S256x256_S6144x256_1_0_0_1_n_n.rhsNonContracting by decide)]
  rfl
abbrev lidx_main_v7 (i : S6144x256.Idx) (k : Fin 256) : S6144x256.Idx := fun a => match a with
  | ⟨0, _⟩ => ⟨(i 0).val, (i 0).isLt⟩
  | ⟨1, _⟩ => ⟨k.val, k.isLt⟩
abbrev ridx_main_v7 (i : S6144x256.Idx) (k : Fin 256) : S256x256.Idx := fun a => match a with
  | ⟨0, _⟩ => ⟨k.val, k.isLt⟩
  | ⟨1, _⟩ => ⟨(i 1).val, (i 1).isLt⟩
theorem val_main_v7_apply (x0 : (⟨S12288x256, .f32⟩ : BufTy).Contents (Elt Ideal)) (x1 : (⟨S12288x6144, .f32⟩ : BufTy).Contents (Elt Ideal)) (x2 : (⟨S256x256, .f32⟩ : BufTy).Contents (Elt Ideal)) (i : S6144x256.Idx) :
    val_main_v7 (F := Ideal) x0 x1 x2 i = ∑ k : Fin 256, (val_main_v5 (F := Ideal) x0 x1) (lidx_main_v7 i k) * x2 (ridx_main_v7 i k) := by
  unfold val_main_v7
  generalize val_main_v5 (F := Ideal) x0 x1 = y0
  simp only [Host.dotGeneral]
  rw [Ideal.dotGeneral_apply, ← Equiv.sum_comp (ValueIdx.contrEquiv1 dot_S6144x256_S256x256_S6144x256_1_0_0_1_n_n 256 rfl rfl).symm]
  refine Finset.sum_congr rfl fun k _ => ?_
  have hk := ValueIdx.contrEquiv1_symm_val dot_S6144x256_S256x256_S6144x256_1_0_0_1_n_n 256 rfl rfl k
  have el : dot_S6144x256_S256x256_S6144x256_1_0_0_1_n_n.lhsIdx i ((ValueIdx.contrEquiv1 dot_S6144x256_S256x256_S6144x256_1_0_0_1_n_n 256 rfl rfl).symm k) = lidx_main_v7 i k := funext fun a => Fin.ext (by
    match a with
    | ⟨0, _⟩ => exact lhs_main_v7_0 _ _
    | ⟨1, _⟩ => exact (lhs_main_v7_1 _ _).trans hk)
  have er : dot_S6144x256_S256x256_S6144x256_1_0_0_1_n_n.rhsIdx i ((ValueIdx.contrEquiv1 dot_S6144x256_S256x256_S6144x256_1_0_0_1_n_n 256 rfl rfl).symm k) = ridx_main_v7 i k := funext fun a => Fin.ext (by
    match a with
    | ⟨0, _⟩ => exact (rhs_main_v7_0 _ _).trans hk
    | ⟨1, _⟩ => exact rhs_main_v7_1 _ _)
  rw [el, er]

def val_main_v8 : (⟨S12288x1, .f32⟩ : BufTy).Contents (Elt F) :=
  Host.dotGeneral dot_S12288x256_S256x1_S12288x1_1_0_0_1_n_n none (val_main_v6 (F := F) x0 x2) (x3)
theorem lhs_main_v8_0 (i : S12288x1.Idx) (q : dot_S12288x256_S256x1_S12288x1_1_0_0_1_n_n.contr.Idx) :
    (dot_S12288x256_S256x1_S12288x1_1_0_0_1_n_n.lhsIdx i q 0).val = (i 0).val := by
  unfold DotDims.lhsIdx
  rw [dif_neg (show ¬(0 : Fin S12288x256.rank) ∈ dot_S12288x256_S256x1_S12288x1_1_0_0_1_n_n.lhsBatch by decide), dif_pos (show (0 : Fin S12288x256.rank) ∈ dot_S12288x256_S256x1_S12288x1_1_0_0_1_n_n.lhsNonContracting by decide)]
  rfl
theorem lhs_main_v8_1 (i : S12288x1.Idx) (q : dot_S12288x256_S256x1_S12288x1_1_0_0_1_n_n.contr.Idx) :
    (dot_S12288x256_S256x1_S12288x1_1_0_0_1_n_n.lhsIdx i q 1).val = (q ⟨0, by decide⟩).val :=
  dot_S12288x256_S256x1_S12288x1_1_0_0_1_n_n.lhsIdx_val_of_single rfl i q
theorem rhs_main_v8_0 (i : S12288x1.Idx) (q : dot_S12288x256_S256x1_S12288x1_1_0_0_1_n_n.contr.Idx) :
    (dot_S12288x256_S256x1_S12288x1_1_0_0_1_n_n.rhsIdx i q 0).val = (q ⟨0, by decide⟩).val :=
  dot_S12288x256_S256x1_S12288x1_1_0_0_1_n_n.rhsIdx_val_of_single rfl i q
theorem rhs_main_v8_1 (i : S12288x1.Idx) (q : dot_S12288x256_S256x1_S12288x1_1_0_0_1_n_n.contr.Idx) :
    (dot_S12288x256_S256x1_S12288x1_1_0_0_1_n_n.rhsIdx i q 1).val = (i 1).val := by
  unfold DotDims.rhsIdx
  rw [dif_neg (show ¬(1 : Fin S256x1.rank) ∈ dot_S12288x256_S256x1_S12288x1_1_0_0_1_n_n.rhsBatch by decide), dif_pos (show (1 : Fin S256x1.rank) ∈ dot_S12288x256_S256x1_S12288x1_1_0_0_1_n_n.rhsNonContracting by decide)]
  rfl
abbrev lidx_main_v8 (i : S12288x1.Idx) (k : Fin 256) : S12288x256.Idx := fun a => match a with
  | ⟨0, _⟩ => ⟨(i 0).val, (i 0).isLt⟩
  | ⟨1, _⟩ => ⟨k.val, k.isLt⟩
abbrev ridx_main_v8 (i : S12288x1.Idx) (k : Fin 256) : S256x1.Idx := fun a => match a with
  | ⟨0, _⟩ => ⟨k.val, k.isLt⟩
  | ⟨1, _⟩ => ⟨(i 1).val, (i 1).isLt⟩
theorem val_main_v8_apply (x0 : (⟨S12288x256, .f32⟩ : BufTy).Contents (Elt Ideal)) (x2 : (⟨S256x256, .f32⟩ : BufTy).Contents (Elt Ideal)) (x3 : (⟨S256x1, .f32⟩ : BufTy).Contents (Elt Ideal)) (i : S12288x1.Idx) :
    val_main_v8 (F := Ideal) x0 x2 x3 i = ∑ k : Fin 256, (val_main_v6 (F := Ideal) x0 x2) (lidx_main_v8 i k) * x3 (ridx_main_v8 i k) := by
  unfold val_main_v8
  generalize val_main_v6 (F := Ideal) x0 x2 = y0
  simp only [Host.dotGeneral]
  rw [Ideal.dotGeneral_apply, ← Equiv.sum_comp (ValueIdx.contrEquiv1 dot_S12288x256_S256x1_S12288x1_1_0_0_1_n_n 256 rfl rfl).symm]
  refine Finset.sum_congr rfl fun k _ => ?_
  have hk := ValueIdx.contrEquiv1_symm_val dot_S12288x256_S256x1_S12288x1_1_0_0_1_n_n 256 rfl rfl k
  have el : dot_S12288x256_S256x1_S12288x1_1_0_0_1_n_n.lhsIdx i ((ValueIdx.contrEquiv1 dot_S12288x256_S256x1_S12288x1_1_0_0_1_n_n 256 rfl rfl).symm k) = lidx_main_v8 i k := funext fun a => Fin.ext (by
    match a with
    | ⟨0, _⟩ => exact lhs_main_v8_0 _ _
    | ⟨1, _⟩ => exact (lhs_main_v8_1 _ _).trans hk)
  have er : dot_S12288x256_S256x1_S12288x1_1_0_0_1_n_n.rhsIdx i ((ValueIdx.contrEquiv1 dot_S12288x256_S256x1_S12288x1_1_0_0_1_n_n 256 rfl rfl).symm k) = ridx_main_v8 i k := funext fun a => Fin.ext (by
    match a with
    | ⟨0, _⟩ => exact (rhs_main_v8_0 _ _).trans hk
    | ⟨1, _⟩ => exact rhs_main_v8_1 _ _)
  rw [el, er]

def val_main_v9 : (⟨S6144x1, .f32⟩ : BufTy).Contents (Elt F) :=
  Host.dotGeneral dot_S6144x256_S256x1_S6144x1_1_0_0_1_n_n none (val_main_v7 (F := F) x0 x1 x2) (x4)
theorem lhs_main_v9_0 (i : S6144x1.Idx) (q : dot_S6144x256_S256x1_S6144x1_1_0_0_1_n_n.contr.Idx) :
    (dot_S6144x256_S256x1_S6144x1_1_0_0_1_n_n.lhsIdx i q 0).val = (i 0).val := by
  unfold DotDims.lhsIdx
  rw [dif_neg (show ¬(0 : Fin S6144x256.rank) ∈ dot_S6144x256_S256x1_S6144x1_1_0_0_1_n_n.lhsBatch by decide), dif_pos (show (0 : Fin S6144x256.rank) ∈ dot_S6144x256_S256x1_S6144x1_1_0_0_1_n_n.lhsNonContracting by decide)]
  rfl
theorem lhs_main_v9_1 (i : S6144x1.Idx) (q : dot_S6144x256_S256x1_S6144x1_1_0_0_1_n_n.contr.Idx) :
    (dot_S6144x256_S256x1_S6144x1_1_0_0_1_n_n.lhsIdx i q 1).val = (q ⟨0, by decide⟩).val :=
  dot_S6144x256_S256x1_S6144x1_1_0_0_1_n_n.lhsIdx_val_of_single rfl i q
theorem rhs_main_v9_0 (i : S6144x1.Idx) (q : dot_S6144x256_S256x1_S6144x1_1_0_0_1_n_n.contr.Idx) :
    (dot_S6144x256_S256x1_S6144x1_1_0_0_1_n_n.rhsIdx i q 0).val = (q ⟨0, by decide⟩).val :=
  dot_S6144x256_S256x1_S6144x1_1_0_0_1_n_n.rhsIdx_val_of_single rfl i q
theorem rhs_main_v9_1 (i : S6144x1.Idx) (q : dot_S6144x256_S256x1_S6144x1_1_0_0_1_n_n.contr.Idx) :
    (dot_S6144x256_S256x1_S6144x1_1_0_0_1_n_n.rhsIdx i q 1).val = (i 1).val := by
  unfold DotDims.rhsIdx
  rw [dif_neg (show ¬(1 : Fin S256x1.rank) ∈ dot_S6144x256_S256x1_S6144x1_1_0_0_1_n_n.rhsBatch by decide), dif_pos (show (1 : Fin S256x1.rank) ∈ dot_S6144x256_S256x1_S6144x1_1_0_0_1_n_n.rhsNonContracting by decide)]
  rfl
abbrev lidx_main_v9 (i : S6144x1.Idx) (k : Fin 256) : S6144x256.Idx := fun a => match a with
  | ⟨0, _⟩ => ⟨(i 0).val, (i 0).isLt⟩
  | ⟨1, _⟩ => ⟨k.val, k.isLt⟩
abbrev ridx_main_v9 (i : S6144x1.Idx) (k : Fin 256) : S256x1.Idx := fun a => match a with
  | ⟨0, _⟩ => ⟨k.val, k.isLt⟩
  | ⟨1, _⟩ => ⟨(i 1).val, (i 1).isLt⟩
theorem val_main_v9_apply (x0 : (⟨S12288x256, .f32⟩ : BufTy).Contents (Elt Ideal)) (x1 : (⟨S12288x6144, .f32⟩ : BufTy).Contents (Elt Ideal)) (x2 : (⟨S256x256, .f32⟩ : BufTy).Contents (Elt Ideal)) (x4 : (⟨S256x1, .f32⟩ : BufTy).Contents (Elt Ideal)) (i : S6144x1.Idx) :
    val_main_v9 (F := Ideal) x0 x1 x2 x4 i = ∑ k : Fin 256, (val_main_v7 (F := Ideal) x0 x1 x2) (lidx_main_v9 i k) * x4 (ridx_main_v9 i k) := by
  unfold val_main_v9
  generalize val_main_v7 (F := Ideal) x0 x1 x2 = y0
  simp only [Host.dotGeneral]
  rw [Ideal.dotGeneral_apply, ← Equiv.sum_comp (ValueIdx.contrEquiv1 dot_S6144x256_S256x1_S6144x1_1_0_0_1_n_n 256 rfl rfl).symm]
  refine Finset.sum_congr rfl fun k _ => ?_
  have hk := ValueIdx.contrEquiv1_symm_val dot_S6144x256_S256x1_S6144x1_1_0_0_1_n_n 256 rfl rfl k
  have el : dot_S6144x256_S256x1_S6144x1_1_0_0_1_n_n.lhsIdx i ((ValueIdx.contrEquiv1 dot_S6144x256_S256x1_S6144x1_1_0_0_1_n_n 256 rfl rfl).symm k) = lidx_main_v9 i k := funext fun a => Fin.ext (by
    match a with
    | ⟨0, _⟩ => exact lhs_main_v9_0 _ _
    | ⟨1, _⟩ => exact (lhs_main_v9_1 _ _).trans hk)
  have er : dot_S6144x256_S256x1_S6144x1_1_0_0_1_n_n.rhsIdx i ((ValueIdx.contrEquiv1 dot_S6144x256_S256x1_S6144x1_1_0_0_1_n_n 256 rfl rfl).symm k) = ridx_main_v9 i k := funext fun a => Fin.ext (by
    match a with
    | ⟨0, _⟩ => exact (rhs_main_v9_0 _ _).trans hk
    | ⟨1, _⟩ => exact rhs_main_v9_1 _ _)
  rw [el, er]

def val_main_v10 : (⟨S1x6144, .f32⟩ : BufTy).Contents (Elt F) :=
  transpose S1x6144 [1, 0] (val_main_v9 (F := F) x0 x1 x2 x4) transposes_S6144x1_S1x6144_1_0
abbrev idx_main_v10 (i : S1x6144.Idx) : S6144x1.Idx := fun a => match a with
  | ⟨0, _⟩ => ⟨(i 1).val, (i 1).isLt⟩
  | ⟨1, _⟩ => ⟨(i 0).val, (i 0).isLt⟩
theorem val_main_v10_apply (i : S1x6144.Idx) :
    val_main_v10 (F := F) x0 x1 x2 x4 i = val_main_v9 (F := F) x0 x1 x2 x4 (idx_main_v10 i) := by
  unfold val_main_v10
  generalize val_main_v9 (F := F) x0 x1 x2 x4 = y
  exact transpose_apply [1, 0] y transposes_S6144x1_S1x6144_1_0 i (idx_main_v10 i) (fun b => match b with
    | ⟨0, _⟩ => rfl
    | ⟨1, _⟩ => rfl)

def val_main_v11 : (⟨S12288x6144, .f32⟩ : BufTy).Contents (Elt F) :=
  broadcastInDim S12288x6144 ![0, 1] bcast_S12288x1_S12288x6144_0_1 (val_main_v8 (F := F) x0 x2 x3)
abbrev idx_main_v11 (i : S12288x6144.Idx) : S12288x1.Idx := fun a => match a with
  | ⟨0, _⟩ => ⟨(i 0).val, (i 0).isLt⟩
  | ⟨1, _⟩ => ⟨0, Nat.one_pos⟩
theorem val_main_v11_apply (i : S12288x6144.Idx) :
    val_main_v11 (F := F) x0 x2 x3 i = val_main_v8 (F := F) x0 x2 x3 (idx_main_v11 i) := by
  unfold val_main_v11
  generalize val_main_v8 (F := F) x0 x2 x3 = y
  exact broadcastInDim_apply _ bcast_S12288x1_S12288x6144_0_1 y i (idx_main_v11 i) (fun a => match a with
    | ⟨0, _⟩ => by show (i 0).val = if (12288 : Nat) = 1 then 0 else (i 0).val; rw [if_neg (by decide)]
    | ⟨1, _⟩ => by show 0 = if (1 : Nat) = 1 then 0 else (i 1).val; rw [if_pos rfl])

def val_main_v12 : (⟨S12288x6144, .f32⟩ : BufTy).Contents (Elt F) :=
  broadcastInDim S12288x6144 ![0, 1] bcast_S1x6144_S12288x6144_0_1 (val_main_v10 (F := F) x0 x1 x2 x4)
abbrev idx_main_v12 (i : S12288x6144.Idx) : S1x6144.Idx := fun a => match a with
  | ⟨0, _⟩ => ⟨0, Nat.one_pos⟩
  | ⟨1, _⟩ => ⟨(i 1).val, (i 1).isLt⟩
theorem val_main_v12_apply (i : S12288x6144.Idx) :
    val_main_v12 (F := F) x0 x1 x2 x4 i = val_main_v10 (F := F) x0 x1 x2 x4 (idx_main_v12 i) := by
  unfold val_main_v12
  generalize val_main_v10 (F := F) x0 x1 x2 x4 = y
  exact broadcastInDim_apply _ bcast_S1x6144_S12288x6144_0_1 y i (idx_main_v12 i) (fun a => match a with
    | ⟨0, _⟩ => by show 0 = if (1 : Nat) = 1 then 0 else (i 0).val; rw [if_pos rfl]
    | ⟨1, _⟩ => by show (i 1).val = if (6144 : Nat) = 1 then 0 else (i 1).val; rw [if_neg (by decide)])

def val_main_v13 : (⟨S12288x6144, .f32⟩ : BufTy).Contents (Elt F) :=
  addf (val_main_v11 (F := F) x0 x2 x3) (val_main_v12 (F := F) x0 x1 x2 x4)
theorem val_main_v13_apply (i : S12288x6144.Idx) :
    val_main_v13 (F := F) x0 x1 x2 x3 x4 i = FloatOps.addf (val_main_v11 (F := F) x0 x2 x3 i) (val_main_v12 (F := F) x0 x1 x2 x4 i) := rfl

def val_main_cst_0 : (⟨S_, .f32⟩ : BufTy).Contents (Elt F) :=
  constant S_ .f32 0x41000000#32
theorem val_main_cst_0_apply (i : S_.Idx) :
    val_main_cst_0 (F := F) i = FloatOps.ofBits .f32 0x41000000#32 := rfl

def val_main_v14 : (⟨S12288x6144, .f32⟩ : BufTy).Contents (Elt F) :=
  broadcastInDim S12288x6144 ![] bcast_S_S12288x6144 (val_main_cst_0 (F := F))
abbrev idx_main_v14 (i : S12288x6144.Idx) : S_.Idx := fun a => a.elim0
theorem val_main_v14_apply (i : S12288x6144.Idx) :
    val_main_v14 (F := F) i = val_main_cst_0 (F := F) (idx_main_v14 i) := by
  unfold val_main_v14
  generalize val_main_cst_0 (F := F) = y
  exact broadcastInDim_apply _ bcast_S_S12288x6144 y i (idx_main_v14 i) (fun a => a.elim0)

def val_main_v15 : (⟨S12288x6144, .f32⟩ : BufTy).Contents (Elt F) :=
  Host.divf (val_main_v13 (F := F) x0 x1 x2 x3 x4) (val_main_v14 (F := F))
theorem val_main_v15_apply (i : S12288x6144.Idx) :
    val_main_v15 (F := F) x0 x1 x2 x3 x4 i = FloatOps.hostDivf (val_main_v13 (F := F) x0 x1 x2 x3 x4 i) (val_main_v14 (F := F) i) := rfl

def val_main_v16 : (⟨S12288x6144, .f32⟩ : BufTy).Contents (Elt F) :=
  Host.tanh (val_main_v15 (F := F) x0 x1 x2 x3 x4)
theorem val_main_v16_apply (i : S12288x6144.Idx) :
    val_main_v16 (F := F) x0 x1 x2 x3 x4 i = FloatOps.hostUnary .tanh (val_main_v15 (F := F) x0 x1 x2 x3 x4 i) := rfl

def val_main_cst_1 : (⟨S_, .f32⟩ : BufTy).Contents (Elt F) :=
  constant S_ .f32 0x41000000#32
theorem val_main_cst_1_apply (i : S_.Idx) :
    val_main_cst_1 (F := F) i = FloatOps.ofBits .f32 0x41000000#32 := rfl

def val_main_v17 : (⟨S12288x6144, .f32⟩ : BufTy).Contents (Elt F) :=
  broadcastInDim S12288x6144 ![] bcast_S_S12288x6144 (val_main_cst_1 (F := F))
abbrev idx_main_v17 (i : S12288x6144.Idx) : S_.Idx := fun a => a.elim0
theorem val_main_v17_apply (i : S12288x6144.Idx) :
    val_main_v17 (F := F) i = val_main_cst_1 (F := F) (idx_main_v17 i) := by
  unfold val_main_v17
  generalize val_main_cst_1 (F := F) = y
  exact broadcastInDim_apply _ bcast_S_S12288x6144 y i (idx_main_v17 i) (fun a => a.elim0)

def val_main_v18 : (⟨S12288x6144, .f32⟩ : BufTy).Contents (Elt F) :=
  mulf (val_main_v16 (F := F) x0 x1 x2 x3 x4) (val_main_v17 (F := F))
theorem val_main_v18_apply (i : S12288x6144.Idx) :
    val_main_v18 (F := F) x0 x1 x2 x3 x4 i = FloatOps.mulf (val_main_v16 (F := F) x0 x1 x2 x3 x4 i) (val_main_v17 (F := F) i) := rfl

def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl

def val_main_v19 : (⟨S12288x6144, .f32⟩ : BufTy).Contents (Elt F) :=
  broadcastInDim S12288x6144 ![] bcast_S_S12288x6144 (val_main_cst_2 (F := F))
abbrev idx_main_v19 (i : S12288x6144.Idx) : S_.Idx := fun a => a.elim0
theorem val_main_v19_apply (i : S12288x6144.Idx) :
    val_main_v19 (F := F) i = val_main_cst_2 (F := F) (idx_main_v19 i) := by
  unfold val_main_v19
  generalize val_main_cst_2 (F := F) = y
  exact broadcastInDim_apply _ bcast_S_S12288x6144 y i (idx_main_v19 i) (fun a => a.elim0)

def val_main_v20 : (⟨S12288x6144, .i1⟩ : BufTy).Contents (Elt F) :=
  cmpf .oge (val_main_v18 (F := F) x0 x1 x2 x3 x4) (val_main_v19 (F := F))
theorem val_main_v20_apply (i : S12288x6144.Idx) :
    val_main_v20 (F := F) x0 x1 x2 x3 x4 i = FloatOps.cmpf .oge (val_main_v18 (F := F) x0 x1 x2 x3 x4 i) (val_main_v19 (F := F) i) := rfl

def val_main_cst_3 : (⟨S_, .f32⟩ : BufTy).Contents (Elt F) :=
  constant S_ .f32 0x3DCCCCCD#32
theorem val_main_cst_3_apply (i : S_.Idx) :
    val_main_cst_3 (F := F) i = FloatOps.ofBits .f32 0x3DCCCCCD#32 := rfl

def val_main_v21 : (⟨S12288x6144, .f32⟩ : BufTy).Contents (Elt F) :=
  broadcastInDim S12288x6144 ![] bcast_S_S12288x6144 (val_main_cst_3 (F := F))
abbrev idx_main_v21 (i : S12288x6144.Idx) : S_.Idx := fun a => a.elim0
theorem val_main_v21_apply (i : S12288x6144.Idx) :
    val_main_v21 (F := F) i = val_main_cst_3 (F := F) (idx_main_v21 i) := by
  unfold val_main_v21
  generalize val_main_cst_3 (F := F) = y
  exact broadcastInDim_apply _ bcast_S_S12288x6144 y i (idx_main_v21 i) (fun a => a.elim0)

def val_main_v22 : (⟨S12288x6144, .f32⟩ : BufTy).Contents (Elt F) :=
  mulf (val_main_v21 (F := F)) (val_main_v18 (F := F) x0 x1 x2 x3 x4)
theorem val_main_v22_apply (i : S12288x6144.Idx) :
    val_main_v22 (F := F) x0 x1 x2 x3 x4 i = FloatOps.mulf (val_main_v21 (F := F) i) (val_main_v18 (F := F) x0 x1 x2 x3 x4 i) := rfl

def val_main_v23 : (⟨S12288x6144, .f32⟩ : BufTy).Contents (Elt F) :=
  select (val_main_v20 (F := F) x0 x1 x2 x3 x4) (val_main_v18 (F := F) x0 x1 x2 x3 x4) (val_main_v22 (F := F) x0 x1 x2 x3 x4)
theorem val_main_v23_apply (i : S12288x6144.Idx) :
    val_main_v23 (F := F) x0 x1 x2 x3 x4 i = Scalar.select (val_main_v20 (F := F) x0 x1 x2 x3 x4 i) (val_main_v18 (F := F) x0 x1 x2 x3 x4 i) (val_main_v22 (F := F) x0 x1 x2 x3 x4 i) := rfl

def val_main_v24 : (⟨S12288x6144, .f32⟩ : BufTy).Contents (Elt F) :=
  Host.exp (val_main_v23 (F := F) x0 x1 x2 x3 x4)
theorem val_main_v24_apply (i : S12288x6144.Idx) :
    val_main_v24 (F := F) x0 x1 x2 x3 x4 i = FloatOps.hostUnary .exp (val_main_v23 (F := F) x0 x1 x2 x3 x4 i) := rfl

def val_main_v25 : (⟨S12288x6144, .f32⟩ : BufTy).Contents (Elt F) :=
  mulf (val_main_v24 (F := F) x0 x1 x2 x3 x4) (x1)
theorem val_main_v25_apply (i : S12288x6144.Idx) :
    val_main_v25 (F := F) x0 x1 x2 x3 x4 i = FloatOps.mulf (val_main_v24 (F := F) x0 x1 x2 x3 x4 i) (x1 i) := rfl

def val_main_cst_4 : (⟨S_, .f32⟩ : BufTy).Contents (Elt F) :=
  constant S_ .f32 0x00000000#32
theorem val_main_cst_4_apply (i : S_.Idx) :
    val_main_cst_4 (F := F) i = FloatOps.ofBits .f32 0x00000000#32 := rfl

def val_main_v26 : (⟨S12288, .f32⟩ : BufTy).Contents (Elt F) :=
  Host.reduceAdd (val_main_v25 (F := F) x0 x1 x2 x3 x4) (val_main_cst_4 (F := F)) reducesTo_S12288x6144_S12288_d1 h_S_
abbrev idx_main_v26 (i : S12288.Idx) (k : Fin 6144) : S12288x6144.Idx := fun a => match a with
  | ⟨0, _⟩ => ⟨(i 0).val, (i 0).isLt⟩
  | ⟨1, _⟩ => ⟨k.val, k.isLt⟩
theorem val_main_v26_apply (x0 : (⟨S12288x256, .f32⟩ : BufTy).Contents (Elt Ideal)) (x1 : (⟨S12288x6144, .f32⟩ : BufTy).Contents (Elt Ideal)) (x2 : (⟨S256x256, .f32⟩ : BufTy).Contents (Elt Ideal)) (x3 x4 : (⟨S256x1, .f32⟩ : BufTy).Contents (Elt Ideal)) (i : S12288.Idx) :
    val_main_v26 (F := Ideal) x0 x1 x2 x3 x4 i = (val_main_cst_4 (F := Ideal)) (Shape.Idx.first h_S_) + ∑ k : Fin 6144, (val_main_v25 (F := Ideal) x0 x1 x2 x3 x4) (idx_main_v26 i k) := by
  unfold val_main_v26
  generalize val_main_v25 (F := Ideal) x0 x1 x2 x3 x4 = y0
  simp only [Host.reduceAdd, Ideal.hostReduceAdd_def]
  rw [Ideal.hostReduceAdd_single reducesTo_S12288x6144_S12288_d1 (by decide)]
  refine congrArg (_ + ·) (Finset.sum_congr rfl fun k _ => ?_)
  exact congrArg y0 (funext fun a => Fin.ext (by match a with | ⟨0, _⟩ => rfl | ⟨1, _⟩ => rfl))

def val_main_v27 : (⟨S12288x1, .f32⟩ : BufTy).Contents (Elt F) :=
  broadcastInDim S12288x1 ![0] bcast_S12288_S12288x1_0 (val_main_v26 (F := F) x0 x1 x2 x3 x4)
abbrev idx_main_v27 (i : S12288x1.Idx) : S12288.Idx := fun a => match a with
  | ⟨0, _⟩ => ⟨(i 0).val, (i 0).isLt⟩
theorem val_main_v27_apply (i : S12288x1.Idx) :
    val_main_v27 (F := F) x0 x1 x2 x3 x4 i = val_main_v26 (F := F) x0 x1 x2 x3 x4 (idx_main_v27 i) := by
  unfold val_main_v27
  generalize val_main_v26 (F := F) x0 x1 x2 x3 x4 = y
  exact broadcastInDim_apply _ bcast_S12288_S12288x1_0 y i (idx_main_v27 i) (fun a => match a with
    | ⟨0, _⟩ => by show (i 0).val = if (12288 : Nat) = 1 then 0 else (i 0).val; rw [if_neg (by decide)])

def val_main_v28 : (⟨S12288x6144, .f32⟩ : BufTy).Contents (Elt F) :=
  broadcastInDim S12288x6144 ![0, 1] bcast_S12288x1_S12288x6144_0_1 (val_main_v27 (F := F) x0 x1 x2 x3 x4)
abbrev idx_main_v28 (i : S12288x6144.Idx) : S12288x1.Idx := fun a => match a with
  | ⟨0, _⟩ => ⟨(i 0).val, (i 0).isLt⟩
  | ⟨1, _⟩ => ⟨0, Nat.one_pos⟩
theorem val_main_v28_apply (i : S12288x6144.Idx) :
    val_main_v28 (F := F) x0 x1 x2 x3 x4 i = val_main_v27 (F := F) x0 x1 x2 x3 x4 (idx_main_v28 i) := by
  unfold val_main_v28
  generalize val_main_v27 (F := F) x0 x1 x2 x3 x4 = y
  exact broadcastInDim_apply _ bcast_S12288x1_S12288x6144_0_1 y i (idx_main_v28 i) (fun a => match a with
    | ⟨0, _⟩ => by show (i 0).val = if (12288 : Nat) = 1 then 0 else (i 0).val; rw [if_neg (by decide)]
    | ⟨1, _⟩ => by show 0 = if (1 : Nat) = 1 then 0 else (i 1).val; rw [if_pos rfl])

def val_main_v29 : (⟨S12288x6144, .f32⟩ : BufTy).Contents (Elt F) :=
  Host.divf (val_main_v25 (F := F) x0 x1 x2 x3 x4) (val_main_v28 (F := F) x0 x1 x2 x3 x4)
theorem val_main_v29_apply (i : S12288x6144.Idx) :
    val_main_v29 (F := F) x0 x1 x2 x3 x4 i = FloatOps.hostDivf (val_main_v25 (F := F) x0 x1 x2 x3 x4 i) (val_main_v28 (F := F) x0 x1 x2 x3 x4 i) := rfl

def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

def val_main_v30 : (⟨S6144, .f32⟩ : BufTy).Contents (Elt F) :=
  Host.reduceAdd (val_main_v29 (F := F) x0 x1 x2 x3 x4) (val_main_cst_5 (F := F)) reducesTo_S12288x6144_S6144_d0 h_S_
abbrev idx_main_v30 (i : S6144.Idx) (k : Fin 12288) : S12288x6144.Idx := fun a => match a with
  | ⟨0, _⟩ => ⟨k.val, k.isLt⟩
  | ⟨1, _⟩ => ⟨(i 0).val, (i 0).isLt⟩
theorem val_main_v30_apply (x0 : (⟨S12288x256, .f32⟩ : BufTy).Contents (Elt Ideal)) (x1 : (⟨S12288x6144, .f32⟩ : BufTy).Contents (Elt Ideal)) (x2 : (⟨S256x256, .f32⟩ : BufTy).Contents (Elt Ideal)) (x3 x4 : (⟨S256x1, .f32⟩ : BufTy).Contents (Elt Ideal)) (i : S6144.Idx) :
    val_main_v30 (F := Ideal) x0 x1 x2 x3 x4 i = (val_main_cst_5 (F := Ideal)) (Shape.Idx.first h_S_) + ∑ k : Fin 12288, (val_main_v29 (F := Ideal) x0 x1 x2 x3 x4) (idx_main_v30 i k) := by
  unfold val_main_v30
  generalize val_main_v29 (F := Ideal) x0 x1 x2 x3 x4 = y0
  simp only [Host.reduceAdd, Ideal.hostReduceAdd_def]
  rw [Ideal.hostReduceAdd_single reducesTo_S12288x6144_S6144_d0 (by decide)]
  refine congrArg (_ + ·) (Finset.sum_congr rfl fun k _ => ?_)
  exact congrArg y0 (funext fun a => Fin.ext (by match a with | ⟨0, _⟩ => rfl | ⟨1, _⟩ => rfl))

def val_main_cst_6 : (⟨S_, .f32⟩ : BufTy).Contents (Elt F) :=
  constant S_ .f32 0x3F800000#32
theorem val_main_cst_6_apply (i : S_.Idx) :
    val_main_cst_6 (F := F) i = FloatOps.ofBits .f32 0x3F800000#32 := rfl

def val_main_v31 : (⟨S6144, .f32⟩ : BufTy).Contents (Elt F) :=
  broadcastInDim S6144 ![] bcast_S_S6144 (val_main_cst_6 (F := F))
abbrev idx_main_v31 (i : S6144.Idx) : S_.Idx := fun a => a.elim0
theorem val_main_v31_apply (i : S6144.Idx) :
    val_main_v31 (F := F) i = val_main_cst_6 (F := F) (idx_main_v31 i) := by
  unfold val_main_v31
  generalize val_main_cst_6 (F := F) = y
  exact broadcastInDim_apply _ bcast_S_S6144 y i (idx_main_v31 i) (fun a => a.elim0)

def val_main_v32 : (⟨S6144, .f32⟩ : BufTy).Contents (Elt F) :=
  Host.divf (val_main_v31 (F := F)) (val_main_v30 (F := F) x0 x1 x2 x3 x4)
theorem val_main_v32_apply (i : S6144.Idx) :
    val_main_v32 (F := F) x0 x1 x2 x3 x4 i = FloatOps.hostDivf (val_main_v31 (F := F) i) (val_main_v30 (F := F) x0 x1 x2 x3 x4 i) := rfl

def val_main_cst_7 : (⟨S_, .f32⟩ : BufTy).Contents (Elt F) :=
  constant S_ .f32 0x00000000#32
theorem val_main_cst_7_apply (i : S_.Idx) :
    val_main_cst_7 (F := F) i = FloatOps.ofBits .f32 0x00000000#32 := rfl

def val_main_v33 : (⟨S12288, .f32⟩ : BufTy).Contents (Elt F) :=
  Host.reduceAdd (val_main_v29 (F := F) x0 x1 x2 x3 x4) (val_main_cst_7 (F := F)) reducesTo_S12288x6144_S12288_d1 h_S_
abbrev idx_main_v33 (i : S12288.Idx) (k : Fin 6144) : S12288x6144.Idx := fun a => match a with
  | ⟨0, _⟩ => ⟨(i 0).val, (i 0).isLt⟩
  | ⟨1, _⟩ => ⟨k.val, k.isLt⟩
theorem val_main_v33_apply (x0 : (⟨S12288x256, .f32⟩ : BufTy).Contents (Elt Ideal)) (x1 : (⟨S12288x6144, .f32⟩ : BufTy).Contents (Elt Ideal)) (x2 : (⟨S256x256, .f32⟩ : BufTy).Contents (Elt Ideal)) (x3 x4 : (⟨S256x1, .f32⟩ : BufTy).Contents (Elt Ideal)) (i : S12288.Idx) :
    val_main_v33 (F := Ideal) x0 x1 x2 x3 x4 i = (val_main_cst_7 (F := Ideal)) (Shape.Idx.first h_S_) + ∑ k : Fin 6144, (val_main_v29 (F := Ideal) x0 x1 x2 x3 x4) (idx_main_v33 i k) := by
  unfold val_main_v33
  generalize val_main_v29 (F := Ideal) x0 x1 x2 x3 x4 = y0
  simp only [Host.reduceAdd, Ideal.hostReduceAdd_def]
  rw [Ideal.hostReduceAdd_single reducesTo_S12288x6144_S12288_d1 (by decide)]
  refine congrArg (_ + ·) (Finset.sum_congr rfl fun k _ => ?_)
  exact congrArg y0 (funext fun a => Fin.ext (by match a with | ⟨0, _⟩ => rfl | ⟨1, _⟩ => rfl))

def val_main_v34 : (⟨S12288x1, .f32⟩ : BufTy).Contents (Elt F) :=
  broadcastInDim S12288x1 ![0] bcast_S12288_S12288x1_0 (val_main_v33 (F := F) x0 x1 x2 x3 x4)
abbrev idx_main_v34 (i : S12288x1.Idx) : S12288.Idx := fun a => match a with
  | ⟨0, _⟩ => ⟨(i 0).val, (i 0).isLt⟩
theorem val_main_v34_apply (i : S12288x1.Idx) :
    val_main_v34 (F := F) x0 x1 x2 x3 x4 i = val_main_v33 (F := F) x0 x1 x2 x3 x4 (idx_main_v34 i) := by
  unfold val_main_v34
  generalize val_main_v33 (F := F) x0 x1 x2 x3 x4 = y
  exact broadcastInDim_apply _ bcast_S12288_S12288x1_0 y i (idx_main_v34 i) (fun a => match a with
    | ⟨0, _⟩ => by show (i 0).val = if (12288 : Nat) = 1 then 0 else (i 0).val; rw [if_neg (by decide)])

def val_main_v35 : (⟨S6144x1, .f32⟩ : BufTy).Contents (Elt F) :=
  broadcastInDim S6144x1 ![0] bcast_S6144_S6144x1_0 (val_main_v32 (F := F) x0 x1 x2 x3 x4)
abbrev idx_main_v35 (i : S6144x1.Idx) : S6144.Idx := fun a => match a with
  | ⟨0, _⟩ => ⟨(i 0).val, (i 0).isLt⟩
theorem val_main_v35_apply (i : S6144x1.Idx) :
    val_main_v35 (F := F) x0 x1 x2 x3 x4 i = val_main_v32 (F := F) x0 x1 x2 x3 x4 (idx_main_v35 i) := by
  unfold val_main_v35
  generalize val_main_v32 (F := F) x0 x1 x2 x3 x4 = y
  exact broadcastInDim_apply _ bcast_S6144_S6144x1_0 y i (idx_main_v35 i) (fun a => match a with
    | ⟨0, _⟩ => by show (i 0).val = if (6144 : Nat) = 1 then 0 else (i 0).val; rw [if_neg (by decide)])

def val_main_v36 : (⟨S6144x12288, .f32⟩ : BufTy).Contents (Elt F) :=
  transpose S6144x12288 [1, 0] (val_main_v29 (F := F) x0 x1 x2 x3 x4) transposes_S12288x6144_S6144x12288_1_0
abbrev idx_main_v36 (i : S6144x12288.Idx) : S12288x6144.Idx := fun a => match a with
  | ⟨0, _⟩ => ⟨(i 1).val, (i 1).isLt⟩
  | ⟨1, _⟩ => ⟨(i 0).val, (i 0).isLt⟩
theorem val_main_v36_apply (i : S6144x12288.Idx) :
    val_main_v36 (F := F) x0 x1 x2 x3 x4 i = val_main_v29 (F := F) x0 x1 x2 x3 x4 (idx_main_v36 i) := by
  unfold val_main_v36
  generalize val_main_v29 (F := F) x0 x1 x2 x3 x4 = y
  exact transpose_apply [1, 0] y transposes_S12288x6144_S6144x12288_1_0 i (idx_main_v36 i) (fun b => match b with
    | ⟨0, _⟩ => rfl
    | ⟨1, _⟩ => rfl)

def val_main_v37 : (⟨S12288x1, .f32⟩ : BufTy).Contents (Elt F) :=
  broadcastInDim S12288x1 ![0] bcast_S12288_S12288x1_0 (val_main_v33 (F := F) x0 x1 x2 x3 x4)
abbrev idx_main_v37 (i : S12288x1.Idx) : S12288.Idx := fun a => match a with
  | ⟨0, _⟩ => ⟨(i 0).val, (i 0).isLt⟩
theorem val_main_v37_apply (i : S12288x1.Idx) :
    val_main_v37 (F := F) x0 x1 x2 x3 x4 i = val_main_v33 (F := F) x0 x1 x2 x3 x4 (idx_main_v37 i) := by
  unfold val_main_v37
  generalize val_main_v33 (F := F) x0 x1 x2 x3 x4 = y
  exact broadcastInDim_apply _ bcast_S12288_S12288x1_0 y i (idx_main_v37 i) (fun a => match a with
    | ⟨0, _⟩ => by show (i 0).val = if (12288 : Nat) = 1 then 0 else (i 0).val; rw [if_neg (by decide)])

def val_main_v38 : (⟨S12288x256, .f32⟩ : BufTy).Contents (Elt F) :=
  broadcastInDim S12288x256 ![0, 1] bcast_S12288x1_S12288x256_0_1 (val_main_v37 (F := F) x0 x1 x2 x3 x4)
abbrev idx_main_v38 (i : S12288x256.Idx) : S12288x1.Idx := fun a => match a with
  | ⟨0, _⟩ => ⟨(i 0).val, (i 0).isLt⟩
  | ⟨1, _⟩ => ⟨0, Nat.one_pos⟩
theorem val_main_v38_apply (i : S12288x256.Idx) :
    val_main_v38 (F := F) x0 x1 x2 x3 x4 i = val_main_v37 (F := F) x0 x1 x2 x3 x4 (idx_main_v38 i) := by
  unfold val_main_v38
  generalize val_main_v37 (F := F) x0 x1 x2 x3 x4 = y
  exact broadcastInDim_apply _ bcast_S12288x1_S12288x256_0_1 y i (idx_main_v38 i) (fun a => match a with
    | ⟨0, _⟩ => by show (i 0).val = if (12288 : Nat) = 1 then 0 else (i 0).val; rw [if_neg (by decide)]
    | ⟨1, _⟩ => by show 0 = if (1 : Nat) = 1 then 0 else (i 1).val; rw [if_pos rfl])

def val_main_v39 : (⟨S12288x256, .f32⟩ : BufTy).Contents (Elt F) :=
  mulf (val_main_v38 (F := F) x0 x1 x2 x3 x4) (val_main_v6 (F := F) x0 x2)
theorem val_main_v39_apply (i : S12288x256.Idx) :
    val_main_v39 (F := F) x0 x1 x2 x3 x4 i = FloatOps.mulf (val_main_v38 (F := F) x0 x1 x2 x3 x4 i) (val_main_v6 (F := F) x0 x2 i) := rfl

def val_main_v40 : (⟨S6144x256, .f32⟩ : BufTy).Contents (Elt F) :=
  Host.dotGeneral dot_S6144x12288_S12288x256_S6144x256_1_0_0_1_n_n none (val_main_v36 (F := F) x0 x1 x2 x3 x4) (val_main_v39 (F := F) x0 x1 x2 x3 x4)
theorem lhs_main_v40_0 (i : S6144x256.Idx) (q : dot_S6144x12288_S12288x256_S6144x256_1_0_0_1_n_n.contr.Idx) :
    (dot_S6144x12288_S12288x256_S6144x256_1_0_0_1_n_n.lhsIdx i q 0).val = (i 0).val := by
  unfold DotDims.lhsIdx
  rw [dif_neg (show ¬(0 : Fin S6144x12288.rank) ∈ dot_S6144x12288_S12288x256_S6144x256_1_0_0_1_n_n.lhsBatch by decide), dif_pos (show (0 : Fin S6144x12288.rank) ∈ dot_S6144x12288_S12288x256_S6144x256_1_0_0_1_n_n.lhsNonContracting by decide)]
  rfl
theorem lhs_main_v40_1 (i : S6144x256.Idx) (q : dot_S6144x12288_S12288x256_S6144x256_1_0_0_1_n_n.contr.Idx) :
    (dot_S6144x12288_S12288x256_S6144x256_1_0_0_1_n_n.lhsIdx i q 1).val = (q ⟨0, by decide⟩).val :=
  dot_S6144x12288_S12288x256_S6144x256_1_0_0_1_n_n.lhsIdx_val_of_single rfl i q
theorem rhs_main_v40_0 (i : S6144x256.Idx) (q : dot_S6144x12288_S12288x256_S6144x256_1_0_0_1_n_n.contr.Idx) :
    (dot_S6144x12288_S12288x256_S6144x256_1_0_0_1_n_n.rhsIdx i q 0).val = (q ⟨0, by decide⟩).val :=
  dot_S6144x12288_S12288x256_S6144x256_1_0_0_1_n_n.rhsIdx_val_of_single rfl i q
theorem rhs_main_v40_1 (i : S6144x256.Idx) (q : dot_S6144x12288_S12288x256_S6144x256_1_0_0_1_n_n.contr.Idx) :
    (dot_S6144x12288_S12288x256_S6144x256_1_0_0_1_n_n.rhsIdx i q 1).val = (i 1).val := by
  unfold DotDims.rhsIdx
  rw [dif_neg (show ¬(1 : Fin S12288x256.rank) ∈ dot_S6144x12288_S12288x256_S6144x256_1_0_0_1_n_n.rhsBatch by decide), dif_pos (show (1 : Fin S12288x256.rank) ∈ dot_S6144x12288_S12288x256_S6144x256_1_0_0_1_n_n.rhsNonContracting by decide)]
  rfl
abbrev lidx_main_v40 (i : S6144x256.Idx) (k : Fin 12288) : S6144x12288.Idx := fun a => match a with
  | ⟨0, _⟩ => ⟨(i 0).val, (i 0).isLt⟩
  | ⟨1, _⟩ => ⟨k.val, k.isLt⟩
abbrev ridx_main_v40 (i : S6144x256.Idx) (k : Fin 12288) : S12288x256.Idx := fun a => match a with
  | ⟨0, _⟩ => ⟨k.val, k.isLt⟩
  | ⟨1, _⟩ => ⟨(i 1).val, (i 1).isLt⟩
theorem val_main_v40_apply (x0 : (⟨S12288x256, .f32⟩ : BufTy).Contents (Elt Ideal)) (x1 : (⟨S12288x6144, .f32⟩ : BufTy).Contents (Elt Ideal)) (x2 : (⟨S256x256, .f32⟩ : BufTy).Contents (Elt Ideal)) (x3 x4 : (⟨S256x1, .f32⟩ : BufTy).Contents (Elt Ideal)) (i : S6144x256.Idx) :
    val_main_v40 (F := Ideal) x0 x1 x2 x3 x4 i = ∑ k : Fin 12288, (val_main_v36 (F := Ideal) x0 x1 x2 x3 x4) (lidx_main_v40 i k) * (val_main_v39 (F := Ideal) x0 x1 x2 x3 x4) (ridx_main_v40 i k) := by
  unfold val_main_v40
  generalize val_main_v36 (F := Ideal) x0 x1 x2 x3 x4 = y0
  generalize val_main_v39 (F := Ideal) x0 x1 x2 x3 x4 = y1
  simp only [Host.dotGeneral]
  rw [Ideal.dotGeneral_apply, ← Equiv.sum_comp (ValueIdx.contrEquiv1 dot_S6144x12288_S12288x256_S6144x256_1_0_0_1_n_n 12288 rfl rfl).symm]
  refine Finset.sum_congr rfl fun k _ => ?_
  have hk := ValueIdx.contrEquiv1_symm_val dot_S6144x12288_S12288x256_S6144x256_1_0_0_1_n_n 12288 rfl rfl k
  have el : dot_S6144x12288_S12288x256_S6144x256_1_0_0_1_n_n.lhsIdx i ((ValueIdx.contrEquiv1 dot_S6144x12288_S12288x256_S6144x256_1_0_0_1_n_n 12288 rfl rfl).symm k) = lidx_main_v40 i k := funext fun a => Fin.ext (by
    match a with
    | ⟨0, _⟩ => exact lhs_main_v40_0 _ _
    | ⟨1, _⟩ => exact (lhs_main_v40_1 _ _).trans hk)
  have er : dot_S6144x12288_S12288x256_S6144x256_1_0_0_1_n_n.rhsIdx i ((ValueIdx.contrEquiv1 dot_S6144x12288_S12288x256_S6144x256_1_0_0_1_n_n 12288 rfl rfl).symm k) = ridx_main_v40 i k := funext fun a => Fin.ext (by
    match a with
    | ⟨0, _⟩ => exact (rhs_main_v40_0 _ _).trans hk
    | ⟨1, _⟩ => exact rhs_main_v40_1 _ _)
  rw [el, er]

def val_main_v41 : (⟨S6144x256, .f32⟩ : BufTy).Contents (Elt F) :=
  broadcastInDim S6144x256 ![0, 1] bcast_S6144x1_S6144x256_0_1 (val_main_v35 (F := F) x0 x1 x2 x3 x4)
abbrev idx_main_v41 (i : S6144x256.Idx) : S6144x1.Idx := fun a => match a with
  | ⟨0, _⟩ => ⟨(i 0).val, (i 0).isLt⟩
  | ⟨1, _⟩ => ⟨0, Nat.one_pos⟩
theorem val_main_v41_apply (i : S6144x256.Idx) :
    val_main_v41 (F := F) x0 x1 x2 x3 x4 i = val_main_v35 (F := F) x0 x1 x2 x3 x4 (idx_main_v41 i) := by
  unfold val_main_v41
  generalize val_main_v35 (F := F) x0 x1 x2 x3 x4 = y
  exact broadcastInDim_apply _ bcast_S6144x1_S6144x256_0_1 y i (idx_main_v41 i) (fun a => match a with
    | ⟨0, _⟩ => by show (i 0).val = if (6144 : Nat) = 1 then 0 else (i 0).val; rw [if_neg (by decide)]
    | ⟨1, _⟩ => by show 0 = if (1 : Nat) = 1 then 0 else (i 1).val; rw [if_pos rfl])

def val_main_v42 : (⟨S6144x256, .f32⟩ : BufTy).Contents (Elt F) :=
  mulf (val_main_v41 (F := F) x0 x1 x2 x3 x4) (val_main_v40 (F := F) x0 x1 x2 x3 x4)
theorem val_main_v42_apply (i : S6144x256.Idx) :
    val_main_v42 (F := F) x0 x1 x2 x3 x4 i = FloatOps.mulf (val_main_v41 (F := F) x0 x1 x2 x3 x4 i) (val_main_v40 (F := F) x0 x1 x2 x3 x4 i) := rfl

def val_main_v43 : (⟨S12288x256, .f32⟩ : BufTy).Contents (Elt F) :=
  Host.dotGeneral dot_S12288x6144_S6144x256_S12288x256_1_0_0_1_n_n none (val_main_v29 (F := F) x0 x1 x2 x3 x4) (val_main_v42 (F := F) x0 x1 x2 x3 x4)
theorem lhs_main_v43_0 (i : S12288x256.Idx) (q : dot_S12288x6144_S6144x256_S12288x256_1_0_0_1_n_n.contr.Idx) :
    (dot_S12288x6144_S6144x256_S12288x256_1_0_0_1_n_n.lhsIdx i q 0).val = (i 0).val := by
  unfold DotDims.lhsIdx
  rw [dif_neg (show ¬(0 : Fin S12288x6144.rank) ∈ dot_S12288x6144_S6144x256_S12288x256_1_0_0_1_n_n.lhsBatch by decide), dif_pos (show (0 : Fin S12288x6144.rank) ∈ dot_S12288x6144_S6144x256_S12288x256_1_0_0_1_n_n.lhsNonContracting by decide)]
  rfl
theorem lhs_main_v43_1 (i : S12288x256.Idx) (q : dot_S12288x6144_S6144x256_S12288x256_1_0_0_1_n_n.contr.Idx) :
    (dot_S12288x6144_S6144x256_S12288x256_1_0_0_1_n_n.lhsIdx i q 1).val = (q ⟨0, by decide⟩).val :=
  dot_S12288x6144_S6144x256_S12288x256_1_0_0_1_n_n.lhsIdx_val_of_single rfl i q
theorem rhs_main_v43_0 (i : S12288x256.Idx) (q : dot_S12288x6144_S6144x256_S12288x256_1_0_0_1_n_n.contr.Idx) :
    (dot_S12288x6144_S6144x256_S12288x256_1_0_0_1_n_n.rhsIdx i q 0).val = (q ⟨0, by decide⟩).val :=
  dot_S12288x6144_S6144x256_S12288x256_1_0_0_1_n_n.rhsIdx_val_of_single rfl i q
theorem rhs_main_v43_1 (i : S12288x256.Idx) (q : dot_S12288x6144_S6144x256_S12288x256_1_0_0_1_n_n.contr.Idx) :
    (dot_S12288x6144_S6144x256_S12288x256_1_0_0_1_n_n.rhsIdx i q 1).val = (i 1).val := by
  unfold DotDims.rhsIdx
  rw [dif_neg (show ¬(1 : Fin S6144x256.rank) ∈ dot_S12288x6144_S6144x256_S12288x256_1_0_0_1_n_n.rhsBatch by decide), dif_pos (show (1 : Fin S6144x256.rank) ∈ dot_S12288x6144_S6144x256_S12288x256_1_0_0_1_n_n.rhsNonContracting by decide)]
  rfl
abbrev lidx_main_v43 (i : S12288x256.Idx) (k : Fin 6144) : S12288x6144.Idx := fun a => match a with
  | ⟨0, _⟩ => ⟨(i 0).val, (i 0).isLt⟩
  | ⟨1, _⟩ => ⟨k.val, k.isLt⟩
abbrev ridx_main_v43 (i : S12288x256.Idx) (k : Fin 6144) : S6144x256.Idx := fun a => match a with
  | ⟨0, _⟩ => ⟨k.val, k.isLt⟩
  | ⟨1, _⟩ => ⟨(i 1).val, (i 1).isLt⟩
theorem val_main_v43_apply (x0 : (⟨S12288x256, .f32⟩ : BufTy).Contents (Elt Ideal)) (x1 : (⟨S12288x6144, .f32⟩ : BufTy).Contents (Elt Ideal)) (x2 : (⟨S256x256, .f32⟩ : BufTy).Contents (Elt Ideal)) (x3 x4 : (⟨S256x1, .f32⟩ : BufTy).Contents (Elt Ideal)) (i : S12288x256.Idx) :
    val_main_v43 (F := Ideal) x0 x1 x2 x3 x4 i = ∑ k : Fin 6144, (val_main_v29 (F := Ideal) x0 x1 x2 x3 x4) (lidx_main_v43 i k) * (val_main_v42 (F := Ideal) x0 x1 x2 x3 x4) (ridx_main_v43 i k) := by
  unfold val_main_v43
  generalize val_main_v29 (F := Ideal) x0 x1 x2 x3 x4 = y0
  generalize val_main_v42 (F := Ideal) x0 x1 x2 x3 x4 = y1
  simp only [Host.dotGeneral]
  rw [Ideal.dotGeneral_apply, ← Equiv.sum_comp (ValueIdx.contrEquiv1 dot_S12288x6144_S6144x256_S12288x256_1_0_0_1_n_n 6144 rfl rfl).symm]
  refine Finset.sum_congr rfl fun k _ => ?_
  have hk := ValueIdx.contrEquiv1_symm_val dot_S12288x6144_S6144x256_S12288x256_1_0_0_1_n_n 6144 rfl rfl k
  have el : dot_S12288x6144_S6144x256_S12288x256_1_0_0_1_n_n.lhsIdx i ((ValueIdx.contrEquiv1 dot_S12288x6144_S6144x256_S12288x256_1_0_0_1_n_n 6144 rfl rfl).symm k) = lidx_main_v43 i k := funext fun a => Fin.ext (by
    match a with
    | ⟨0, _⟩ => exact lhs_main_v43_0 _ _
    | ⟨1, _⟩ => exact (lhs_main_v43_1 _ _).trans hk)
  have er : dot_S12288x6144_S6144x256_S12288x256_1_0_0_1_n_n.rhsIdx i ((ValueIdx.contrEquiv1 dot_S12288x6144_S6144x256_S12288x256_1_0_0_1_n_n 6144 rfl rfl).symm k) = ridx_main_v43 i k := funext fun a => Fin.ext (by
    match a with
    | ⟨0, _⟩ => exact (rhs_main_v43_0 _ _).trans hk
    | ⟨1, _⟩ => exact rhs_main_v43_1 _ _)
  rw [el, er]

def val_main_v44 : (⟨S12288x256, .f32⟩ : BufTy).Contents (Elt F) :=
  broadcastInDim S12288x256 ![0, 1] bcast_S12288x1_S12288x256_0_1 (val_main_v34 (F := F) x0 x1 x2 x3 x4)
abbrev idx_main_v44 (i : S12288x256.Idx) : S12288x1.Idx := fun a => match a with
  | ⟨0, _⟩ => ⟨(i 0).val, (i 0).isLt⟩
  | ⟨1, _⟩ => ⟨0, Nat.one_pos⟩
theorem val_main_v44_apply (i : S12288x256.Idx) :
    val_main_v44 (F := F) x0 x1 x2 x3 x4 i = val_main_v34 (F := F) x0 x1 x2 x3 x4 (idx_main_v44 i) := by
  unfold val_main_v44
  generalize val_main_v34 (F := F) x0 x1 x2 x3 x4 = y
  exact broadcastInDim_apply _ bcast_S12288x1_S12288x256_0_1 y i (idx_main_v44 i) (fun a => match a with
    | ⟨0, _⟩ => by show (i 0).val = if (12288 : Nat) = 1 then 0 else (i 0).val; rw [if_neg (by decide)]
    | ⟨1, _⟩ => by show 0 = if (1 : Nat) = 1 then 0 else (i 1).val; rw [if_pos rfl])

def val_main_v45 : (⟨S12288x256, .f32⟩ : BufTy).Contents (Elt F) :=
  mulf (val_main_v44 (F := F) x0 x1 x2 x3 x4) (val_main_v43 (F := F) x0 x1 x2 x3 x4)
theorem val_main_v45_apply (i : S12288x256.Idx) :
    val_main_v45 (F := F) x0 x1 x2 x3 x4 i = FloatOps.mulf (val_main_v44 (F := F) x0 x1 x2 x3 x4 i) (val_main_v43 (F := F) x0 x1 x2 x3 x4 i) := rfl

def val_main_cst_8 : (⟨S_, .f32⟩ : BufTy).Contents (Elt F) :=
  constant S_ .f32 0x00000000#32
theorem val_main_cst_8_apply (i : S_.Idx) :
    val_main_cst_8 (F := F) i = FloatOps.ofBits .f32 0x00000000#32 := rfl

def val_main_v46 : (⟨S12288x256, .f32⟩ : BufTy).Contents (Elt F) :=
  broadcastInDim S12288x256 ![] bcast_S_S12288x256 (val_main_cst_8 (F := F))
abbrev idx_main_v46 (i : S12288x256.Idx) : S_.Idx := fun a => a.elim0
theorem val_main_v46_apply (i : S12288x256.Idx) :
    val_main_v46 (F := F) i = val_main_cst_8 (F := F) (idx_main_v46 i) := by
  unfold val_main_v46
  generalize val_main_cst_8 (F := F) = y
  exact broadcastInDim_apply _ bcast_S_S12288x256 y i (idx_main_v46 i) (fun a => a.elim0)

def val_main_v47 : (⟨S12288x256, .i1⟩ : BufTy).Contents (Elt F) :=
  cmpf .oge (val_main_v45 (F := F) x0 x1 x2 x3 x4) (val_main_v46 (F := F))
theorem val_main_v47_apply (i : S12288x256.Idx) :
    val_main_v47 (F := F) x0 x1 x2 x3 x4 i = FloatOps.cmpf .oge (val_main_v45 (F := F) x0 x1 x2 x3 x4 i) (val_main_v46 (F := F) i) := rfl

def val_main_cst_9 : (⟨S_, .f32⟩ : BufTy).Contents (Elt F) :=
  constant S_ .f32 0x3DCCCCCD#32
theorem val_main_cst_9_apply (i : S_.Idx) :
    val_main_cst_9 (F := F) i = FloatOps.ofBits .f32 0x3DCCCCCD#32 := rfl

def val_main_v48 : (⟨S12288x256, .f32⟩ : BufTy).Contents (Elt F) :=
  broadcastInDim S12288x256 ![] bcast_S_S12288x256 (val_main_cst_9 (F := F))
abbrev idx_main_v48 (i : S12288x256.Idx) : S_.Idx := fun a => a.elim0
theorem val_main_v48_apply (i : S12288x256.Idx) :
    val_main_v48 (F := F) i = val_main_cst_9 (F := F) (idx_main_v48 i) := by
  unfold val_main_v48
  generalize val_main_cst_9 (F := F) = y
  exact broadcastInDim_apply _ bcast_S_S12288x256 y i (idx_main_v48 i) (fun a => a.elim0)

def val_main_v49 : (⟨S12288x256, .f32⟩ : BufTy).Contents (Elt F) :=
  mulf (val_main_v48 (F := F)) (val_main_v45 (F := F) x0 x1 x2 x3 x4)
theorem val_main_v49_apply (i : S12288x256.Idx) :
    val_main_v49 (F := F) x0 x1 x2 x3 x4 i = FloatOps.mulf (val_main_v48 (F := F) i) (val_main_v45 (F := F) x0 x1 x2 x3 x4 i) := rfl

def val_main_v50 : (⟨S12288x256, .f32⟩ : BufTy).Contents (Elt F) :=
  select (val_main_v47 (F := F) x0 x1 x2 x3 x4) (val_main_v45 (F := F) x0 x1 x2 x3 x4) (val_main_v49 (F := F) x0 x1 x2 x3 x4)
theorem val_main_v50_apply (i : S12288x256.Idx) :
    val_main_v50 (F := F) x0 x1 x2 x3 x4 i = Scalar.select (val_main_v47 (F := F) x0 x1 x2 x3 x4 i) (val_main_v45 (F := F) x0 x1 x2 x3 x4 i) (val_main_v49 (F := F) x0 x1 x2 x3 x4 i) := rfl

end Cert.ReferenceIdeal.Read

end
-- ==== Proof.RefStages.lean ====
import proofs.«406483_j14499809591686_3_alg».proof.Proof.RefRead
import proofs.«406483_j14499809591686_3_alg».proof.Proof.Spec

noncomputable section

namespace Cert.ReferenceIdeal.RefStages

open Cert.ReferenceIdeal Cert.ReferenceIdeal.Read Cert.HyperAttn Idealize.ShloMosaic Idealize.ShloMosaic.ValueIdx

theorem ofBits_eight : Ideal.ofBits .f32 0x41000000#32 = ((8 : ℝ) : EReal) := by
  simp [Ideal.ofBits, Ideal.ieee, -EReal.coe_mul]; norm_num

theorem ofBits_eighth : Ideal.ofBits .f32 0x3E000000#32 = (((1 : ℝ) / 8 : ℝ) : EReal) := by
  simp [Ideal.ofBits, Ideal.ieee, -EReal.coe_mul]; norm_num

theorem div_eight (s : EReal) :
    Ideal.div s (Ideal.ofBits .f32 0x41000000#32) = s * Ideal.ofBits .f32 0x3E000000#32 := by
  rw [ofBits_eight, ofBits_eighth]
  exact Ideal.div_coe (by norm_num) s

local macro "idx2" : term =>
  `(funext fun a => Fin.ext (by match a with | ⟨0, _⟩ => rfl | ⟨1, _⟩ => rfl))
local macro "idx1" : term =>
  `(funext fun a => Fin.ext (by match a with | ⟨0, _⟩ => rfl))

variable (x0 : (⟨S12288x256, .f32⟩ : BufTy).Contents (Elt Ideal)) (x1 : (⟨S12288x6144, .f32⟩ : BufTy).Contents (Elt Ideal))
  (x2 : (⟨S256x256, .f32⟩ : BufTy).Contents (Elt Ideal)) (x3 x4 : (⟨S256x1, .f32⟩ : BufTy).Contents (Elt Ideal))

theorem xp_stage (n : Fin 12288) (f : Fin 256) : val_main_v6 (F := Ideal) x0 x2 (ix2 n f) = xp x0 x2 n f := by
  rw [val_main_v6_apply]
  refine Finset.sum_congr rfl fun k _ => ?_
  rw [show lidx_main_v6 (ix2 n f) k = ix2 n k from idx2, show ridx_main_v6 (ix2 n f) k = ix2 k f from idx2]

theorem v0_at (e : Fin 6144) (n : Fin 12288) : val_main_v0 (F := Ideal) x1 (ix2 e n) = x1 (ix2 n e) := by
  rw [val_main_v0_apply]
  exact congrArg x1 idx2

theorem v1_at (e : Fin 6144) (k : Fin 256) :
    val_main_v1 (F := Ideal) x0 x1 (ix2 e k) = ∑ n : Fin 12288, x1 (ix2 n e) * x0 (ix2 n k) := by
  rw [val_main_v1_apply]
  refine Finset.sum_congr rfl fun n _ => ?_
  rw [show lidx_main_v1 (ix2 e k) n = ix2 e n from idx2, v0_at, show ridx_main_v1 (ix2 e k) n = ix2 n k from idx2]

theorem v2_at (e : Fin 6144) : val_main_v2 (F := Ideal) x1 (ix1 e) = ∑ n : Fin 12288, x1 (ix2 n e) := by
  rw [val_main_v2_apply, val_main_cst_apply, Ideal.ofBits_def, Ideal.ofBits_zero_f32, zero_add]
  refine Finset.sum_congr rfl fun n _ => ?_
  rw [show idx_main_v2 (ix1 e) n = ix2 e n from idx2, v0_at]

theorem v4_at (e : Fin 6144) (k : Fin 256) :
    val_main_v4 (F := Ideal) x1 (ix2 e k) = ∑ n : Fin 12288, x1 (ix2 n e) := by
  rw [val_main_v4_apply, val_main_v3_apply, show idx_main_v3 (idx_main_v4 (ix2 e k)) = ix1 e from idx1, v2_at]

theorem he_stage (e : Fin 6144) (k : Fin 256) : val_main_v5 (F := Ideal) x0 x1 (ix2 e k) = he x0 x1 e k := by
  rw [val_main_v5_apply, Ideal.hostDivf_def, v1_at, v4_at]
  rfl

theorem hep_stage (e : Fin 6144) (f : Fin 256) :
    val_main_v7 (F := Ideal) x0 x1 x2 (ix2 e f) = hep x0 x1 x2 e f := by
  rw [val_main_v7_apply]
  refine Finset.sum_congr rfl fun k _ => ?_
  rw [show lidx_main_v7 (ix2 e f) k = ix2 e k from idx2, he_stage, show ridx_main_v7 (ix2 e f) k = ix2 k f from idx2]

theorem s1_stage (n : Fin 12288) : val_main_v8 (F := Ideal) x0 x2 x3 (ix2 n 0) = s1 x0 x2 x3 n := by
  rw [val_main_v8_apply]
  refine Finset.sum_congr rfl fun k _ => ?_
  rw [show lidx_main_v8 (ix2 n 0) k = ix2 n k from idx2, xp_stage, show ridx_main_v8 (ix2 n 0) k = ix2 k 0 from idx2]

theorem s2_stage (e : Fin 6144) : val_main_v9 (F := Ideal) x0 x1 x2 x4 (ix2 e 0) = s2 x0 x1 x2 x4 e := by
  rw [val_main_v9_apply]
  refine Finset.sum_congr rfl fun k _ => ?_
  rw [show lidx_main_v9 (ix2 e 0) k = ix2 e k from idx2, hep_stage, show ridx_main_v9 (ix2 e 0) k = ix2 k 0 from idx2]

theorem score_stage (n : Fin 12288) (e : Fin 6144) :
    val_main_v13 (F := Ideal) x0 x1 x2 x3 x4 (ix2 n e) = s1 x0 x2 x3 n + s2 x0 x1 x2 x4 e := by
  rw [val_main_v13_apply, Ideal.addf_def, val_main_v11_apply, val_main_v12_apply, val_main_v10_apply,
    show idx_main_v11 (ix2 n e) = ix2 n 0 from idx2,
    show idx_main_v10 (idx_main_v12 (ix2 n e)) = ix2 e 0 from idx2, s1_stage, s2_stage]

theorem act_stage (n : Fin 12288) (e : Fin 6144) :
    val_main_v23 (F := Ideal) x0 x1 x2 x3 x4 (ix2 n e) = act (s1 x0 x2 x3 n + s2 x0 x1 x2 x4 e) := by
  have h18 : val_main_v18 (F := Ideal) x0 x1 x2 x3 x4 (ix2 n e)
      = Ideal.tanh ((s1 x0 x2 x3 n + s2 x0 x1 x2 x4 e) * Ideal.ofBits .f32 0x3E000000#32)
        * Ideal.ofBits .f32 0x41000000#32 := by
    rw [val_main_v18_apply, Ideal.mulf_def, val_main_v16_apply, Ideal.hostUnary_tanh_def, val_main_v15_apply,
      Ideal.hostDivf_def, score_stage, val_main_v14_apply, val_main_cst_0_apply, val_main_v17_apply,
      val_main_cst_1_apply, Ideal.ofBits_def, div_eight]
  rw [val_main_v23_apply, val_main_v20_apply, val_main_v22_apply, Ideal.mulf_def, val_main_v19_apply,
    val_main_cst_2_apply, val_main_v21_apply, val_main_cst_3_apply, h18]
  rfl

theorem wgt_stage (n : Fin 12288) (e : Fin 6144) :
    val_main_v25 (F := Ideal) x0 x1 x2 x3 x4 (ix2 n e) = wgt x0 x1 x2 x3 x4 n e := by
  rw [val_main_v25_apply, Ideal.mulf_def, val_main_v24_apply, Ideal.hostUnary_exp_def, act_stage]
  rfl

theorem rowSum_stage (n : Fin 12288) : val_main_v27 (F := Ideal) x0 x1 x2 x3 x4 (ix2 n 0) = rowSum x0 x1 x2 x3 x4 n := by
  rw [val_main_v27_apply, val_main_v26_apply, val_main_cst_4_apply, Ideal.ofBits_def, Ideal.ofBits_zero_f32, zero_add]
  refine Finset.sum_congr rfl fun e _ => ?_
  rw [show idx_main_v26 (idx_main_v27 (ix2 n 0)) e = ix2 n e from idx2, wgt_stage]

theorem hm_stage (n : Fin 12288) (e : Fin 6144) : val_main_v29 (F := Ideal) x0 x1 x2 x3 x4 (ix2 n e) = hm x0 x1 x2 x3 x4 n e := by
  rw [val_main_v29_apply, Ideal.hostDivf_def, wgt_stage, val_main_v28_apply,
    show idx_main_v28 (ix2 n e) = ix2 n 0 from idx2, rowSum_stage]
  rfl

theorem colSum_stage (e : Fin 6144) : val_main_v30 (F := Ideal) x0 x1 x2 x3 x4 (ix1 e) = colSum x0 x1 x2 x3 x4 e := by
  rw [val_main_v30_apply, val_main_cst_5_apply, Ideal.ofBits_def, Ideal.ofBits_zero_f32, zero_add]
  refine Finset.sum_congr rfl fun n _ => ?_
  rw [show idx_main_v30 (ix1 e) n = ix2 n e from idx2, hm_stage]

theorem d_stage (n : Fin 12288) :
    val_main_v33 (F := Ideal) x0 x1 x2 x3 x4 (ix1 n) = ∑ e : Fin 6144, hm x0 x1 x2 x3 x4 n e := by
  rw [val_main_v33_apply, val_main_cst_7_apply, Ideal.ofBits_def, Ideal.ofBits_zero_f32, zero_add]
  refine Finset.sum_congr rfl fun e _ => ?_
  rw [show idx_main_v33 (ix1 n) e = ix2 n e from idx2, hm_stage]

theorem v39_at (n : Fin 12288) (f : Fin 256) :
    val_main_v39 (F := Ideal) x0 x1 x2 x3 x4 (ix2 n f) = (∑ e : Fin 6144, hm x0 x1 x2 x3 x4 n e) * xp x0 x2 n f := by
  rw [val_main_v39_apply, Ideal.mulf_def, val_main_v38_apply, val_main_v37_apply,
    show idx_main_v37 (idx_main_v38 (ix2 n f)) = ix1 n from idx1, d_stage, xp_stage]

theorem v40_at (e : Fin 6144) (f : Fin 256) :
    val_main_v40 (F := Ideal) x0 x1 x2 x3 x4 (ix2 e f)
      = ∑ n : Fin 12288, hm x0 x1 x2 x3 x4 n e * ((∑ e' : Fin 6144, hm x0 x1 x2 x3 x4 n e') * xp x0 x2 n f) := by
  rw [val_main_v40_apply]
  refine Finset.sum_congr rfl fun n _ => ?_
  rw [show lidx_main_v40 (ix2 e f) n = ix2 e n from idx2, val_main_v36_apply,
    show idx_main_v36 (ix2 e n) = ix2 n e from idx2, hm_stage,
    show ridx_main_v40 (ix2 e f) n = ix2 n f from idx2, v39_at]

theorem v42_at (e : Fin 6144) (f : Fin 256) :
    val_main_v42 (F := Ideal) x0 x1 x2 x3 x4 (ix2 e f)
      = Ideal.div (Ideal.ofBits .f32 0x3F800000#32) (∑ n : Fin 12288, hm x0 x1 x2 x3 x4 n e)
        * ∑ n : Fin 12288, hm x0 x1 x2 x3 x4 n e * ((∑ e' : Fin 6144, hm x0 x1 x2 x3 x4 n e') * xp x0 x2 n f) := by
  rw [val_main_v42_apply, Ideal.mulf_def, v40_at, val_main_v41_apply, val_main_v35_apply,
    show idx_main_v35 (idx_main_v41 (ix2 e f)) = ix1 e from idx1, val_main_v32_apply, Ideal.hostDivf_def,
    colSum_stage, val_main_v31_apply, val_main_cst_6_apply, Ideal.ofBits_def]
  rfl

theorem v45_at (n : Fin 12288) (f : Fin 256) :
    val_main_v45 (F := Ideal) x0 x1 x2 x3 x4 (ix2 n f)
      = (∑ e : Fin 6144, hm x0 x1 x2 x3 x4 n e) * ∑ e : Fin 6144, hm x0 x1 x2 x3 x4 n e *
          (Ideal.div (Ideal.ofBits .f32 0x3F800000#32) (∑ n' : Fin 12288, hm x0 x1 x2 x3 x4 n' e)
            * ∑ n' : Fin 12288, hm x0 x1 x2 x3 x4 n' e * ((∑ e' : Fin 6144, hm x0 x1 x2 x3 x4 n' e') * xp x0 x2 n' f)) := by
  rw [val_main_v45_apply, Ideal.mulf_def, val_main_v44_apply, val_main_v34_apply,
    show idx_main_v34 (idx_main_v44 (ix2 n f)) = ix1 n from idx1, d_stage, val_main_v43_apply]
  refine congrArg (_ * ·) (Finset.sum_congr rfl fun e _ => ?_)
  rw [show lidx_main_v43 (ix2 n f) e = ix2 n e from idx2, hm_stage,
    show ridx_main_v43 (ix2 n f) e = ix2 e f from idx2, v42_at]

theorem out_stage (n : Fin 12288) (f : Fin 256) :
    val_main_v50 (F := Ideal) x0 x1 x2 x3 x4 (ix2 n f) = outR (hm x0 x1 x2 x3 x4) (xp x0 x2) n f := by
  rw [val_main_v50_apply, val_main_v47_apply, val_main_v49_apply, Ideal.mulf_def, val_main_v46_apply,
    val_main_cst_8_apply, val_main_v48_apply, val_main_cst_9_apply, v45_at]
  rfl

end Cert.ReferenceIdeal.RefStages

end
-- ==== Proof.RefRun.lean ====
import proofs.«406483_j14499809591686_3_alg».proof.Proof.RefRead
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ unary main_arg1 main_v0 ((transpose S6144x12288 [1, 0] · transposes_S12288x6144_S6144x12288_1_0) : (⟨S12288x6144, .f32⟩ : BufTy).Contents (Elt F) → (⟨S6144x12288, .f32⟩ : BufTy).Contents (Elt F)),
    binary main_v0 main_arg0 main_v1 ((fun l r => Host.dotGeneral dot_S6144x12288_S12288x256_S6144x256_1_0_0_1_n_n none l r) : (⟨S6144x12288, .f32⟩ : BufTy).Contents (Elt F) → (⟨S12288x256, .f32⟩ : BufTy).Contents (Elt F) → (⟨S6144x256, .f32⟩ : BufTy).Contents (Elt F)),
    nullary main_cst (constant S_ .f32 0x00000000#32),
    binary main_v0 main_cst main_v2 ((fun x v => Host.reduceAdd x v reducesTo_S6144x12288_S6144_d1 h_S_) : (⟨S6144x12288, .f32⟩ : BufTy).Contents (Elt F) → (⟨S_, .f32⟩ : BufTy).Contents (Elt F) → (⟨S6144, .f32⟩ : BufTy).Contents (Elt F)),
    unary main_v2 main_v3 (broadcastInDim S6144x1 ![0] bcast_S6144_S6144x1_0 : (⟨S6144, .f32⟩ : BufTy).Contents (Elt F) → (⟨S6144x1, .f32⟩ : BufTy).Contents (Elt F)),
    unary main_v3 main_v4 (broadcastInDim S6144x256 ![0, 1] bcast_S6144x1_S6144x256_0_1 : (⟨S6144x1, .f32⟩ : BufTy).Contents (Elt F) → (⟨S6144x256, .f32⟩ : BufTy).Contents (Elt F)),
    binary main_v1 main_v4 main_v5 (Host.divf : (⟨S6144x256, .f32⟩ : BufTy).Contents (Elt F) → (⟨S6144x256, .f32⟩ : BufTy).Contents (Elt F) → (⟨S6144x256, .f32⟩ : BufTy).Contents (Elt F)),
    binary main_arg0 main_arg2 main_v6 ((fun l r => Host.dotGeneral dot_S12288x256_S256x256_S12288x256_1_0_0_1_n_n none l r) : (⟨S12288x256, .f32⟩ : BufTy).Contents (Elt F) → (⟨S256x256, .f32⟩ : BufTy).Contents (Elt F) → (⟨S12288x256, .f32⟩ : BufTy).Contents (Elt F)),
    binary main_v5 main_arg2 main_v7 ((fun l r => Host.dotGeneral dot_S6144x256_S256x256_S6144x256_1_0_0_1_n_n none l r) : (⟨S6144x256, .f32⟩ : BufTy).Contents (Elt F) → (⟨S256x256, .f32⟩ : BufTy).Contents (Elt F) → (⟨S6144x256, .f32⟩ : BufTy).Contents (Elt F)),
    binary main_v6 main_arg3 main_v8 ((fun l r => Host.dotGeneral dot_S12288x256_S256x1_S12288x1_1_0_0_1_n_n none l r) : (⟨S12288x256, .f32⟩ : BufTy).Contents (Elt F) → (⟨S256x1, .f32⟩ : BufTy).Contents (Elt F) → (⟨S12288x1, .f32⟩ : BufTy).Contents (Elt F)),
    binary main_v7 main_arg4 main_v9 ((fun l r => Host.dotGeneral dot_S6144x256_S256x1_S6144x1_1_0_0_1_n_n none l r) : (⟨S6144x256, .f32⟩ : BufTy).Contents (Elt F) → (⟨S256x1, .f32⟩ : BufTy).Contents (Elt F) → (⟨S6144x1, .f32⟩ : BufTy).Contents (Elt F)),
    unary main_v9 main_v10 ((transpose S1x6144 [1, 0] · transposes_S6144x1_S1x6144_1_0) : (⟨S6144x1, .f32⟩ : BufTy).Contents (Elt F) → (⟨S1x6144, .f32⟩ : BufTy).Contents (Elt F)),
    unary main_v8 main_v11 (broadcastInDim S12288x6144 ![0, 1] bcast_S12288x1_S12288x6144_0_1 : (⟨S12288x1, .f32⟩ : BufTy).Contents (Elt F) → (⟨S12288x6144, .f32⟩ : BufTy).Contents (Elt F)),
    unary main_v10 main_v12 (broadcastInDim S12288x6144 ![0, 1] bcast_S1x6144_S12288x6144_0_1 : (⟨S1x6144, .f32⟩ : BufTy).Contents (Elt F) → (⟨S12288x6144, .f32⟩ : BufTy).Contents (Elt F)),
    binary main_v11 main_v12 main_v13 (addf : (⟨S12288x6144, .f32⟩ : BufTy).Contents (Elt F) → (⟨S12288x6144, .f32⟩ : BufTy).Contents (Elt F) → (⟨S12288x6144, .f32⟩ : BufTy).Contents (Elt F)),
    nullary main_cst_0 (constant S_ .f32 0x41000000#32),
    unary main_cst_0 main_v14 (broadcastInDim S12288x6144 ![] bcast_S_S12288x6144 : (⟨S_, .f32⟩ : BufTy).Contents (Elt F) → (⟨S12288x6144, .f32⟩ : BufTy).Contents (Elt F)),
    binary main_v13 main_v14 main_v15 (Host.divf : (⟨S12288x6144, .f32⟩ : BufTy).Contents (Elt F) → (⟨S12288x6144, .f32⟩ : BufTy).Contents (Elt F) → (⟨S12288x6144, .f32⟩ : BufTy).Contents (Elt F)),
    unary main_v15 main_v16 (Host.tanh : (⟨S12288x6144, .f32⟩ : BufTy).Contents (Elt F) → (⟨S12288x6144, .f32⟩ : BufTy).Contents (Elt F)),
    nullary main_cst_1 (constant S_ .f32 0x41000000#32),
    unary main_cst_1 main_v17 (broadcastInDim S12288x6144 ![] bcast_S_S12288x6144 : (⟨S_, .f32⟩ : BufTy).Contents (Elt F) → (⟨S12288x6144, .f32⟩ : BufTy).Contents (Elt F)),
    binary main_v16 main_v17 main_v18 (mulf : (⟨S12288x6144, .f32⟩ : BufTy).Contents (Elt F) → (⟨S12288x6144, .f32⟩ : BufTy).Contents (Elt F) → (⟨S12288x6144, .f32⟩ : BufTy).Contents (Elt F)),
    nullary main_cst_2 (constant S_ .f32 0x00000000#32),
    unary main_cst_2 main_v19 (broadcastInDim S12288x6144 ![] bcast_S_S12288x6144 : (⟨S_, .f32⟩ : BufTy).Contents (Elt F) → (⟨S12288x6144, .f32⟩ : BufTy).Contents (Elt F)),
    binary main_v18 main_v19 main_v20 (cmpf .oge : (⟨S12288x6144, .f32⟩ : BufTy).Contents (Elt F) → (⟨S12288x6144, .f32⟩ : BufTy).Contents (Elt F) → (⟨S12288x6144, .i1⟩ : BufTy).Contents (Elt F)),
    nullary main_cst_3 (constant S_ .f32 0x3DCCCCCD#32),
    unary main_cst_3 main_v21 (broadcastInDim S12288x6144 ![] bcast_S_S12288x6144 : (⟨S_, .f32⟩ : BufTy).Contents (Elt F) → (⟨S12288x6144, .f32⟩ : BufTy).Contents (Elt F)),
    binary main_v21 main_v18 main_v22 (mulf : (⟨S12288x6144, .f32⟩ : BufTy).Contents (Elt F) → (⟨S12288x6144, .f32⟩ : BufTy).Contents (Elt F) → (⟨S12288x6144, .f32⟩ : BufTy).Contents (Elt F)),
    TRef.ternary (TRef.of (T := ⟨S12288x6144, .i1⟩) main_v20) (TRef.of (T := ⟨S12288x6144, .f32⟩) main_v18) (TRef.of (T := ⟨S12288x6144, .f32⟩) main_v22) (TRef.of (T := ⟨S12288x6144, .f32⟩) main_v23) select,
    unary main_v23 main_v24 (Host.exp : (⟨S12288x6144, .f32⟩ : BufTy).Contents (Elt F) → (⟨S12288x6144, .f32⟩ : BufTy).Contents (Elt F)),
    binary main_v24 main_arg1 main_v25 (mulf : (⟨S12288x6144, .f32⟩ : BufTy).Contents (Elt F) → (⟨S12288x6144, .f32⟩ : BufTy).Contents (Elt F) → (⟨S12288x6144, .f32⟩ : BufTy).Contents (Elt F)),
    nullary main_cst_4 (constant S_ .f32 0x00000000#32),
    binary main_v25 main_cst_4 main_v26 ((fun x v => Host.reduceAdd x v reducesTo_S12288x6144_S12288_d1 h_S_) : (⟨S12288x6144, .f32⟩ : BufTy).Contents (Elt F) → (⟨S_, .f32⟩ : BufTy).Contents (Elt F) → (⟨S12288, .f32⟩ : BufTy).Contents (Elt F)),
    unary main_v26 main_v27 (broadcastInDim S12288x1 ![0] bcast_S12288_S12288x1_0 : (⟨S12288, .f32⟩ : BufTy).Contents (Elt F) → (⟨S12288x1, .f32⟩ : BufTy).Contents (Elt F)),
    unary main_v27 main_v28 (broadcastInDim S12288x6144 ![0, 1] bcast_S12288x1_S12288x6144_0_1 : (⟨S12288x1, .f32⟩ : BufTy).Contents (Elt F) → (⟨S12288x6144, .f32⟩ : BufTy).Contents (Elt F)),
    binary main_v25 main_v28 main_v29 (Host.divf : (⟨S12288x6144, .f32⟩ : BufTy).Contents (Elt F) → (⟨S12288x6144, .f32⟩ : BufTy).Contents (Elt F) → (⟨S12288x6144, .f32⟩ : BufTy).Contents (Elt F)),
    nullary main_cst_5 (constant S_ .f32 0x00000000#32),
    binary main_v29 main_cst_5 main_v30 ((fun x v => Host.reduceAdd x v reducesTo_S12288x6144_S6144_d0 h_S_) : (⟨S12288x6144, .f32⟩ : BufTy).Contents (Elt F) → (⟨S_, .f32⟩ : BufTy).Contents (Elt F) → (⟨S6144, .f32⟩ : BufTy).Contents (Elt F)),
    nullary main_cst_6 (constant S_ .f32 0x3F800000#32),
    unary main_cst_6 main_v31 (broadcastInDim S6144 ![] bcast_S_S6144 : (⟨S_, .f32⟩ : BufTy).Contents (Elt F) → (⟨S6144, .f32⟩ : BufTy).Contents (Elt F)),
    binary main_v31 main_v30 main_v32 (Host.divf : (⟨S6144, .f32⟩ : BufTy).Contents (Elt F) → (⟨S6144, .f32⟩ : BufTy).Contents (Elt F) → (⟨S6144, .f32⟩ : BufTy).Contents (Elt F)),
    nullary main_cst_7 (constant S_ .f32 0x00000000#32),
    binary main_v29 main_cst_7 main_v33 ((fun x v => Host.reduceAdd x v reducesTo_S12288x6144_S12288_d1 h_S_) : (⟨S12288x6144, .f32⟩ : BufTy).Contents (Elt F) → (⟨S_, .f32⟩ : BufTy).Contents (Elt F) → (⟨S12288, .f32⟩ : BufTy).Contents (Elt F)),
    unary main_v33 main_v34 (broadcastInDim S12288x1 ![0] bcast_S12288_S12288x1_0 : (⟨S12288, .f32⟩ : BufTy).Contents (Elt F) → (⟨S12288x1, .f32⟩ : BufTy).Contents (Elt F)),
    unary main_v32 main_v35 (broadcastInDim S6144x1 ![0] bcast_S6144_S6144x1_0 : (⟨S6144, .f32⟩ : BufTy).Contents (Elt F) → (⟨S6144x1, .f32⟩ : BufTy).Contents (Elt F)),
    unary main_v29 main_v36 ((transpose S6144x12288 [1, 0] · transposes_S12288x6144_S6144x12288_1_0) : (⟨S12288x6144, .f32⟩ : BufTy).Contents (Elt F) → (⟨S6144x12288, .f32⟩ : BufTy).Contents (Elt F)),
    unary main_v33 main_v37 (broadcastInDim S12288x1 ![0] bcast_S12288_S12288x1_0 : (⟨S12288, .f32⟩ : BufTy).Contents (Elt F) → (⟨S12288x1, .f32⟩ : BufTy).Contents (Elt F)),
    unary main_v37 main_v38 (broadcastInDim S12288x256 ![0, 1] bcast_S12288x1_S12288x256_0_1 : (⟨S12288x1, .f32⟩ : BufTy).Contents (Elt F) → (⟨S12288x256, .f32⟩ : BufTy).Contents (Elt F)),
    binary main_v38 main_v6 main_v39 (mulf : (⟨S12288x256, .f32⟩ : BufTy).Contents (Elt F) → (⟨S12288x256, .f32⟩ : BufTy).Contents (Elt F) → (⟨S12288x256, .f32⟩ : BufTy).Contents (Elt F)),
    binary main_v36 main_v39 main_v40 ((fun l r => Host.dotGeneral dot_S6144x12288_S12288x256_S6144x256_1_0_0_1_n_n none l r) : (⟨S6144x12288, .f32⟩ : BufTy).Contents (Elt F) → (⟨S12288x256, .f32⟩ : BufTy).Contents (Elt F) → (⟨S6144x256, .f32⟩ : BufTy).Contents (Elt F)),
    unary main_v35 main_v41 (broadcastInDim S6144x256 ![0, 1] bcast_S6144x1_S6144x256_0_1 : (⟨S6144x1, .f32⟩ : BufTy).Contents (Elt F) → (⟨S6144x256, .f32⟩ : BufTy).Contents (Elt F)),
    binary main_v41 main_v40 main_v42 (mulf : (⟨S6144x256, .f32⟩ : BufTy).Contents (Elt F) → (⟨S6144x256, .f32⟩ : BufTy).Contents (Elt F) → (⟨S6144x256, .f32⟩ : BufTy).Contents (Elt F)),
    binary main_v29 main_v42 main_v43 ((fun l r => Host.dotGeneral dot_S12288x6144_S6144x256_S12288x256_1_0_0_1_n_n none l r) : (⟨S12288x6144, .f32⟩ : BufTy).Contents (Elt F) → (⟨S6144x256, .f32⟩ : BufTy).Contents (Elt F) → (⟨S12288x256, .f32⟩ : BufTy).Contents (Elt F)),
    unary main_v34 main_v44 (broadcastInDim S12288x256 ![0, 1] bcast_S12288x1_S12288x256_0_1 : (⟨S12288x1, .f32⟩ : BufTy).Contents (Elt F) → (⟨S12288x256, .f32⟩ : BufTy).Contents (Elt F)),
    binary main_v44 main_v43 main_v45 (mulf : (⟨S12288x256, .f32⟩ : BufTy).Contents (Elt F) → (⟨S12288x256, .f32⟩ : BufTy).Contents (Elt F) → (⟨S12288x256, .f32⟩ : BufTy).Contents (Elt F)),
    nullary main_cst_8 (constant S_ .f32 0x00000000#32),
    unary main_cst_8 main_v46 (broadcastInDim S12288x256 ![] bcast_S_S12288x256 : (⟨S_, .f32⟩ : BufTy).Contents (Elt F) → (⟨S12288x256, .f32⟩ : BufTy).Contents (Elt F)),
    binary main_v45 main_v46 main_v47 (cmpf .oge : (⟨S12288x256, .f32⟩ : BufTy).Contents (Elt F) → (⟨S12288x256, .f32⟩ : BufTy).Contents (Elt F) → (⟨S12288x256, .i1⟩ : BufTy).Contents (Elt F)),
    nullary main_cst_9 (constant S_ .f32 0x3DCCCCCD#32),
    unary main_cst_9 main_v48 (broadcastInDim S12288x256 ![] bcast_S_S12288x256 : (⟨S_, .f32⟩ : BufTy).Contents (Elt F) → (⟨S12288x256, .f32⟩ : BufTy).Contents (Elt F)),
    binary main_v48 main_v45 main_v49 (mulf : (⟨S12288x256, .f32⟩ : BufTy).Contents (Elt F) → (⟨S12288x256, .f32⟩ : BufTy).Contents (Elt F) → (⟨S12288x256, .f32⟩ : BufTy).Contents (Elt F)),
    TRef.ternary (TRef.of (T := ⟨S12288x256, .i1⟩) main_v47) (TRef.of (T := ⟨S12288x256, .f32⟩) main_v45) (TRef.of (T := ⟨S12288x256, .f32⟩) main_v49) (TRef.of (T := ⟨S12288x256, .f32⟩) main_v50) select ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., nullary_bufs_sub .., binary_bufs_sub .., unary_bufs_sub .., unary_bufs_sub .., binary_bufs_sub .., binary_bufs_sub .., binary_bufs_sub .., binary_bufs_sub .., binary_bufs_sub .., unary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., unary_bufs_sub .., binary_bufs_sub .., nullary_bufs_sub .., binary_bufs_sub .., nullary_bufs_sub .., unary_bufs_sub .., binary_bufs_sub .., nullary_bufs_sub .., binary_bufs_sub .., unary_bufs_sub .., unary_bufs_sub .., unary_bufs_sub .., unary_bufs_sub .., unary_bufs_sub .., binary_bufs_sub .., binary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub ..⟩

set_option maxRecDepth 8192 in
set_option maxHeartbeats 24800000 in
/-- The program is a straight line of host operations, so it runs to the end with its arguments untouched; its result is
    the last stage of module RefRead, each stage being its operation applied to the earlier stages by definition. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50) = Read.val_main_v50 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v50).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.Value

end
-- ==== Proof.Algebra.lean ====
import proofs.«406483_j14499809591686_3_alg».proof.Proof.Spec
import Idealize.ShloMosaic.Lib.IdealHost

noncomputable section

namespace Cert.HyperAttn

open Idealize.ShloMosaic Idealize.ShloMosaic.ValueIdx

theorem tenth_real : ∃ c : ℝ, Ideal.ofBits .f32 0x3DCCCCCD#32 = (c : EReal) := by
  refine ⟨(13421773 : ℝ) * (2 : ℝ) ^ (-27 : ℤ), ?_⟩
  simp [Ideal.ofBits, Ideal.ieee, -EReal.coe_mul]

theorem eight_real : Ideal.ofBits .f32 0x41000000#32 = ((8 : ℝ) : EReal) := by
  simp [Ideal.ofBits, Ideal.ieee, -EReal.coe_mul]; norm_num

theorem tanh_real (t : EReal) : ∃ r : ℝ, Ideal.tanh t = (r : EReal) := by
  induction t using EReal.rec with
  | bot => exact ⟨-1, by rw [Ideal.tanh_bot, EReal.coe_neg, EReal.coe_one]⟩
  | coe r => exact ⟨Real.tanh r, rfl⟩
  | top => exact ⟨1, by rw [Ideal.tanh_top, EReal.coe_one]⟩

theorem slope_real (r : ℝ) : ∃ r' : ℝ, slope (r : EReal) = (r' : EReal) := by
  obtain ⟨c, hc⟩ := tenth_real
  unfold slope Scalar.select
  split
  · exact ⟨r, rfl⟩
  · exact ⟨c * r, by rw [hc, EReal.coe_mul]⟩

theorem act_real (s : EReal) : ∃ r : ℝ, act s = (r : EReal) := by
  obtain ⟨t, ht⟩ := tanh_real (s * Ideal.ofBits .f32 0x3E000000#32)
  obtain ⟨r, hr⟩ := slope_real (t * 8)
  refine ⟨r, ?_⟩
  unfold act
  rw [ht, eight_real, ← EReal.coe_mul, hr]

theorem wgt_real (x : FVec Ideal SNK .f32) (H : FVec Ideal SNE .f32) (p : FVec Ideal SKF .f32) (a1 a2 : FVec Ideal SF1 .f32)
    (hH : ∀ (n : Fin 12288) (e : Fin 6144), ∃ r : ℝ, H (ix2 n e) = (r : EReal)) (n : Fin 12288) (e : Fin 6144) :
    ∃ r : ℝ, wgt x H p a1 a2 n e = (r : EReal) := by
  obtain ⟨a, ha⟩ := act_real (s1 x p a1 n + s2 x H p a2 e)
  obtain ⟨h, hh⟩ := hH n e
  refine ⟨Real.exp a * h, ?_⟩
  unfold wgt
  rw [ha, hh, Ideal.exp_coe, EReal.coe_mul]

theorem coe_finset_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem hm_row_sum (x : FVec Ideal SNK .f32) (H : FVec Ideal SNE .f32) (p : FVec Ideal SKF .f32) (a1 a2 : FVec Ideal SF1 .f32)
    (hH : ∀ (n : Fin 12288) (e : Fin 6144), ∃ r : ℝ, H (ix2 n e) = (r : EReal))
    (hrow : ∀ n : Fin 12288, rowSum x H p a1 a2 n ≠ 0) (n : Fin 12288) :
    ∑ e : Fin 6144, hm x H p a1 a2 n e = 1 := by
  choose r hr using fun e => wgt_real x H p a1 a2 hH n e
  have hR : rowSum x H p a1 a2 n = ((∑ e : Fin 6144, r e : ℝ) : EReal) := by
    unfold rowSum
    rw [coe_finset_sum]
    exact Finset.sum_congr rfl fun e _ => hr e
  have hne : (∑ e : Fin 6144, r e : ℝ) ≠ 0 := by
    intro h0
    apply hrow n
    rw [hR, h0, EReal.coe_zero]
  have hterm : ∀ e : Fin 6144, hm x H p a1 a2 n e = ((r e * (1 / ∑ e' : Fin 6144, r e') : ℝ) : EReal) := by
    intro e
    unfold hm
    rw [hR, Ideal.div_coe hne, hr e, ← EReal.coe_mul]
  rw [Finset.sum_congr rfl fun e _ => hterm e, ← coe_finset_sum, ← Finset.sum_mul, mul_one_div_cancel hne, EReal.coe_one]

theorem outK_eq_outR (w : Fin 12288 → Fin 6144 → EReal) (y : Fin 12288 → Fin 256 → EReal)
    (hrow : ∀ n : Fin 12288, ∑ e : Fin 6144, w n e = 1) (hcol : ∀ e : Fin 6144, ∑ n : Fin 12288, w n e ≠ 0)
    (n : Fin 12288) (f : Fin 256) : outK w y n f = outR w y n f := by
  unfold outK outR edgeMix
  refine congrArg slope ?_
  rw [hrow n, one_mul]
  refine Finset.sum_congr rfl fun e _ => congrArg (w n e * ·) ?_
  rw [Ideal.div, if_neg (hcol e), Ideal.div, if_neg (hcol e), Ideal.ofBits_one_f32, one_mul, mul_comm]
  refine congrArg ((∑ n' : Fin 12288, w n' e)⁻¹ * ·) ?_
  exact Finset.sum_congr rfl fun n' _ => by rw [hrow n', one_mul, mul_comm]

end Cert.HyperAttn

end
-- ==== Proof.PreDecode.lean ====
import proofs.«406483_j14499809591686_3_alg».proof.Proof.Gen.Pre_finite_inputs
import proofs.«406483_j14499809591686_3_alg».proof.Proof.RefStages
import Idealize.ShloMosaic.Lib.ReduceAll
import Idealize.ShloMosaic.Lib.StableHlo.Predicate

noncomputable section

namespace Cert.PreDecode

open Cert.HyperAttn Idealize.ShloMosaic Idealize.ShloMosaic.ValueIdx

section Generic

open Cert.Pre_finite_inputs Cert.Pre_finite_inputs.Facts

variable {F : FTy → Type} [FloatOps F]

def allFinite {s : Shape} {axes : List (Fin s.rank)} (hb : S_.BroadcastsInDim s (![] : Fin 0 → Fin s.rank))
    (hr : s.ReducesTo axes S_) (a : FVec F s .f32) : IVec S_ 1 :=
  Host.reduce IntOp.andi (cmpf .olt (Host.absf a) (broadcastInDim s ![] hb (constant S_ .f32 0x7F800000#32)))
    (constantI S_ 1 1#1) hr h_S_

def allNonzero {s : Shape} {axes : List (Fin s.rank)} (hb : S_.BroadcastsInDim s (![] : Fin 0 → Fin s.rank))
    (hr : s.ReducesTo axes S_) (a : FVec F s .f32) : IVec S_ 1 :=
  Host.reduce IntOp.andi (cmpf .une a (broadcastInDim s ![] hb (constant S_ .f32 0x00000000#32)))
    (constantI S_ 1 1#1) hr h_S_

def finitePart (x0 : FVec F S12288x256 .f32) (x1 : FVec F S12288x6144 .f32) (x2 : FVec F S256x256 .f32)
    (x3 x4 : FVec F S256x1 .f32) : IVec S_ 1 :=
  andi (andi (andi (andi (allFinite bcast_S_S12288x256 reducesTo_S12288x256_S_d0_1 x0)
    (allFinite bcast_S_S12288x6144 reducesTo_S12288x6144_S_d0_1 x1))
    (allFinite bcast_S_S256x256 reducesTo_S256x256_S_d0_1 x2))
    (allFinite bcast_S_S256x1 reducesTo_S256x1_S_d0_1 x3))
    (allFinite bcast_S_S256x1 reducesTo_S256x1_S_d0_1 x4)

theorem fn_eq (x0 : FVec F S12288x256 .f32) (x1 : FVec F S12288x6144 .f32) (x2 : FVec F S256x256 .f32)
    (x3 x4 : FVec F S256x1 .f32) :
    fn (F := F) x0 x1 x2 x3 x4
      = andi (andi (finitePart x0 x1 x2 x3 x4)
          (allNonzero bcast_S_S12288x1 reducesTo_S12288x1_S_d0_1 (Cert.ReferenceIdeal.Read.val_main_v27 (F := F) x0 x1 x2 x3 x4)))
          (allNonzero bcast_S_S6144 reducesTo_S6144_S_d0 (Cert.ReferenceIdeal.Read.val_main_v30 (F := F) x0 x1 x2 x3 x4)) := by
  rfl

end Generic

section AtIdeal

open Cert.Pre_finite_inputs Cert.Pre_finite_inputs.Facts

local instance : Subsingleton S_.Idx := ⟨fun a b => funext fun d => d.elim0⟩

theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := of_decide_eq_true ((StableHlo.Predicate.ofBool_eq_one_iff _).1 h)
  induction x using EReal.rec with
  | bot => exact absurd hlt (by simp)
  | coe r => exact ⟨r, rfl⟩
  | top => exact absurd hlt (by simp)

theorem ne_zero_of_une (x : EReal) (h : Ideal.cmp .une x (Ideal.ofBits .f32 0x00000000#32) = 1#1) : x ≠ 0 := by
  rw [Ideal.ofBits_zero_f32] at h
  exact of_decide_eq_true ((StableHlo.Predicate.ofBool_eq_one_iff _).1 h)

theorem allFinite_elim {s : Shape} {axes : List (Fin s.rank)} (hb : S_.BroadcastsInDim s (![] : Fin 0 → Fin s.rank))
    (hr : s.ReducesTo axes S_) (a : FVec Ideal s .f32) (h : allFinite hb hr a ix0 = 1#1) (i : s.Idx) :
    ∃ r : ℝ, a i = (r : EReal) :=
  real_of_abs_lt_top (a i) (Host.reduce_andi_all _ _ hr h_S_ ix0 h i)

theorem allNonzero_elim {s : Shape} {axes : List (Fin s.rank)} (hb : S_.BroadcastsInDim s (![] : Fin 0 → Fin s.rank))
    (hr : s.ReducesTo axes S_) (a : FVec Ideal s .f32) (h : allNonzero hb hr a ix0 = 1#1) (i : s.Idx) : a i ≠ 0 :=
  ne_zero_of_une (a i) (Host.reduce_andi_all _ _ hr h_S_ ix0 h i)

end AtIdeal

theorem of_pre (x0 : FVec Ideal Cert.Pre_finite_inputs.S12288x256 .f32) (x1 : FVec Ideal Cert.Pre_finite_inputs.S12288x6144 .f32)
    (x2 : FVec Ideal Cert.Pre_finite_inputs.S256x256 .f32) (x3 x4 : FVec Ideal Cert.Pre_finite_inputs.S256x1 .f32)
    (h : Cert.Pre_finite_inputs.fn (F := Ideal) x0 x1 x2 x3 x4 = fun _ => 1#1) :
    (∀ (n : Fin 12288) (e : Fin 6144), ∃ r : ℝ, x1 (ix2 n e) = (r : EReal))
      ∧ (∀ n : Fin 12288, rowSum x0 x1 x2 x3 x4 n ≠ 0)
      ∧ (∀ e : Fin 6144, colSum x0 x1 x2 x3 x4 e ≠ 0) := by
  have h0 := congrFun h ix0
  rw [fn_eq] at h0
  obtain ⟨h12, h3⟩ := IntOp.andi_eq_one.1 h0
  obtain ⟨h1, h2⟩ := IntOp.andi_eq_one.1 h12
  have hH := (IntOp.andi_eq_one.1 (IntOp.andi_eq_one.1 (IntOp.andi_eq_one.1 (IntOp.andi_eq_one.1 h1).1).1).1).2
  refine ⟨fun n e => allFinite_elim _ _ x1 hH (ix2 n e), fun n => ?_, fun e => ?_⟩
  · exact (Cert.ReferenceIdeal.RefStages.rowSum_stage x0 x1 x2 x3 x4 n).symm.trans_ne (allNonzero_elim _ _ _ h2 (ix2 n 0))
  · exact (Cert.ReferenceIdeal.RefStages.colSum_stage x0 x1 x2 x3 x4 e).symm.trans_ne (allNonzero_elim _ _ _ h3 (ix1 e))

end Cert.PreDecode

end
-- ==== Proof.lean ====
/-
  Hypergraph attention: from node features x, incidence weights H, a projection p and two attention vectors, both
  programs form the edge means (Hᵀx divided by H's column sums), project nodes and edges, score every node-edge pair,
  weight the incidences by the exponentiated scores and normalise each row to hm. The reference then forms
  D ∘ (hm (B ∘ (hmᵀ (D ∘ xp)))) with D the row sums of hm and B the reciprocals of its column sums; the kernels leave D
  out and divide by the column sums. The two agree where each row of weights has a nonzero sum (then a row of hm sums
  to 1) and no column of hm sums to 0 (then a / c = (1 / c) a): these are the precondition's two conjuncts.
-/
import proofs.«406483_j14499809591686_3_alg».proof.Proof.Gen.Kernel
import proofs.«406483_j14499809591686_3_alg».proof.Proof.Gen.KernelIdeal
import proofs.«406483_j14499809591686_3_alg».proof.Proof.Gen.ReferenceIdeal
import proofs.«406483_j14499809591686_3_alg».proof.Proof.Gen.Pre_finite_inputs
import proofs.«406483_j14499809591686_3_alg».proof.Defs
import proofs.«406483_j14499809591686_3_alg».proof.Proof.KMainRun
import proofs.«406483_j14499809591686_3_alg».proof.Proof.MainRun
import proofs.«406483_j14499809591686_3_alg».proof.Proof.KernelValue
import proofs.«406483_j14499809591686_3_alg».proof.Proof.RefStages
import proofs.«406483_j14499809591686_3_alg».proof.Proof.RefRun
import proofs.«406483_j14499809591686_3_alg».proof.Proof.Algebra
import proofs.«406483_j14499809591686_3_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem Cert.HyperAttn

/-- The word-level program runs to the end and leaves its arguments as launched: the four regions and the host stretch, chained. -/
theorem frame_k : Cert.frame_Kernel := fun m ρ _ => Cert.Kernel.MainRun.frame m ρ

/-- So does its idealization: the same text read at the extended reals. -/
theorem frame_ki : Cert.frame_KernelIdeal := fun m ρ _ => Cert.KernelIdeal.MainRun.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the idealization. -/
theorem preserves : Cert.preserves_Kernel_KernelIdeal := trivial

/-- Both results are the same function of hm and xp: under the precondition a row of hm sums to 1 and a / c = (1 / c) a for each column sum c. -/
theorem algebraic : Cert.algebraic_KernelIdeal_ReferenceIdeal := by
  intro m ρ m' ρ' hpre hagree
  refine ⟨fun c => Cert.KernelIdeal.MainRun.W5 (F := Ideal) m ρ c (Proc.devRef .tc Cert.KernelIdeal.main_v9), ?_, ?_⟩
  · exact (θ_run Cert.KernelIdeal.defs _ _).mono (fun r h c =>
      ⟨h c _ (Cert.KernelIdeal.MainRun.mem_uc Cert.KernelIdeal.main_v9 (by decide)),
       (h c _ (Cert.KernelIdeal.MainRun.mem_uc Cert.KernelIdeal.main_arg0 (by decide))).trans (Cert.KernelIdeal.MainRun.W5_arg0 m ρ c),
       (h c _ (Cert.KernelIdeal.MainRun.mem_uc Cert.KernelIdeal.main_arg1 (by decide))).trans (Cert.KernelIdeal.MainRun.W5_arg1 m ρ c),
       (h c _ (Cert.KernelIdeal.MainRun.mem_uc Cert.KernelIdeal.main_arg2 (by decide))).trans (Cert.KernelIdeal.MainRun.W5_arg2 m ρ c),
       (h c _ (Cert.KernelIdeal.MainRun.mem_uc Cert.KernelIdeal.main_arg3 (by decide))).trans (Cert.KernelIdeal.MainRun.W5_arg3 m ρ c),
       (h c _ (Cert.KernelIdeal.MainRun.mem_uc Cert.KernelIdeal.main_arg4 (by decide))).trans (Cert.KernelIdeal.MainRun.W5_arg4 m ρ c)⟩)
      (Cert.KernelIdeal.MainRun.run_all (F := Ideal) m ρ)
  · refine (θ_run Cert.ReferenceIdeal.defs _ _).mono (fun r h c => ⟨(h c).1.trans ?_, (h c).2⟩)
      (Cert.ReferenceIdeal.Value.run (F := Ideal) m' ρ')
    obtain ⟨hH, hrow, hcol⟩ := Cert.PreDecode.of_pre _ _ _ _ _ (hpre c)
    rw [(hagree c).1, (hagree c).2.1, (hagree c).2.2.1, (hagree c).2.2.2.1, (hagree c).2.2.2.2]
    funext i
    obtain ⟨n, f, rfl⟩ : ∃ (n : Fin 12288) (f : Fin 256), i = ix2 n f := ⟨i 0, i 1, eq_ix2 i⟩
    refine (Cert.ReferenceIdeal.RefStages.out_stage _ _ _ _ _ n f).trans ?_
    refine ((outK_eq_outR _ _ (hm_row_sum _ _ _ _ _ hH hrow) hcol n f).symm).trans ?_
    exact (Cert.KernelIdeal.KernelValue.result_eq m ρ c n f).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
